-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![4096, 2048]⟩ ⟨2, ![8192, 2048]⟩ (Layout.meshBlock [2, 4, 4] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![8192, 1024]⟩ ⟨2, ![8192, 2048]⟩ (Layout.meshBlock [2, 4, 4] ![[], [0]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S4096x2048 : Shape := ⟨2, ![4096, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel

variable [Facts]

def fn {F : FTy → Type} [FloatOps F] (main_arg0 : FVec F S4096x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  main_v3
-- ==== Pre_finite_inputs_ReferenceIdeal.lean ====
abbrev S8192x2048 : Shape := ⟨2, ![8192, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel

variable [Facts]

def fn {F : FTy → Type} [FloatOps F] (main_arg0 : FVec F S8192x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  main_v3
-- ==== Kernel.lean ====
abbrev S4096x2048 : Shape := ⟨2, ![4096, 2048]⟩
abbrev S8192x1024 : Shape := ⟨2, ![8192, 1024]⟩
abbrev S2x512x2048 : Shape := ⟨3, ![2, 512, 2048]⟩
abbrev S8x512x1024 : Shape := ⟨3, ![8, 512, 1024]⟩
abbrev S2 : Shape := ⟨1, ![2]⟩
abbrev S8 : Shape := ⟨1, ![8]⟩
abbrev S_ : Shape := ⟨0, ![]⟩
abbrev S1 : Shape := ⟨1, ![1]⟩
abbrev S1x512x2048 : Shape := ⟨3, ![1, 512, 2048]⟩
abbrev S512x2048 : Shape := ⟨2, ![512, 2048]⟩
abbrev S1x512x1024 : Shape := ⟨3, ![1, 512, 1024]⟩
abbrev S512x1024 : Shape := ⟨2, ![512, 1024]⟩

abbrev nBuf : Space → Nat
  | .hbm => 2
  | .vmem => 3
  | .smem => 0
  | _ => 0

abbrev bufTy : (tb : Table) → Fin (tcTables nBuf tb) → BufTy
  | .hbm, ⟨0, _⟩ => ⟨S4096x2048, .f32⟩
  | .hbm, ⟨1, _⟩ => ⟨S8192x1024, .f32⟩
  | .local _ .vmem, ⟨0, _⟩ => ⟨S2x512x2048, .f32⟩
  | .local _ .vmem, ⟨1, _⟩ => ⟨S8x512x1024, .f32⟩
  | .local _ .vmem, ⟨2, _⟩ => ⟨S8x512x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  (ofTc nBuf bufTy 1 26 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_4 : BitVec 32 := 16#32
  let v11 : BitVec 32 := Scalar.muli v9 c16_i32_4
  let v12 : BitVec 32 := Scalar.addi c0_i32 v11
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5 : BitVec 32 := 4#32
  let v13 : BitVec 32 := Scalar.muli v5 c4_i32_5
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v15 : BitVec 32 := Scalar.muli v8 c1_i32_6
  let v16 : BitVec 32 := Scalar.addi v14 v15
  v16.toNat
def k0_off1 (d0 : Dev nD) (c0_i32_29 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4096_i32 : BitVec 32 := 4096#32
  let v38 : BitVec 32 := Scalar.muli v2 c4096_i32
  let v39 : BitVec 32 := Scalar.addi v38 c0_i32_29
  let c0_i32_37 : BitVec 32 := 0#32
  ![v39.toNat, 0]
def k0_dev2 (d0 : Dev nD) : Nat :=
  let c0_i32_34 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_33 : BitVec 32 := 16#32
  let v40 : BitVec 32 := Scalar.muli v9 c16_i32_33
  let v41 : BitVec 32 := Scalar.addi c0_i32_34 v40
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_35 : BitVec 32 := 4#32
  let v42 : BitVec 32 := Scalar.muli v5 c4_i32_35
  let v43 : BitVec 32 := Scalar.addi v41 v42
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_36 : BitVec 32 := 1#32
  let v44 : BitVec 32 := Scalar.muli v8 c1_i32_36
  let v45 : BitVec 32 := Scalar.addi v43 v44
  v45.toNat
def k0_dev3 (d0 : Dev nD) : Nat :=
  let c0_i32_68 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_67 : BitVec 32 := 16#32
  let v78 : BitVec 32 := Scalar.muli v9 c16_i32_67
  let v79 : BitVec 32 := Scalar.addi c0_i32_68 v78
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_69 : BitVec 32 := 4#32
  let v80 : BitVec 32 := Scalar.muli v5 c4_i32_69
  let v81 : BitVec 32 := Scalar.addi v79 v80
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_70 : BitVec 32 := 1#32
  let v82 : BitVec 32 := Scalar.muli v8 c1_i32_70
  let v83 : BitVec 32 := Scalar.addi v81 v82
  v83.toNat
def k0_dev4 (d0 : Dev nD) : Nat :=
  let c0_i32_102 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_101 : BitVec 32 := 16#32
  let v116 : BitVec 32 := Scalar.muli v9 c16_i32_101
  let v117 : BitVec 32 := Scalar.addi c0_i32_102 v116
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_103 : BitVec 32 := 4#32
  let v118 : BitVec 32 := Scalar.muli v5 c4_i32_103
  let v119 : BitVec 32 := Scalar.addi v117 v118
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_104 : BitVec 32 := 1#32
  let v120 : BitVec 32 := Scalar.muli v8 c1_i32_104
  let v121 : BitVec 32 := Scalar.addi v119 v120
  v121.toNat
def k0_dev5 (d0 : Dev nD) : Nat :=
  let c0_i32_135 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_134 : BitVec 32 := 16#32
  let v154 : BitVec 32 := Scalar.muli v9 c16_i32_134
  let v155 : BitVec 32 := Scalar.addi c0_i32_135 v154
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_136 : BitVec 32 := 4#32
  let v156 : BitVec 32 := Scalar.muli v5 c4_i32_136
  let v157 : BitVec 32 := Scalar.addi v155 v156
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_137 : BitVec 32 := 1#32
  let v158 : BitVec 32 := Scalar.muli v8 c1_i32_137
  let v159 : BitVec 32 := Scalar.addi v157 v158
  v159.toNat
def k0_dev6 (d0 : Dev nD) : Nat :=
  let c0_i32_169 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_168 : BitVec 32 := 16#32
  let v192 : BitVec 32 := Scalar.muli v9 c16_i32_168
  let v193 : BitVec 32 := Scalar.addi c0_i32_169 v192
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_170 : BitVec 32 := 4#32
  let v194 : BitVec 32 := Scalar.muli v5 c4_i32_170
  let v195 : BitVec 32 := Scalar.addi v193 v194
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_171 : BitVec 32 := 1#32
  let v196 : BitVec 32 := Scalar.muli v8 c1_i32_171
  let v197 : BitVec 32 := Scalar.addi v195 v196
  v197.toNat
def k0_dev7 (d0 : Dev nD) : Nat :=
  let c0_i32_202 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_201 : BitVec 32 := 16#32
  let v230 : BitVec 32 := Scalar.muli v9 c16_i32_201
  let v231 : BitVec 32 := Scalar.addi c0_i32_202 v230
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_203 : BitVec 32 := 4#32
  let v232 : BitVec 32 := Scalar.muli v5 c4_i32_203
  let v233 : BitVec 32 := Scalar.addi v231 v232
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_204 : BitVec 32 := 1#32
  let v234 : BitVec 32 := Scalar.muli v8 c1_i32_204
  let v235 : BitVec 32 := Scalar.addi v233 v234
  v235.toNat
def k0_dev8 (d0 : Dev nD) : Nat :=
  let c0_i32_235 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_234 : BitVec 32 := 16#32
  let v268 : BitVec 32 := Scalar.muli v9 c16_i32_234
  let v269 : BitVec 32 := Scalar.addi c0_i32_235 v268
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_236 : BitVec 32 := 4#32
  let v270 : BitVec 32 := Scalar.muli v5 c4_i32_236
  let v271 : BitVec 32 := Scalar.addi v269 v270
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_237 : BitVec 32 := 1#32
  let v272 : BitVec 32 := Scalar.muli v8 c1_i32_237
  let v273 : BitVec 32 := Scalar.addi v271 v272
  v273.toNat
def k0_dev9 (d0 : Dev nD) : Nat :=
  let c0_i32_263 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_262 : BitVec 32 := 16#32
  let v301 : BitVec 32 := Scalar.muli v9 c16_i32_262
  let v302 : BitVec 32 := Scalar.addi c0_i32_263 v301
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_264 : BitVec 32 := 4#32
  let v303 : BitVec 32 := Scalar.muli v5 c4_i32_264
  let v304 : BitVec 32 := Scalar.addi v302 v303
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_265 : BitVec 32 := 1#32
  let v305 : BitVec 32 := Scalar.muli v8 c1_i32_265
  let v306 : BitVec 32 := Scalar.addi v304 v305
  v306.toNat

class Facts₀ : Prop where
  hamt_1 : (1#32 : BitVec 32).msb = false
  inb_S2_S1_0 : ∀ a, (![0] : Fin 1 → Nat) a + S1.size a ≤ S2.size a
  squeezes_S1_S_ : S1.Squeezes S_
  inb_S2x512x2048_S1x512x2048_0_0_0 : ∀ a, (![0, 0, 0] : Fin 3 → Nat) a + S1x512x2048.size a ≤ S2x512x2048.size a
  squeezes_S1x512x2048_S512x2048 : S1x512x2048.Squeezes S512x2048
  inb_S4096x2048_S512x2048_0_0 : ∀ a, (![0, 0] : Fin 2 → Nat) a + S512x2048.size a ≤ S4096x2048.size a
  inb_S2_S1_1 : ∀ a, (![1] : Fin 1 → Nat) a + S1.size a ≤ S2.size a
  inb_S2x512x2048_S1x512x2048_1_0_0 : ∀ a, (![1, 0, 0] : Fin 3 → Nat) a + S1x512x2048.size a ≤ S2x512x2048.size a
  inb_S4096x2048_S512x2048_512_0 : ∀ a, (![512, 0] : Fin 2 → Nat) a + S512x2048.size a ≤ S4096x2048.size a
  inb_S2x512x2048_S1x512x1024_0_0_1024 : ∀ a, (![0, 0, 1024] : Fin 3 → Nat) a + S1x512x1024.size a ≤ S2x512x2048.size a
  h_S1x512x1024 : 0 < S1x512x1024.numel
  shapeCasts_S1x512x1024_S512x1024 : S1x512x1024.ShapeCasts S512x1024
  inb_S8x512x1024_S1x512x1024_0_0_0 : ∀ a, (![0, 0, 0] : Fin 3 → Nat) a + S1x512x1024.size a ≤ S8x512x1024.size a
  shapeCasts_S512x1024_S1x512x1024 : S512x1024.ShapeCasts S1x512x1024
  inb_S2x512x2048_S1x512x1024_0_0_0 : ∀ a, (![0, 0, 0] : Fin 3 → Nat) a + S1x512x1024.size a ≤ S2x512x2048.size a
  inb_S8_S1_0 : ∀ a, (![0] : Fin 1 → Nat) a + S1.size a ≤ S8.size a
  squeezes_S1x512x1024_S512x1024 : S1x512x1024.Squeezes S512x1024
  inb_S4096x2048_S512x2048_1024_0 : ∀ a, (![1024, 0] : Fin 2 → Nat) a + S512x2048.size a ≤ S4096x2048.size a
  inb_S2x512x2048_S1x512x1024_1_0_1024 : ∀ a, (![1, 0, 1024] : Fin 3 → Nat) a + S1x512x1024.size a ≤ S2x512x2048.size a
  inb_S8x512x1024_S1x512x1024_1_0_0 : ∀ a, (![1, 0, 0] : Fin 3 → Nat) a + S1x512x1024.size a ≤ S8x512x1024.size a
  inb_S2x512x2048_S1x512x1024_1_0_0 : ∀ a, (![1, 0, 0] : Fin 3 → Nat) a + S1x512x1024.size a ≤ S2x512x2048.size a
  inb_S8_S1_1 : ∀ a, (![1] : Fin 1 → Nat) a + S1.size a ≤ S8.size a
  inb_S4096x2048_S512x2048_1536_0 : ∀ a, (![1536, 0] : Fin 2 → Nat) a + S512x2048.size a ≤ S4096x2048.size a
  inb_S8x512x1024_S1x512x1024_2_0_0 : ∀ a, (![2, 0, 0] : Fin 3 → Nat) a + S1x512x1024.size a ≤ S8x512x1024.size a
  inb_S8_S1_2 : ∀ a, (![2] : Fin 1 → Nat) a + S1.size a ≤ S8.size a
  inb_S4096x2048_S512x2048_2048_0 : ∀ a, (![2048, 0] : Fin 2 → Nat) a + S512x2048.size a ≤ S4096x2048.size a
  inb_S8x512x1024_S1x512x1024_3_0_0 : ∀ a, (![3, 0, 0] : Fin 3 → Nat) a + S1x512x1024.size a ≤ S8x512x1024.size a
  inb_S8_S1_3 : ∀ a, (![3] : Fin 1 → Nat) a + S1.size a ≤ S8.size a
  inb_S4096x2048_S512x2048_2560_0 : ∀ a, (![2560, 0] : Fin 2 → Nat) a + S512x2048.size a ≤ S4096x2048.size a
  inb_S8x512x1024_S1x512x1024_4_0_0 : ∀ a, (![4, 0, 0] : Fin 3 → Nat) a + S1x512x1024.size a ≤ S8x512x1024.size a
  inb_S8_S1_4 : ∀ a, (![4] : Fin 1 → Nat) a + S1.size a ≤ S8.size a
  inb_S4096x2048_S512x2048_3072_0 : ∀ a, (![3072, 0] : Fin 2 → Nat) a + S512x2048.size a ≤ S4096x2048.size a
  inb_S8x512x1024_S1x512x1024_5_0_0 : ∀ a, (![5, 0, 0] : Fin 3 → Nat) a + S1x512x1024.size a ≤ S8x512x1024.size a
  inb_S8_S1_5 : ∀ a, (![5] : Fin 1 → Nat) a + S1.size a ≤ S8.size a
  inb_S4096x2048_S512x2048_3584_0 : ∀ a, (![3584, 0] : Fin 2 → Nat) a + S512x2048.size a ≤ S4096x2048.size a
  inb_S8x512x1024_S1x512x1024_6_0_0 : ∀ a, (![6, 0, 0] : Fin 3 → Nat) a + S1x512x1024.size a ≤ S8x512x1024.size a
  inb_S8_S1_6 : ∀ a, (![6] : Fin 1 → Nat) a + S1.size a ≤ S8.size a
  inb_S8x512x1024_S1x512x1024_7_0_0 : ∀ a, (![7, 0, 0] : Fin 3 → Nat) a + S1x512x1024.size a ≤ S8x512x1024.size a
  inb_S8_S1_7 : ∀ a, (![7] : Fin 1 → Nat) a + S1.size a ≤ S8.size a
  hcc0_scratch3 : 0 + S2.numel ≤ 26
  hcc0_scratch4 : 2 + S8.numel ≤ 26
  hcc0_scratch5 : 10 + S8.numel ≤ 26
  hcc0_scratch6 : 18 + S8.numel ≤ 26
  k0_dev1_lt : ∀ d0 : Dev nD, (k0_dev1 d0) < nD
  k0_off1_inb : ∀ d0 : Dev nD, ∀ (r : Fin 8), ∀ a, (k0_off1 d0 (BitVec.ofNat 32 (512 * r.val))) a + S512x1024.size a ≤ S8192x1024.size a
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD

variable [Facts₀]

abbrev cc0_scratch3 : DmaSems sig S2 := SemArray.consecutive 0 S2 hcc0_scratch3
abbrev cc0_scratch4 : DmaSems sig S8 := SemArray.consecutive 2 S8 hcc0_scratch4
abbrev cc0_scratch5 : DmaSems sig S8 := SemArray.consecutive 10 S8 hcc0_scratch5
abbrev cc0_scratch6 : DmaSems sig S8 := SemArray.consecutive 18 S8 hcc0_scratch6

abbrev win0 : Fin 0 → Pipeline.Window sig grid0 := Fin.elim0
abbrev spec0 : Fin 0 → Pipeline.WinSpec sig grid0.rank := Fin.elim0

class Facts : Prop extends Facts₀ where

variable [Facts]
-- ==== ReferenceIdeal.lean ====
abbrev S8192x2048 : Shape := ⟨2, ![8192, 2048]⟩

abbrev nBuf : Space → Nat
  | .hbm => 1
  | .vmem => 0
  | .smem => 0
  | _ => 0

abbrev bufTy : (tb : Table) → Fin (tcTables nBuf tb) → BufTy
  | .hbm, ⟨0, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]

class Facts₀ : Prop where

variable [Facts₀]

class Facts : Prop extends Facts₀ where

variable [Facts]
-- ==== Proof.Common.lean ====
import Idealize.ShloMosaic.Lib.Pipeline.Launch
import Idealize.ShloMosaic.Lib.Pipeline.Kit
import Idealize.ShloMosaic.Lib.Pipeline.Value
import Idealize.ShloMosaic.Lib.Ring
import Idealize.ShloMosaic.Lib.ValueIdx
import Idealize.ShloMosaic.Lib.Layout
import Idealize.ShloMosaic.Lib.Tactic

noncomputable section

namespace Cert.A2A

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx

private abbrev S4096x2048 : Shape := ⟨2, ![4096, 2048]⟩
private abbrev S8192x1024 : Shape := ⟨2, ![8192, 1024]⟩
private abbrev S2x512x2048 : Shape := ⟨3, ![2, 512, 2048]⟩
private abbrev S8x512x1024 : Shape := ⟨3, ![8, 512, 1024]⟩
private abbrev S2 : Shape := ⟨1, ![2]⟩
private abbrev S8 : Shape := ⟨1, ![8]⟩
private abbrev S1 : Shape := ⟨1, ![1]⟩
private abbrev S1x512x2048 : Shape := ⟨3, ![1, 512, 2048]⟩
private abbrev S512x2048 : Shape := ⟨2, ![512, 2048]⟩
private abbrev S1x512x1024 : Shape := ⟨3, ![1, 512, 1024]⟩
private abbrev S512x1024 : Shape := ⟨2, ![512, 1024]⟩

variable {F : FTy → Type}

/-- The partner of a device: the other first mesh coordinate, the same two others. -/
def peer (c : Dev 32) : Dev 32 := ⟨(c.val + 16) % 32, Nat.mod_lt _ (by decide)⟩
def xco (c : Dev 32) : ℕ := c.val / 16
theorem peer_peer (c : Dev 32) : peer (peer c) = c := by revert c; decide
theorem xco_lt (c : Dev 32) : xco c < 2 := by revert c; decide
theorem xco_peer (c : Dev 32) : xco (peer c) = 1 - xco c := by revert c; decide
theorem xco_cases (c : Dev 32) : xco c = 0 ∨ xco c = 1 := by revert c; decide
def pairing : Dev 32 ≃ Dev 32 := ⟨peer, peer, peer_peer, peer_peer⟩

theorem xrows_inb (k : Fin 8) : ∀ a, (![512 * k.val, 0] : Fin 2 → Nat) a + S512x2048.size a ≤ S4096x2048.size a := by
  revert k; decide

theorem inslot_inb (s : Fin 2) : ∀ a, (![s.val, 0, 0] : Fin 3 → Nat) a + S1x512x2048.size a ≤ S2x512x2048.size a := by
  revert s; decide

theorem slot8_inb (k : Fin 8) : ∀ a, (![k.val, 0, 0] : Fin 3 → Nat) a + S1x512x1024.size a ≤ S8x512x1024.size a := by
  revert k; decide

theorem sem2_inb (s : Fin 2) : ∀ a, (![s.val] : Fin 1 → Nat) a + S1.size a ≤ S2.size a := by revert s; decide

theorem sem8_inb (k : Fin 8) : ∀ a, (![k.val] : Fin 1 → Nat) a + S1.size a ≤ S8.size a := by revert k; decide

def slotOf (k : Fin 8) : Fin 2 := ⟨k.val % 2, Nat.mod_lt _ (by decide)⟩

def roundOf (k : Fin 8) : ℕ := k.val / 2

theorem roundOf_lt (k : Fin 8) : roundOf k < 4 := by revert k; decide

theorem chunk_of_round (k : Fin 8) : (⟨(2 * roundOf k + (slotOf k).val) % 8, Nat.mod_lt _ (by decide)⟩ : Fin 8) = k := by
  revert k; decide

/-- Row `r` of a slot that holds chunk `k` is row `512 k + r` of the device's block `x`. -/
def inBuf (x : S4096x2048.Idx → Elt F .f32) (k : Fin 8) : S2x512x2048.Idx → Elt F .f32 :=
  fun i => x (ValueIdx.ix2 (n0 := 4096) (n1 := 2048) ⟨512 * k.val + (i 1).val, by have h1 : (i 1).val < 512 := (i 1).isLt; have := k.isLt; omega⟩ ⟨(i 2).val, (i 2).isLt⟩)

/-- Slot `k'`, row `r`, column `j` of a buffer of column halves `h` is `x (512 k' + r, 1024 h + j)`. -/
def halfBuf (x : S4096x2048.Idx → Elt F .f32) (h : Fin 2) : S8x512x1024.Idx → Elt F .f32 :=
  fun i => x (ValueIdx.ix2 (n0 := 4096) (n1 := 2048) ⟨512 * (i 0).val + (i 1).val, by have h0 : (i 0).val < 8 := (i 0).isLt; have h1 : (i 1).val < 512 := (i 1).isLt; omega⟩
    ⟨1024 * h.val + (i 2).val, by have h2 : (i 2).val < 1024 := (i 2).isLt; have := h.isLt; omega⟩)

/-- The result on a device of first coordinate `a`: rows `[4096 a, 4096 a + 4096)` are column half `a` of its own block `x`, the other rows column half `a` of its partner's block `y`. -/
def outOf (a : Fin 2) (x y : S4096x2048.Idx → Elt F .f32) : S8192x1024.Idx → Elt F .f32 :=
  fun i => (if (i 0).val / 4096 = a.val then x else y)
    (ValueIdx.ix2 (n0 := 4096) (n1 := 2048) ⟨(i 0).val % 4096, Nat.mod_lt _ (by decide)⟩
      ⟨1024 * a.val + (i 1).val, by have h1 : (i 1).val < 1024 := (i 1).isLt; have := a.isLt; omega⟩)

def xf (c : Dev 32) : Fin 2 := ⟨xco c, xco_lt c⟩

def halfVec (x : S4096x2048.Idx → Elt F .f32) (k : Fin 8) (h : Fin 2) : S1x512x1024.Idx → Elt F .f32 :=
  fun y => x (ix2 (n0 := 4096) (n1 := 2048)
    ⟨512 * k.val + (y 1).val, by have h1 : (y 1).val < 512 := (y 1).isLt; have := k.isLt; omega⟩
    ⟨1024 * h.val + (y 2).val, by have h2 : (y 2).val < 1024 := (y 2).isLt; have := h.isLt; omega⟩)

theorem outOf_own (a : Fin 2) (x y : S4096x2048.Idx → Elt F .f32) (r : Fin 4096) (j : Fin 1024) :
    outOf a x y (ix2 (n0 := 8192) (n1 := 1024) ⟨4096 * a.val + r.val, by have := a.isLt; have := r.isLt; omega⟩ j)
      = x (ix2 (n0 := 4096) (n1 := 2048) r ⟨1024 * a.val + j.val, by have := a.isLt; have := j.isLt; omega⟩) := by
  have ha := a.isLt
  have hr := r.isLt
  have hdiv : (4096 * a.val + r.val) / 4096 = a.val := by omega
  have hmod : (4096 * a.val + r.val) % 4096 = r.val := by omega
  unfold outOf
  show (if (4096 * a.val + r.val) / 4096 = a.val then x else y) _ = _
  rw [if_pos hdiv]
  refine congrArg x ?_
  funext d
  refine Fin.ext ?_
  match d with
  | ⟨0, _⟩ => exact hmod
  | ⟨1, _⟩ => rfl

theorem outOf_other (a : Fin 2) (x y : S4096x2048.Idx → Elt F .f32) (r : Fin 4096) (j : Fin 1024) :
    outOf a x y (ix2 (n0 := 8192) (n1 := 1024) ⟨4096 * (1 - a.val) + r.val, by have := a.isLt; have := r.isLt; omega⟩ j)
      = y (ix2 (n0 := 4096) (n1 := 2048) r ⟨1024 * a.val + j.val, by have := a.isLt; have := j.isLt; omega⟩) := by
  have ha := a.isLt
  have hr := r.isLt
  have hdiv : ¬ (4096 * (1 - a.val) + r.val) / 4096 = a.val := by omega
  have hmod : (4096 * (1 - a.val) + r.val) % 4096 = r.val := by omega
  unfold outOf
  show (if (4096 * (1 - a.val) + r.val) / 4096 = a.val then x else y) _ = _
  rw [if_neg hdiv]
  refine congrArg y ?_
  funext d
  refine Fin.ext ?_
  match d with
  | ⟨0, _⟩ => exact hmod
  | ⟨1, _⟩ => rfl

theorem meshLin_x (c : Dev 32) : Layout.meshLin [2, 4, 4] c.val [0] = xco c := by revert c; decide

/-- With both row blocks read off the whole array `X`, the result is the device's column block of `X`. -/
theorem outOf_block (X : (⟨2, ![8192, 2048]⟩ : Shape).Idx → Elt F .f32) (c : Dev 32) (i : S8192x1024.Idx) :
    outOf (xf c)
        (Layout.blockN ⟨2, ![4096, 2048]⟩ ⟨2, ![8192, 2048]⟩ (Layout.meshBlock [2, 4, 4] ![[0], []] c) X)
        (Layout.blockN ⟨2, ![4096, 2048]⟩ ⟨2, ![8192, 2048]⟩ (Layout.meshBlock [2, 4, 4] ![[0], []] (peer c)) X) i
      = (Layout.blockN ⟨2, ![8192, 1024]⟩ ⟨2, ![8192, 2048]⟩ (Layout.meshBlock [2, 4, 4] ![[], [0]] c) X) i := by
  have hi0 : (i 0).val < 8192 := (i 0).isLt
  have hi1 : (i 1).val < 1024 := (i 1).isLt
  have hx := xco_lt c
  have hxp := xco_peer c
  have hmc := meshLin_x c
  have hmp := meshLin_x (peer c)
  unfold outOf
  by_cases hq : (i 0).val / 4096 = (xf c).val
  · have hq' : (i 0).val / 4096 = xco c := hq
    rw [if_pos hq]
    show X _ = X _
    refine congrArg X ?_
    funext b
    refine Fin.ext ?_
    match b with
    | ⟨0, _⟩ =>
      show Layout.meshLin [2, 4, 4] c.val [0] * 4096 + (i 0).val % 4096 = Layout.meshLin [2, 4, 4] c.val [] * 8192 + (i 0).val
      rw [hmc]
      show xco c * 4096 + (i 0).val % 4096 = 0 * 8192 + (i 0).val
      omega
    | ⟨1, _⟩ =>
      show Layout.meshLin [2, 4, 4] c.val [] * 2048 + (1024 * xco c + (i 1).val) = Layout.meshLin [2, 4, 4] c.val [0] * 1024 + (i 1).val
      rw [hmc]
      show 0 * 2048 + (1024 * xco c + (i 1).val) = xco c * 1024 + (i 1).val
      omega
  · have hq' : ¬ (i 0).val / 4096 = xco c := hq
    rw [if_neg hq]
    show X _ = X _
    refine congrArg X ?_
    funext b
    refine Fin.ext ?_
    match b with
    | ⟨0, _⟩ =>
      show Layout.meshLin [2, 4, 4] (peer c).val [0] * 4096 + (i 0).val % 4096 = Layout.meshLin [2, 4, 4] c.val [] * 8192 + (i 0).val
      rw [hmp]
      show xco (peer c) * 4096 + (i 0).val % 4096 = 0 * 8192 + (i 0).val
      omega
    | ⟨1, _⟩ =>
      show Layout.meshLin [2, 4, 4] (peer c).val [] * 2048 + (1024 * xco c + (i 1).val) = Layout.meshLin [2, 4, 4] c.val [0] * 1024 + (i 1).val
      rw [hmc]
      show 0 * 2048 + (1024 * xco c + (i 1).val) = xco c * 1024 + (i 1).val
      omega

section Enum

variable {M : Type _} [URA M]

theorem bigSep_fin8 (Φ : Fin 8 → sProp M) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

theorem bigSep_fin2 (Φ : Fin 2 → sProp M) : bigSep Finset.univ Φ = iprop(Φ 0 ∗ Φ 1) :=
  bigSep_univ_eq_bigSepL [0, 1] (by decide) (by decide) Φ

/-- Sixteen summands are the lower eight and the upper eight. -/
theorem bigSep_fin16_halves (Φ : Fin 16 → sProp M) :
    bigSep Finset.univ Φ
      = iprop((bigSep Finset.univ fun k : Fin 8 => Φ (Fin.castAdd 8 k)) ∗ (bigSep Finset.univ fun k : Fin 8 => Φ (Fin.natAdd 8 k))) := by
  have h1 := bigSep_univ_equiv (finSumFinEquiv (m := 8) (n := 8)) Φ
  have h2 := bigSep_univ_sum (fun x : Fin 8 ⊕ Fin 8 => Φ (finSumFinEquiv x))
  exact h1.trans h2

theorem sep_swap (P Q : sProp M) : iprop(P ∗ Q) = iprop(Q ∗ P) :=
  Entails.antisymm Idealize.SL.BI.sep_comm Idealize.SL.BI.sep_comm

end Enum

theorem unit_set_congr {s : Shape} {off off' size : Fin s.rank → ℕ} (inb : ∀ a, off a + size a ≤ s.size a)
    (inb' : ∀ a, off' a + size a ≤ s.size a) (h : off = off') :
    (Rect.unit off size inb).set = (Rect.unit off' size inb').set := by
  subst h; rfl

theorem o16_inb (b : Fin 16) : ∀ a, (![512 * b.val, 0] : Fin 2 → Nat) a + S512x1024.size a ≤ S8192x1024.size a := by
  revert b; decide

theorem x_lead_disj (b b' : Fin 8) (h : b ≠ b') :
    Disjoint (Rect.unit (s := S4096x2048) ![512 * b.val, 0] S512x2048.size (xrows_inb b)).set
      (Rect.unit (s := S4096x2048) ![512 * b'.val, 0] S512x2048.size (xrows_inb b')).set :=
  Ring.lead_disjoint (s := S4096x2048) (0 : Fin 2) 512 (fun k : Fin 8 => ![512 * k.val, 0]) S512x2048.size xrows_inb
    (fun _ => rfl) rfl b b' h

theorem x_lead_cover :
    Finset.univ.biUnion (fun k : Fin 8 => (Rect.unit (s := S4096x2048) ![512 * k.val, 0] S512x2048.size (xrows_inb k)).set) = Finset.univ :=
  Ring.lead_cover (s := S4096x2048) (0 : Fin 2) 512 (fun k : Fin 8 => ![512 * k.val, 0]) S512x2048.size xrows_inb
    (fun _ => rfl)
    (by intro b (a : Fin 2) ha; fin_cases a
        · exact absurd rfl ha
        · rfl) rfl (by decide) (by decide)

theorem in_lead_disj (b b' : Fin 2) (h : b ≠ b') :
    Disjoint (Rect.unit (s := S2x512x2048) ![b.val, 0, 0] S1x512x2048.size (inslot_inb b)).set
      (Rect.unit (s := S2x512x2048) ![b'.val, 0, 0] S1x512x2048.size (inslot_inb b')).set :=
  Ring.lead_disjoint (s := S2x512x2048) (0 : Fin 3) 1 (fun k : Fin 2 => ![k.val, 0, 0]) S1x512x2048.size inslot_inb
    (fun _ => (Nat.one_mul _).symm) rfl b b' h

theorem in_lead_cover :
    Finset.univ.biUnion (fun s : Fin 2 => (Rect.unit (s := S2x512x2048) ![s.val, 0, 0] S1x512x2048.size (inslot_inb s)).set) = Finset.univ :=
  Ring.lead_cover (s := S2x512x2048) (0 : Fin 3) 1 (fun k : Fin 2 => ![k.val, 0, 0]) S1x512x2048.size inslot_inb
    (fun _ => (Nat.one_mul _).symm)
    (by intro b (a : Fin 3) ha; fin_cases a
        · exact absurd rfl ha
        · rfl
        · rfl) rfl (by decide) (by decide)

theorem slot8_lead_disj (b b' : Fin 8) (h : b ≠ b') :
    Disjoint (Rect.unit (s := S8x512x1024) ![b.val, 0, 0] S1x512x1024.size (slot8_inb b)).set
      (Rect.unit (s := S8x512x1024) ![b'.val, 0, 0] S1x512x1024.size (slot8_inb b')).set :=
  Ring.lead_disjoint (s := S8x512x1024) (0 : Fin 3) 1 (fun k : Fin 8 => ![k.val, 0, 0]) S1x512x1024.size slot8_inb
    (fun _ => (Nat.one_mul _).symm) rfl b b' h

theorem slot8_lead_cover :
    Finset.univ.biUnion (fun k : Fin 8 => (Rect.unit (s := S8x512x1024) ![k.val, 0, 0] S1x512x1024.size (slot8_inb k)).set) = Finset.univ :=
  Ring.lead_cover (s := S8x512x1024) (0 : Fin 3) 1 (fun k : Fin 8 => ![k.val, 0, 0]) S1x512x1024.size slot8_inb
    (fun _ => (Nat.one_mul _).symm)
    (by intro b (a : Fin 3) ha; fin_cases a
        · exact absurd rfl ha
        · rfl
        · rfl) rfl (by decide) (by decide)

theorem o16_disj (b b' : Fin 16) (h : b ≠ b') :
    Disjoint (Rect.unit (s := S8192x1024) ![512 * b.val, 0] S512x1024.size (o16_inb b)).set
      (Rect.unit (s := S8192x1024) ![512 * b'.val, 0] S512x1024.size (o16_inb b')).set :=
  Ring.lead_disjoint (s := S8192x1024) (0 : Fin 2) 512 (fun k : Fin 16 => ![512 * k.val, 0]) S512x1024.size o16_inb
    (fun _ => rfl) rfl b b' h

theorem o16_cover :
    Finset.univ.biUnion (fun b : Fin 16 => (Rect.unit (s := S8192x1024) ![512 * b.val, 0] S512x1024.size (o16_inb b)).set) = Finset.univ :=
  Ring.lead_cover (s := S8192x1024) (0 : Fin 2) 512 (fun k : Fin 16 => ![512 * k.val, 0]) S512x1024.size o16_inb
    (fun _ => rfl)
    (by intro b (a : Fin 2) ha; fin_cases a
        · exact absurd rfl ha
        · rfl) rfl (by decide) (by decide)

end Cert.A2A

end
-- ==== Proof.Mesh.lean ====
import proofs.«900650_g7700000000000651_dist_a2a_v7x_xyz2x4x4_x_m4096_n1024_f32_1_alg».proof.Proof.Gen.KernelIdeal
import proofs.«900650_g7700000000000651_dist_a2a_v7x_xyz2x4x4_x_m4096_n1024_f32_1_alg».proof.Proof.Common

namespace Cert.KernelIdeal.A2A

open Cert.KernelIdeal Cert.KernelIdeal.Gen Cert.A2A
open Idealize.ShloMosaic

theorem dev1_eq (c : Dev nD) : (⟨k0_dev1 c, k0_dev1_lt c⟩ : Dev nD) = peer c := Fin.ext ((k0_dev1_eq c).trans (by revert c; decide))
theorem dev2_eq (c : Dev nD) : (⟨k0_dev2 c, k0_dev2_lt c⟩ : Dev nD) = peer c := Fin.ext ((k0_dev2_eq c).trans (by revert c; decide))
theorem dev3_eq (c : Dev nD) : (⟨k0_dev3 c, k0_dev3_lt c⟩ : Dev nD) = peer c := Fin.ext ((k0_dev3_eq c).trans (by revert c; decide))
theorem dev4_eq (c : Dev nD) : (⟨k0_dev4 c, k0_dev4_lt c⟩ : Dev nD) = peer c := Fin.ext ((k0_dev4_eq c).trans (by revert c; decide))
theorem dev5_eq (c : Dev nD) : (⟨k0_dev5 c, k0_dev5_lt c⟩ : Dev nD) = peer c := Fin.ext ((k0_dev5_eq c).trans (by revert c; decide))
theorem dev6_eq (c : Dev nD) : (⟨k0_dev6 c, k0_dev6_lt c⟩ : Dev nD) = peer c := Fin.ext ((k0_dev6_eq c).trans (by revert c; decide))
theorem dev7_eq (c : Dev nD) : (⟨k0_dev7 c, k0_dev7_lt c⟩ : Dev nD) = peer c := Fin.ext ((k0_dev7_eq c).trans (by revert c; decide))
theorem dev8_eq (c : Dev nD) : (⟨k0_dev8 c, k0_dev8_lt c⟩ : Dev nD) = peer c := Fin.ext ((k0_dev8_eq c).trans (by revert c; decide))
theorem dev9_eq (c : Dev nD) : (⟨k0_dev9 c, k0_dev9_lt c⟩ : Dev nD) = peer c := Fin.ext ((k0_dev9_eq c).trans (by revert c; decide))

theorem off_eq (c : Dev nD) (k : Fin 8) : k0_off1 c (BitVec.ofNat 32 (512 * k.val)) = ![4096 * xco c + 512 * k.val, 0] := k0_off1_eq c k

end Cert.KernelIdeal.A2A
-- ==== Proof.Proto.lean ====
import proofs.«900650_g7700000000000651_dist_a2a_v7x_xyz2x4x4_x_m4096_n1024_f32_1_alg».proof.Proof.Gen.KernelIdeal
import proofs.«900650_g7700000000000651_dist_a2a_v7x_xyz2x4x4_x_m4096_n1024_f32_1_alg».proof.Proof.Gen.KernelIdeal.Skeleton
import proofs.«900650_g7700000000000651_dist_a2a_v7x_xyz2x4x4_x_m4096_n1024_f32_1_alg».proof.Proof.Gen.KernelIdeal.Launch
import proofs.«900650_g7700000000000651_dist_a2a_v7x_xyz2x4x4_x_m4096_n1024_f32_1_alg».proof.Proof.Mesh
import Idealize.ShloMosaic.Lib.Pipeline.Launch
import Idealize.ShloMosaic.Lib.Pipeline.Kit
import Idealize.ShloMosaic.Lib.Ring
import Idealize.ShloMosaic.Lib.ValueIdx
import Idealize.ShloMosaic.Lib.Tactic

noncomputable section

namespace Cert.KernelIdeal.A2A

open Cert.KernelIdeal Cert.KernelIdeal.Gen Cert.A2A
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

abbrev xM : Memref sig .tc .hbm S4096x2048 .f32 := Memref.whole main_arg0
abbrev oM : Memref sig .tc .hbm S8192x1024 .f32 := Memref.whole main_v1
abbrev inM : Memref sig .tc .vmem S2x512x2048 .f32 := Memref.whole cc0_scratch0
abbrev sbM : Memref sig .tc .vmem S8x512x1024 .f32 := Memref.whole cc0_scratch1
abbrev kbM : Memref sig .tc .vmem S8x512x1024 .f32 := Memref.whole cc0_scratch2

abbrev xRows (k : Fin 8) : Memref sig .tc .hbm S512x2048 .f32 :=
  xM.slice (Rect.unit (s := S4096x2048) ![512 * k.val, 0] S512x2048.size (xrows_inb k)) (fun _ => rfl)
abbrev inSlot (s : Fin 2) : Memref sig .tc .vmem S512x2048 .f32 :=
  (inM.slice (Rect.unit (s := S2x512x2048) ![s.val, 0, 0] S1x512x2048.size (inslot_inb s)) (fun _ => rfl)).squeeze S512x2048
    squeezes_S1x512x2048_S512x2048
abbrev sbSlot (k : Fin 8) : Memref sig .tc .vmem S512x1024 .f32 :=
  (sbM.slice (Rect.unit (s := S8x512x1024) ![k.val, 0, 0] S1x512x1024.size (slot8_inb k)) (fun _ => rfl)).squeeze S512x1024
    squeezes_S1x512x1024_S512x1024
abbrev kbSlot (k : Fin 8) : Memref sig .tc .vmem S512x1024 .f32 :=
  (kbM.slice (Rect.unit (s := S8x512x1024) ![k.val, 0, 0] S1x512x1024.size (slot8_inb k)) (fun _ => rfl)).squeeze S512x1024
    squeezes_S1x512x1024_S512x1024
abbrev oRows (d : Dev nD) (k : Fin 8) : Memref sig .tc .hbm S512x1024 .f32 :=
  oM.slice (Rect.unit (s := S8192x1024) (k0_off1 d (BitVec.ofNat 32 (512 * k.val))) S512x1024.size (k0_off1_inb d k)) (fun _ => rfl)

abbrev barS : Sem sig := (SemArray.scalar (sig.barrier 0 rfl) : Sems sig S_).sem
abbrev loadS (s : Fin 2) : DmaSem sig :=
  ((cc0_scratch3.slice (Rect.unit (s := S2) ![s.val] S1.size (sem2_inb s))).squeeze S_ squeezes_S1_S_).sem
abbrev keepS (k : Fin 8) : DmaSem sig :=
  ((cc0_scratch4.slice (Rect.unit (s := S8) ![k.val] S1.size (sem8_inb k))).squeeze S_ squeezes_S1_S_).sem
abbrev sendS (k : Fin 8) : DmaSem sig :=
  ((cc0_scratch5.slice (Rect.unit (s := S8) ![k.val] S1.size (sem8_inb k))).squeeze S_ squeezes_S1_S_).sem
abbrev recvS (k : Fin 8) : DmaSem sig :=
  ((cc0_scratch6.slice (Rect.unit (s := S8) ![k.val] S1.size (sem8_inb k))).squeeze S_ squeezes_S1_S_).sem

theorem loadS_val (s : Fin 2) : (loadS s).val = s.val := by revert s; decide
theorem keepS_val (k : Fin 8) : (keepS k).val = 2 + k.val := by revert k; decide
theorem sendS_val (k : Fin 8) : (sendS k).val = 10 + k.val := by revert k; decide
theorem recvS_val (k : Fin 8) : (recvS k).val = 18 + k.val := by revert k; decide

abbrev barCell (c : Dev nD) : GSem nD τ sig := ((c : Thread nD τ), .reg barS)
abbrev loadCell (c : Dev nD) (s : Fin 2) : GSem nD τ sig := ((c : Thread nD τ), .dma (loadS s))
abbrev keepCell (c : Dev nD) (k : Fin 8) : GSem nD τ sig := ((c : Thread nD τ), .dma (keepS k))
abbrev sendCell (c : Dev nD) (k : Fin 8) : GSem nD τ sig := ((c : Thread nD τ), .dma (sendS k))
abbrev recvCell (c : Dev nD) (k : Fin 8) : GSem nD τ sig := ((c : Thread nD τ), .dma (recvS k))

abbrev osem : Fin 26 → SemLoc sig := fun j => .dma j
abbrev csem : Fin 27 → SemLoc sig := fun i => if h : i.val = 0 then .reg barS else .dma ⟨i.val - 1, by have := i.isLt; show i.val - 1 < 26; omega⟩
abbrev kcell (ck : Dev nD × Fin 27) : GSem nD τ sig := ((ck.1 : Thread nD τ), csem ck.2)

abbrev Nin : ℕ := (inSlot 0 : Memref sig .tc .vmem S512x2048 .f32).view.dmaCredit
abbrev Nout : ℕ := (sbSlot 0 : Memref sig .tc .vmem S512x1024 .f32).view.dmaCredit
theorem Nin_pos : 0 < Nin := View.dmaCredit_pos _ (by decide)
theorem Nout_pos : 0 < Nout := View.dmaCredit_pos _ (by decide)

def xAt (c : Dev nD) : Buf (Elt F) ((c : Thread nD τ).loc main_arg0) := m ((c : Thread nD τ).loc main_arg0)

def outAt (c : Dev nD) : Buf (Elt F) ((c : Thread nD τ).loc main_v1) := outOf (xf c) (xAt m c) (xAt m (peer c))

end Cert.KernelIdeal.A2A

end
-- ==== Proof.Sched.lean ====
import proofs.«900650_g7700000000000651_dist_a2a_v7x_xyz2x4x4_x_m4096_n1024_f32_1_alg».proof.Proof.Proto

noncomputable section

namespace Cert.KernelIdeal.A2A

open Cert.KernelIdeal Cert.KernelIdeal.Gen Cert.A2A
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def xPts (c : Dev nD) (k : Fin 8) : sProp 𝕄 :=
  (xRows k).view.loc (c : Thread nD τ) ↦[(xRows k).view.set]{fullShare} xAt m c
def inPts (c : Dev nD) (s : Fin 2) (f : Buf (Elt F) ((inSlot s).view.loc (c : Thread nD τ))) : sProp 𝕄 :=
  (inSlot s).view.loc (c : Thread nD τ) ↦[(inSlot s).view.set]{fullShare} f
def sbPts (c : Dev nD) (k : Fin 8) (f : Buf (Elt F) ((sbSlot k).view.loc (c : Thread nD τ))) : sProp 𝕄 :=
  (sbSlot k).view.loc (c : Thread nD τ) ↦[(sbSlot k).view.set]{fullShare} f
def kbPts (c : Dev nD) (k : Fin 8) (f : Buf (Elt F) ((kbSlot k).view.loc (c : Thread nD τ))) : sProp 𝕄 :=
  (kbSlot k).view.loc (c : Thread nD τ) ↦[(kbSlot k).view.set]{fullShare} f
def oPts (c d : Dev nD) (k : Fin 8) (f : Buf (Elt F) ((oRows d k).view.loc (c : Thread nD τ))) : sProp 𝕄 :=
  (oRows d k).view.loc (c : Thread nD τ) ↦[(oRows d k).view.set]{fullShare} f

def barPay (c : Dev nD) : sProp 𝕄 :=
  bigSep Finset.univ fun k : Fin 8 => iprop((∃ f, oPts (peer c) c k f) ∗ reached ER (recvCell (peer c) k) 0)
def loadPay (c : Dev nD) (s : Fin 2) (r : ℕ) : sProp 𝕄 :=
  iprop(inPts c s (inBuf (xAt m c) ⟨(2 * r + s.val) % 8, Nat.mod_lt _ (by decide)⟩) ∗ xPts m c ⟨(2 * r + s.val) % 8, Nat.mod_lt _ (by decide)⟩)
def keepPay (c : Dev nD) (k : Fin 8) : sProp 𝕄 :=
  iprop(oPts c c k (outAt m c) ∗ kbPts c k (halfBuf (xAt m c) (xf c)))
def sendPay (c : Dev nD) (k : Fin 8) : sProp 𝕄 := sbPts c k (halfBuf (xAt m c) (xf (peer c)))
def recvPay (c : Dev nD) (k : Fin 8) : sProp 𝕄 := oPts c (peer c) k (outAt m c)

def chunkOf (j : DmaSem sig) : Fin 8 := ⟨(j.val + 6) % 8, Nat.mod_lt _ (by decide)⟩

/-- Every round of every cell has one duty: the barrier's unit, a chunk landing in a load slot (four rounds a slot), a kept half, a sent half, a received half. -/
def Rd : Rounds.Schedule (GSem nD τ sig) Unit 𝕄 where
  duties g r :=
    if g.1.2 = .tc then
      (match g.2 with
        | .reg s => if s = barS ∧ r = 0 then {()} else ∅
        | .dma j => if j.val < 2 then (if r < 4 then {()} else ∅) else (if r = 0 then {()} else ∅))
    else ∅
  unitless _ := False
  amount g _ _ := match g.2 with
    | .reg _ => 1
    | .dma j => if j.val < 2 then Nin else Nout
  payload g r _ := match g.2 with
    | .reg _ => barPay g.1.1
    | .dma j =>
      if h : j.val < 2 then loadPay m g.1.1 ⟨j.val, h⟩ r
      else if j.val < 10 then keepPay m g.1.1 (chunkOf j)
      else if j.val < 18 then sendPay m g.1.1 (chunkOf j)
      else recvPay m g.1.1 (chunkOf j)
  amount_pos g _ _ _ := by
    rcases g with ⟨t, sm⟩
    cases sm with
    | reg s => exact Nat.one_pos
    | dma j =>
      show 0 < if j.val < 2 then Nin else Nout
      split
      · exact Nin_pos
      · exact Nout_pos

end Cert.KernelIdeal.A2A

end
-- ==== Proof.State.lean ====
import proofs.«900650_g7700000000000651_dist_a2a_v7x_xyz2x4x4_x_m4096_n1024_f32_1_alg».proof.Proof.Sched

noncomputable section

namespace Cert.KernelIdeal.A2A

open Cert.KernelIdeal Cert.KernelIdeal.Gen Cert.A2A
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def iBar : Fin 27 := 0
def iLoad (s : Fin 2) : Fin 27 := ⟨1 + s.val, by have := s.isLt; omega⟩
def iKeep (k : Fin 8) : Fin 27 := ⟨3 + k.val, by have := k.isLt; omega⟩
def iSend (k : Fin 8) : Fin 27 := ⟨11 + k.val, by have := k.isLt; omega⟩
def iRecv (k : Fin 8) : Fin 27 := ⟨19 + k.val, by have := k.isLt; omega⟩

theorem kcell_bar (c : Dev nD) : kcell (c, iBar) = barCell c := rfl
theorem csem_load (s : Fin 2) : csem (iLoad s) = .dma (loadS s) := by revert s; decide
theorem csem_keep (k : Fin 8) : csem (iKeep k) = .dma (keepS k) := by revert k; decide
theorem csem_send (k : Fin 8) : csem (iSend k) = .dma (sendS k) := by revert k; decide
theorem csem_recv (k : Fin 8) : csem (iRecv k) = .dma (recvS k) := by revert k; decide
theorem kcell_load (c : Dev nD) (s : Fin 2) : kcell (c, iLoad s) = loadCell c s := congrArg (Prod.mk (c : Thread nD τ)) (csem_load s)
theorem kcell_keep (c : Dev nD) (k : Fin 8) : kcell (c, iKeep k) = keepCell c k := congrArg (Prod.mk (c : Thread nD τ)) (csem_keep k)
theorem kcell_send (c : Dev nD) (k : Fin 8) : kcell (c, iSend k) = sendCell c k := congrArg (Prod.mk (c : Thread nD τ)) (csem_send k)
theorem kcell_recv (c : Dev nD) (k : Fin 8) : kcell (c, iRecv k) = recvCell c k := congrArg (Prod.mk (c : Thread nD τ)) (csem_recv k)

/-- The receive credits a device still owes its partner from chunk `k` on. -/
def owedFrom (c : Dev nD) (k : ℕ) : CellTallies nD τ sig Unit :=
  ∑ k' ∈ Ring.rangeSet 8 k 8, tallyAt (recvCell (peer c) k') () Nout

def O₀ (c : Dev nD) : CellTallies nD τ sig Unit := owedFrom c 0 + tallyAt (barCell (peer c)) () 1

def L (g : GSem nD τ sig) : Finset Unit := if g.1.2 = .tc then {()} else ∅
/-- Receive cells sit above barrier cells, and those above every other cell: a device waits only below what it owes. -/
def lv (g : GSem nD τ sig) (_ : Unit) : ℕ :=
  match g.2 with
  | .reg _ => 1
  | .dma j => if 18 ≤ j.val then 2 else 0

variable (K : Dev nD × Fin 27 → ℕ)

def invs (c : Dev nD) : sProp 𝕄 :=
  iprop((bigSep Finset.univ fun i : Fin 27 => cellInv ER (Rd m) (K (c, i)) (kcell (c, i)))
    ∗ (bigSep Finset.univ fun i : Fin 27 => cellInv ER (Rd m) (K (peer c, i)) (kcell (peer c, i))))

instance invs_persistent (c : Dev nD) : BI.Persistent (invs m K c) := by unfold invs; infer_instance

def reach0 (c : Dev nD) : sProp 𝕄 := bigSep Finset.univ fun i : Fin 27 => reached ER (kcell (c, i)) 0

instance reach0_persistent (c : Dev nD) : BI.Persistent (reach0 (F := F) c) := by unfold reach0; infer_instance

def atStart (c : Dev nD) : sProp 𝕄 :=
  iprop(atPos ER (barCell c) 0 ∅ 0
    ∗ (bigSep Finset.univ fun s : Fin 2 => atPos ER (loadCell c s) 0 ∅ 0)
    ∗ (bigSep Finset.univ fun k : Fin 8 => atPos ER (keepCell c k) 0 ∅ 0)
    ∗ (bigSep Finset.univ fun k : Fin 8 => atPos ER (sendCell c k) 0 ∅ 0)
    ∗ (bigSep Finset.univ fun k : Fin 8 => atPos ER (recvCell c k) 0 ∅ 0))

def payToks (c : Dev nD) : sProp 𝕄 :=
  iprop(dutyTok ER (barCell (peer c)) 0 ()
    ∗ (bigSep Finset.univ fun k : Fin 8 => dutyTok ER (recvCell (peer c) k) 0 ())
    ∗ (bigSep Finset.univ fun k : Fin 8 => dutyTok ER (keepCell c k) 0 ())
    ∗ (bigSep Finset.univ fun k : Fin 8 => dutyTok ER (sendCell c k) 0 ())
    ∗ (bigSep Finset.univ fun k : Fin 8 => dutyTok ER (loadCell c (slotOf k)) (roundOf k) ()))

def ghost (c : Dev nD) : sProp 𝕄 :=
  iprop(invs m K c ∗ reach0 c ∗ reach0 (peer c) ∗ atStart c ∗ payToks c)

def credits (c : Dev nD) : sProp 𝕄 :=
  iprop(cred (tallyAt (barCell c) () 1) ∗ bigSep Finset.univ fun k : Fin 8 => cred (tallyAt (recvCell c k) () Nout))

def start (c : Dev nD) : sProp 𝕄 :=
  iprop((∃ K, ghost m K c) ∗ credits c ∗ levAts L lv
    ∗ (((c : Thread nD τ).loc main_arg0) ↦{fullShare} xAt m c)
    ∗ (((c : Thread nD τ).loc main_v1) ↦{fullShare} m ((c : Thread nD τ).loc main_v1)))

def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

def Φ₀ (c : Dev nD) : sProp 𝕄 := iprop(start m c ∗ scratch c)

def Φ₁ (c : Dev nD) : sProp 𝕄 :=
  iprop((((c : Thread nD τ).loc main_arg0) ↦{fullShare} xAt m c)
    ∗ (((c : Thread nD τ).loc main_v1) ↦{fullShare} outAt m c)
    ∗ scratch c
    ∗ bigSep Finset.univ fun j : Fin 26 => semVal ((c : Thread nD τ), osem j) 0)

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

end Cert.KernelIdeal.A2A

end
-- ==== Proof.Tables.lean ====
import proofs.«900650_g7700000000000651_dist_a2a_v7x_xyz2x4x4_x_m4096_n1024_f32_1_alg».proof.Proof.State

noncomputable section

namespace Cert.KernelIdeal.A2A

open Cert.KernelIdeal Cert.KernelIdeal.Gen Cert.A2A
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem loadS_lt (s : Fin 2) : (loadS s).val < 2 := by rw [loadS_val]; exact s.isLt
theorem keepS_ge2 (k : Fin 8) : ¬ (keepS k).val < 2 := by rw [keepS_val]; omega
theorem keepS_lt10 (k : Fin 8) : (keepS k).val < 10 := by rw [keepS_val]; have := k.isLt; omega
theorem sendS_ge2 (k : Fin 8) : ¬ (sendS k).val < 2 := by rw [sendS_val]; omega
theorem sendS_ge10 (k : Fin 8) : ¬ (sendS k).val < 10 := by rw [sendS_val]; omega
theorem sendS_lt18 (k : Fin 8) : (sendS k).val < 18 := by rw [sendS_val]; have := k.isLt; omega
theorem recvS_ge2 (k : Fin 8) : ¬ (recvS k).val < 2 := by rw [recvS_val]; omega
theorem recvS_ge10 (k : Fin 8) : ¬ (recvS k).val < 10 := by rw [recvS_val]; omega
theorem recvS_ge18 (k : Fin 8) : ¬ (recvS k).val < 18 := by rw [recvS_val]; omega

theorem loadS_fin (s : Fin 2) : (⟨(loadS s).val, loadS_lt s⟩ : Fin 2) = s := Fin.ext (loadS_val s)
theorem chunkOf_keep (k : Fin 8) : chunkOf (keepS k) = k :=
  Fin.ext (by show ((keepS k).val + 6) % 8 = k.val; rw [keepS_val]; have := k.isLt; omega)
theorem chunkOf_send (k : Fin 8) : chunkOf (sendS k) = k :=
  Fin.ext (by show ((sendS k).val + 6) % 8 = k.val; rw [sendS_val]; have := k.isLt; omega)
theorem chunkOf_recv (k : Fin 8) : chunkOf (recvS k) = k :=
  Fin.ext (by show ((recvS k).val + 6) % 8 = k.val; rw [recvS_val]; have := k.isLt; omega)

theorem thr_tc (c : Dev nD) : ((c : Thread nD τ)).2 = Proc.tc := rfl

omit [FloatOps F] in
theorem duties_reg (m : (ℓ : Loc nD τ sig) → Buf (Elt F) ℓ) (t : Thread nD τ) (s : Sem sig) (r : ℕ) :
    (Rd (F := F) m).duties (t, .reg s) r = if t.2 = .tc then (if s = barS ∧ r = 0 then {()} else ∅) else ∅ := rfl
omit [FloatOps F] in
theorem duties_dma (m : (ℓ : Loc nD τ sig) → Buf (Elt F) ℓ) (t : Thread nD τ) (j : DmaSem sig) (r : ℕ) :
    (Rd (F := F) m).duties (t, .dma j) r
      = if t.2 = .tc then (if j.val < 2 then (if r < 4 then {()} else ∅) else (if r = 0 then {()} else ∅)) else ∅ := rfl
omit [FloatOps F] in
theorem amount_dma (m : (ℓ : Loc nD τ sig) → Buf (Elt F) ℓ) (t : Thread nD τ) (j : DmaSem sig) (r : ℕ) (d : Unit) :
    (Rd (F := F) m).amount (t, .dma j) r d = if j.val < 2 then Nin else Nout := rfl
omit [FloatOps F] in
theorem payload_reg (m : (ℓ : Loc nD τ sig) → Buf (Elt F) ℓ) (t : Thread nD τ) (s : Sem sig) (r : ℕ) (d : Unit) :
    (Rd (F := F) m).payload (t, .reg s) r d = barPay t.1 := rfl
omit [FloatOps F] in
theorem payload_dma (m : (ℓ : Loc nD τ sig) → Buf (Elt F) ℓ) (t : Thread nD τ) (j : DmaSem sig) (r : ℕ) (d : Unit) :
    (Rd (F := F) m).payload (t, .dma j) r d
      = if h : j.val < 2 then loadPay m t.1 ⟨j.val, h⟩ r
        else if j.val < 10 then keepPay m t.1 (chunkOf j)
        else if j.val < 18 then sendPay m t.1 (chunkOf j)
        else recvPay m t.1 (chunkOf j) := rfl

omit [FloatOps F] in
theorem duties_bar (m : (ℓ : Loc nD τ sig) → Buf (Elt F) ℓ) (c : Dev nD) :
    (Rd (F := F) m).duties (barCell c) 0 = {()} := by
  rw [duties_reg, if_pos (thr_tc c)]; exact if_pos ⟨rfl, rfl⟩
omit [FloatOps F] in
theorem duties_load (m : (ℓ : Loc nD τ sig) → Buf (Elt F) ℓ) (c : Dev nD) (s : Fin 2) (r : ℕ) (hr : r < 4) :
    (Rd (F := F) m).duties (loadCell c s) r = {()} := by
  rw [duties_dma, if_pos (thr_tc c), if_pos (loadS_lt s), if_pos hr]

omit [FloatOps F] in
theorem later_load (m : (ℓ : Loc nD τ sig) → Buf (Elt F) ℓ) (c : Dev nD) (s : Fin 2) :
    ∀ r, 3 + 1 ≤ r → (Rd (F := F) m).duties (loadCell c s) r = ∅ := fun r hr => by
  rw [duties_dma, if_pos (thr_tc c), if_pos (loadS_lt s)]; exact if_neg (by omega)

omit [FloatOps F] in
theorem duties_one (m : (ℓ : Loc nD τ sig) → Buf (Elt F) ℓ) (c : Dev nD) {j : DmaSem sig} (hj : ¬ j.val < 2) :
    (Rd (F := F) m).duties ((c : Thread nD τ), .dma j) 0 = {()} := by
  rw [duties_dma, if_pos (thr_tc c), if_neg hj, if_pos rfl]
omit [FloatOps F] in
theorem later_one (m : (ℓ : Loc nD τ sig) → Buf (Elt F) ℓ) (c : Dev nD) {j : DmaSem sig} (hj : ¬ j.val < 2) :
    ∀ r, 1 ≤ r → (Rd (F := F) m).duties ((c : Thread nD τ), .dma j) r = ∅ := fun r hr => by
  rw [duties_dma, if_pos (thr_tc c), if_neg hj]; exact if_neg (by omega)
omit [FloatOps F] in
theorem amount_one (m : (ℓ : Loc nD τ sig) → Buf (Elt F) ℓ) (c : Dev nD) {j : DmaSem sig} (hj : ¬ j.val < 2) (r : ℕ) (d : Unit) :
    (Rd (F := F) m).amount ((c : Thread nD τ), .dma j) r d = Nout :=
  (amount_dma m (c : Thread nD τ) j r d).trans (if_neg hj)
omit [FloatOps F] in
theorem expect_one (m : (ℓ : Loc nD τ sig) → Buf (Elt F) ℓ) (c : Dev nD) {j : DmaSem sig} (hj : ¬ j.val < 2) :
    (Rd (F := F) m).expect ((c : Thread nD τ), .dma j) 0 = Nout := by
  unfold Schedule.expect Schedule.amountOf; rw [duties_one m c hj, Finset.sum_singleton, amount_one m c hj]
omit [FloatOps F] in
theorem rest_one (m : (ℓ : Loc nD τ sig) → Buf (Elt F) ℓ) (c : Dev nD) {j : DmaSem sig} (hj : ¬ j.val < 2) :
    bigSep ((Rd (F := F) m).duties ((c : Thread nD τ), .dma j) 0 \ ∅) (fun d => (Rd (F := F) m).payload ((c : Thread nD τ), .dma j) 0 d)
      = (Rd (F := F) m).payload ((c : Thread nD τ), .dma j) 0 () := by
  rw [Finset.sdiff_empty, duties_one m c hj, bigSep_singleton]

omit [FloatOps F] in
theorem amount_bar (m : (ℓ : Loc nD τ sig) → Buf (Elt F) ℓ) (c : Dev nD) (r : ℕ) (d : Unit) :
    (Rd (F := F) m).amount (barCell c) r d = 1 := rfl
omit [FloatOps F] in
theorem amount_load (m : (ℓ : Loc nD τ sig) → Buf (Elt F) ℓ) (c : Dev nD) (s : Fin 2) (r : ℕ) (d : Unit) :
    (Rd (F := F) m).amount (loadCell c s) r d = Nin :=
  (amount_dma m (c : Thread nD τ) (loadS s) r d).trans (if_pos (loadS_lt s))

omit [FloatOps F] in
theorem expect_bar (m : (ℓ : Loc nD τ sig) → Buf (Elt F) ℓ) (c : Dev nD) :
    (Rd (F := F) m).expect (barCell c) 0 = 1 := by
  unfold Schedule.expect Schedule.amountOf; rw [duties_bar, Finset.sum_singleton, amount_bar]
omit [FloatOps F] in
theorem expect_load (m : (ℓ : Loc nD τ sig) → Buf (Elt F) ℓ) (c : Dev nD) (s : Fin 2) (r : ℕ) (hr : r < 4) :
    (Rd (F := F) m).expect (loadCell c s) r = Nin := by
  unfold Schedule.expect Schedule.amountOf; rw [duties_load m c s r hr, Finset.sum_singleton, amount_load]

omit [FloatOps F] in
theorem payload_bar (m : (ℓ : Loc nD τ sig) → Buf (Elt F) ℓ) (c : Dev nD) :
    (Rd (F := F) m).payload (barCell c) 0 () = barPay c := rfl
omit [FloatOps F] in
theorem payload_load (m : (ℓ : Loc nD τ sig) → Buf (Elt F) ℓ) (c : Dev nD) (s : Fin 2) (r : ℕ) :
    (Rd (F := F) m).payload (loadCell c s) r () = loadPay m c s r := by
  have h := payload_dma m (c : Thread nD τ) (loadS s) r ()
  rw [dif_pos (loadS_lt s), loadS_fin] at h
  exact h
omit [FloatOps F] in
theorem payload_keep (m : (ℓ : Loc nD τ sig) → Buf (Elt F) ℓ) (c : Dev nD) (k : Fin 8) :
    (Rd (F := F) m).payload (keepCell c k) 0 () = keepPay m c k := by
  have h := payload_dma m (c : Thread nD τ) (keepS k) 0 ()
  rw [dif_neg (keepS_ge2 k), if_pos (keepS_lt10 k), chunkOf_keep] at h
  exact h
omit [FloatOps F] in
theorem payload_send (m : (ℓ : Loc nD τ sig) → Buf (Elt F) ℓ) (c : Dev nD) (k : Fin 8) :
    (Rd (F := F) m).payload (sendCell c k) 0 () = sendPay m c k := by
  have h := payload_dma m (c : Thread nD τ) (sendS k) 0 ()
  rw [dif_neg (sendS_ge2 k), if_neg (sendS_ge10 k), if_pos (sendS_lt18 k), chunkOf_send] at h
  exact h
omit [FloatOps F] in
theorem payload_recv (m : (ℓ : Loc nD τ sig) → Buf (Elt F) ℓ) (c : Dev nD) (k : Fin 8) :
    (Rd (F := F) m).payload (recvCell c k) 0 () = recvPay m c k := by
  have h := payload_dma m (c : Thread nD τ) (recvS k) 0 ()
  rw [dif_neg (recvS_ge2 k), if_neg (recvS_ge10 k), if_neg (recvS_ge18 k), chunkOf_recv] at h
  exact h

omit [FloatOps F] in
theorem rest_bar (m : (ℓ : Loc nD τ sig) → Buf (Elt F) ℓ) (c : Dev nD) :
    bigSep ((Rd (F := F) m).duties (barCell c) 0 \ ∅) (fun d => (Rd (F := F) m).payload (barCell c) 0 d) = barPay c := by
  rw [Finset.sdiff_empty, duties_bar, bigSep_singleton, payload_bar]
omit [FloatOps F] in
theorem rest_load (m : (ℓ : Loc nD τ sig) → Buf (Elt F) ℓ) (c : Dev nD) (s : Fin 2) (r : ℕ) (hr : r < 4) :
    bigSep ((Rd (F := F) m).duties (loadCell c s) r \ ∅) (fun d => (Rd (F := F) m).payload (loadCell c s) r d) = loadPay m c s r := by
  rw [Finset.sdiff_empty, duties_load m c s r hr, bigSep_singleton, payload_load]

omit [FloatOps F] in
instance Rd_payload_storable (m : (ℓ : Loc nD τ sig) → Buf (Elt F) ℓ) (g : GSem nD τ sig) (r : ℕ) (d : Unit) :
    BI.Storable (upEmb : UEmb _ 𝕄) ((Rd (F := F) m).payload g r d) := by
  rcases g with ⟨t, sm⟩
  cases sm with
  | reg s =>
    rw [payload_reg]
    unfold barPay oPts
    infer_instance
  | dma j =>
    rw [payload_dma]
    unfold loadPay keepPay sendPay recvPay inPts xPts oPts kbPts sbPts
    (repeat' split) <;> infer_instance

theorem owedFrom_last (c : Dev nD) : owedFrom c 8 = 0 := by
  unfold owedFrom; rw [Ring.rangeSet_empty (le_refl 8), Finset.sum_empty]

theorem owedFrom_step (c : Dev nD) (k : ℕ) (hk : k < 8) :
    owedFrom c k = owedFrom c (k + 1) + tallyAt (recvCell (peer c) ⟨k, hk⟩) () Nout := by
  unfold owedFrom
  rw [Ring.rangeSet_head hk hk, Finset.sum_insert (Ring.head_not_mem_rangeSet hk), add_comm]

theorem owedFrom_pos {c : Dev nD} {k : ℕ} {g : GSem nD τ sig} {u : Unit} (h : 0 < owedFrom c k g u) :
    ∃ k' : Fin 8, g = recvCell (peer c) k' := by
  unfold owedFrom at h
  obtain ⟨k', _, hk'⟩ := Pipeline.sum_pos_exists h
  exact ⟨k', (Pipeline.tallyAt_pos hk').1⟩

theorem L_tc (c : Dev nD) (sm : SemLoc sig) : L ((c : Thread nD τ), sm) = {()} := if_pos rfl

theorem lv_bar (c : Dev nD) (u : Unit) : lv (barCell c) u = 1 := rfl
theorem lv_recv (c : Dev nD) (k : Fin 8) (u : Unit) : lv (recvCell c k) u = 2 := by
  show (if 18 ≤ (recvS k).val then 2 else 0) = 2
  rw [recvS_val]; exact if_pos (by omega)
theorem lv_low (c : Dev nD) (j : DmaSem sig) (hj : j.val < 18) (u : Unit) : lv ((c : Thread nD τ), .dma j) u = 0 := by
  show (if 18 ≤ j.val then 2 else 0) = 0
  exact if_neg (by omega)

omit [FloatOps F] in
theorem mayWait_bar (c : Dev nD) :
    (levAts L lv : sProp 𝕄) ⊢ MayWait (c : Thread nD τ) (.reg barS) () (owedFrom c 0) :=
  Pipeline.mayWait_of_levAts (by rw [L_tc]; exact Finset.mem_singleton_self _) (fun g u hg => by
    obtain ⟨k', rfl⟩ := owedFrom_pos hg
    refine ⟨by rw [L_tc]; exact Finset.mem_singleton.mpr rfl, ?_⟩
    show lv (barCell c) () < lv (recvCell (peer c) k') u
    rw [lv_bar, lv_recv]; decide)

omit [FloatOps F] in
theorem mayWait_low (c : Dev nD) (j : DmaSem sig) (hj : j.val < 18) (k : ℕ) :
    (levAts L lv : sProp 𝕄) ⊢ MayWait (c : Thread nD τ) (.dma j) () (owedFrom c k) :=
  Pipeline.mayWait_of_levAts (by rw [L_tc]; exact Finset.mem_singleton_self _) (fun g u hg => by
    obtain ⟨k', rfl⟩ := owedFrom_pos hg
    refine ⟨by rw [L_tc]; exact Finset.mem_singleton.mpr rfl, ?_⟩
    show lv ((c : Thread nD τ), .dma j) () < lv (recvCell (peer c) k') u
    rw [lv_low c j hj, lv_recv]; decide)

/-- info: 'Cert.KernelIdeal.A2A.mayWait_low' depends on axioms: [propext, Classical.choice, Quot.sound] -/
#guard_msgs in #print axioms mayWait_low

end Cert.KernelIdeal.A2A

end
-- ==== Proof.Blocks.lean ====
import proofs.«900650_g7700000000000651_dist_a2a_v7x_xyz2x4x4_x_m4096_n1024_f32_1_alg».proof.Proof.Sched
import Idealize.ShloMosaic.Lib.Ring

noncomputable section

namespace Cert.KernelIdeal.A2A

open Cert.KernelIdeal Cert.KernelIdeal.Gen Cert.A2A
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

theorem xRows_set (k : Fin 8) :
    (xRows k).view.set = (Rect.unit (s := S4096x2048) ![512 * k.val, 0] S512x2048.size (xrows_inb k)).set :=
  View.set_slice_whole _ _

theorem inSlot_set (s : Fin 2) :
    (inSlot s).view.set = (Rect.unit (s := S2x512x2048) ![s.val, 0, 0] S1x512x2048.size (inslot_inb s)).set :=
  (View.set_reshape _ _).trans (View.set_slice_whole _ _)

theorem sbSlot_set (k : Fin 8) :
    (sbSlot k).view.set = (Rect.unit (s := S8x512x1024) ![k.val, 0, 0] S1x512x1024.size (slot8_inb k)).set :=
  (View.set_reshape _ _).trans (View.set_slice_whole _ _)

theorem kbSlot_set (k : Fin 8) :
    (kbSlot k).view.set = (Rect.unit (s := S8x512x1024) ![k.val, 0, 0] S1x512x1024.size (slot8_inb k)).set :=
  (View.set_reshape _ _).trans (View.set_slice_whole _ _)

def oBlk (d : Dev nD) (k : Fin 8) : Fin 16 := ⟨8 * xco d + k.val, by have := xco_lt d; have := k.isLt; omega⟩

theorem oRows_set (d : Dev nD) (k : Fin 8) :
    (oRows d k).view.set
      = (Rect.unit (s := S8192x1024) ![512 * (oBlk d k).val, 0] S512x1024.size (o16_inb (oBlk d k))).set := by
  refine (View.set_slice_whole _ _).trans (unit_set_congr _ _ ?_)
  rw [off_eq]
  show ![4096 * xco d + 512 * k.val, 0] = ![512 * (8 * xco d + k.val), 0]
  rw [show 4096 * xco d + 512 * k.val = 512 * (8 * xco d + k.val) by omega]

theorem x_disj (b b' : Fin 8) (h : b ≠ b') : Disjoint (xRows b).view.set (xRows b').view.set := by
  rw [xRows_set, xRows_set]; exact x_lead_disj b b' h

theorem x_cover : Finset.biUnion (β := S4096x2048.Idx) Finset.univ (fun k : Fin 8 => (xRows k).view.set) = Finset.univ := by
  rw [show (fun k : Fin 8 => ((xRows k).view.set : Finset S4096x2048.Idx))
      = fun k : Fin 8 => (Rect.unit (s := S4096x2048) ![512 * k.val, 0] S512x2048.size (xrows_inb k)).set from funext xRows_set]
  exact x_lead_cover

theorem in_disj (b b' : Fin 2) (h : b ≠ b') : Disjoint (inSlot b).view.set (inSlot b').view.set := by
  rw [inSlot_set, inSlot_set]; exact in_lead_disj b b' h

theorem in_cover : Finset.biUnion (β := S2x512x2048.Idx) Finset.univ (fun s : Fin 2 => (inSlot s).view.set) = Finset.univ := by
  rw [show (fun s : Fin 2 => ((inSlot s).view.set : Finset S2x512x2048.Idx))
      = fun s : Fin 2 => (Rect.unit (s := S2x512x2048) ![s.val, 0, 0] S1x512x2048.size (inslot_inb s)).set from funext inSlot_set]
  exact in_lead_cover

theorem sb_disj (b b' : Fin 8) (h : b ≠ b') : Disjoint (sbSlot b).view.set (sbSlot b').view.set := by
  rw [sbSlot_set, sbSlot_set]; exact slot8_lead_disj b b' h
theorem sb_cover : Finset.biUnion (β := S8x512x1024.Idx) Finset.univ (fun k : Fin 8 => (sbSlot k).view.set) = Finset.univ := by
  rw [show (fun k : Fin 8 => ((sbSlot k).view.set : Finset S8x512x1024.Idx))
      = fun k : Fin 8 => (Rect.unit (s := S8x512x1024) ![k.val, 0, 0] S1x512x1024.size (slot8_inb k)).set from funext sbSlot_set]
  exact slot8_lead_cover
theorem kb_disj (b b' : Fin 8) (h : b ≠ b') : Disjoint (kbSlot b).view.set (kbSlot b').view.set := by
  rw [kbSlot_set, kbSlot_set]; exact slot8_lead_disj b b' h
theorem kb_cover : Finset.biUnion (β := S8x512x1024.Idx) Finset.univ (fun k : Fin 8 => (kbSlot k).view.set) = Finset.univ := by
  rw [show (fun k : Fin 8 => ((kbSlot k).view.set : Finset S8x512x1024.Idx))
      = fun k : Fin 8 => (Rect.unit (s := S8x512x1024) ![k.val, 0, 0] S1x512x1024.size (slot8_inb k)).set from funext kbSlot_set]
  exact slot8_lead_cover

variable {F : FTy → Type} [FloatOps F]

local notation "𝕄" => MT nD τ sig Unit (Elt F) ℕ UU ℕ

theorem x_split (c : Dev nD) (f : Buf (Elt F) ((c : Thread nD τ).loc main_arg0)) :
    (((c : Thread nD τ).loc main_arg0) ↦{fullShare} f : sProp 𝕄)
      = bigSep Finset.univ fun k : Fin 8 => ((xRows k).view.loc (c : Thread nD τ) ↦[(xRows k).view.set]{fullShare} f) :=
  Ring.pointsTo_blocks (ℓ := (c : Thread nD τ).loc main_arg0) (fun k : Fin 8 => (xRows k).view.set) x_disj x_cover f

theorem in_split (c : Dev nD) (f : Buf (Elt F) ((c : Thread nD τ).loc cc0_scratch0)) :
    (((c : Thread nD τ).loc cc0_scratch0) ↦{fullShare} f : sProp 𝕄) = bigSep Finset.univ fun s : Fin 2 => inPts c s f :=
  Ring.pointsTo_blocks (ℓ := (c : Thread nD τ).loc cc0_scratch0) (fun s : Fin 2 => (inSlot s).view.set) in_disj in_cover f

theorem sb_split (c : Dev nD) (f : Buf (Elt F) ((c : Thread nD τ).loc cc0_scratch1)) :
    (((c : Thread nD τ).loc cc0_scratch1) ↦{fullShare} f : sProp 𝕄) = bigSep Finset.univ fun k : Fin 8 => sbPts c k f :=
  Ring.pointsTo_blocks (ℓ := (c : Thread nD τ).loc cc0_scratch1) (fun k : Fin 8 => (sbSlot k).view.set) sb_disj sb_cover f

theorem kb_split (c : Dev nD) (f : Buf (Elt F) ((c : Thread nD τ).loc cc0_scratch2)) :
    (((c : Thread nD τ).loc cc0_scratch2) ↦{fullShare} f : sProp 𝕄) = bigSep Finset.univ fun k : Fin 8 => kbPts c k f :=
  Ring.pointsTo_blocks (ℓ := (c : Thread nD τ).loc cc0_scratch2) (fun k : Fin 8 => (kbSlot k).view.set) kb_disj kb_cover f

theorem in_join (c : Dev nD) :
    (bigSep Finset.univ fun s : Fin 2 => iprop(∃ f, inPts c s f))
      ⊢ (iprop(∃ g, ((c : Thread nD τ).loc cc0_scratch0) ↦{fullShare} g) : sProp 𝕄) :=
  Ring.pointsTo_blocks_join_exists (ℓ := (c : Thread nD τ).loc cc0_scratch0) (fun s : Fin 2 => (inSlot s).view.set) in_disj in_cover
    (fun _ => default)

theorem sb_join (c : Dev nD) :
    (bigSep Finset.univ fun k : Fin 8 => iprop(∃ f, sbPts c k f))
      ⊢ (iprop(∃ g, ((c : Thread nD τ).loc cc0_scratch1) ↦{fullShare} g) : sProp 𝕄) :=
  Ring.pointsTo_blocks_join_exists (ℓ := (c : Thread nD τ).loc cc0_scratch1) (fun k : Fin 8 => (sbSlot k).view.set) sb_disj sb_cover
    (fun _ => default)

theorem kb_join (c : Dev nD) :
    (bigSep Finset.univ fun k : Fin 8 => iprop(∃ f, kbPts c k f))
      ⊢ (iprop(∃ g, ((c : Thread nD τ).loc cc0_scratch2) ↦{fullShare} g) : sProp 𝕄) :=
  Ring.pointsTo_blocks_join_exists (ℓ := (c : Thread nD τ).loc cc0_scratch2) (fun k : Fin 8 => (kbSlot k).view.set) kb_disj kb_cover
    (fun _ => default)

theorem o_split16 (c : Dev nD) (f : Buf (Elt F) ((c : Thread nD τ).loc main_v1)) :
    (((c : Thread nD τ).loc main_v1) ↦{fullShare} f : sProp 𝕄)
      = bigSep Finset.univ fun b : Fin 16 =>
          (((c : Thread nD τ).loc main_v1) ↦[(Rect.unit (s := S8192x1024) ![512 * b.val, 0] S512x1024.size (o16_inb b)).set]{fullShare} f) :=
  Ring.pointsTo_blocks (ℓ := (c : Thread nD τ).loc main_v1)
    (fun b : Fin 16 => (Rect.unit (s := S8192x1024) ![512 * b.val, 0] S512x1024.size (o16_inb b)).set) o16_disj o16_cover f

theorem oPts_blk (c d : Dev nD) (k : Fin 8) (f : Buf (Elt F) ((c : Thread nD τ).loc main_v1)) :
    (oPts c d k f : sProp 𝕄)
      = (((c : Thread nD τ).loc main_v1) ↦[(Rect.unit (s := S8192x1024) ![512 * (oBlk d k).val, 0] S512x1024.size (o16_inb (oBlk d k))).set]{fullShare} f) := by
  unfold oPts; rw [oRows_set]

theorem oBlk_low (d : Dev nD) (h : xco d = 0) (k : Fin 8) : oBlk d k = Fin.castAdd 8 k := by
  apply Fin.ext; show 8 * xco d + k.val = k.val; omega
theorem oBlk_high (d : Dev nD) (h : xco d = 1) (k : Fin 8) : oBlk d k = Fin.natAdd 8 k := by
  apply Fin.ext; show 8 * xco d + k.val = 8 + k.val; omega

/-- A result is its sixteen row blocks: the eight the device fills and the eight its partner fills, in the order of their first coordinates. -/
theorem o_split (c : Dev nD) (f : Buf (Elt F) ((c : Thread nD τ).loc main_v1)) :
    (((c : Thread nD τ).loc main_v1) ↦{fullShare} f : sProp 𝕄)
      = iprop((bigSep Finset.univ fun k : Fin 8 => oPts c c k f) ∗ (bigSep Finset.univ fun k : Fin 8 => oPts c (peer c) k f)) := by
  rw [o_split16, bigSep_fin16_halves]
  simp only [oPts_blk]
  rcases xco_cases c with h | h
  · have hp : xco (peer c) = 1 := by have := xco_peer c; omega
    simp only [oBlk_low c h, oBlk_high (peer c) hp]
  · have hp : xco (peer c) = 0 := by have := xco_peer c; omega
    simp only [oBlk_high c h, oBlk_low (peer c) hp]
    exact sep_swap _ _

/-- info: 'Cert.KernelIdeal.A2A.o_split' depends on axioms: [propext, Classical.choice, Quot.sound] -/
#guard_msgs in #print axioms o_split

end Cert.KernelIdeal.A2A

end
-- ==== Proof.Value.lean ====
import proofs.«900650_g7700000000000651_dist_a2a_v7x_xyz2x4x4_x_m4096_n1024_f32_1_alg».proof.Proof.Blocks
import Idealize.ShloMosaic.Lib.Pipeline.Value
import Idealize.ShloMosaic.Lib.ValueIdx
import Idealize.ShloMosaic.Lib.Layout

noncomputable section

namespace Cert.KernelIdeal.A2A

open Cert.KernelIdeal Cert.KernelIdeal.Gen Cert.A2A
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

theorem inSlot_emb (s : Fin 2) (a : Fin 512) (b : Fin 2048) :
    (inSlot s).view.emb (ix2 a b) = (ix3 s a b : S2x512x2048.Idx) := by
  show (Rect.unit (s := S2x512x2048) ![s.val, 0, 0] S1x512x2048.size (inslot_inb s)).emb
      (Shape.reshapeEquiv (squeezes_S1x512x2048_S512x2048).numel_eq (ix2 a b)) = _
  have hr : Shape.reshapeEquiv (squeezes_S1x512x2048_S512x2048).numel_eq (ix2 a b)
      = (ix3 (⟨0, Nat.one_pos⟩ : Fin 1) a b : S1x512x2048.Idx) :=
    Shape.reshapeEquiv_eq_of_rowMajor _ (by
      rw [Shape.rowMajor_val_three, Shape.rowMajor_val_two]
      show ((0 * 512 + a.val) * 2048 + b.val) = a.val * 2048 + b.val
      omega)
  rw [hr]
  funext d
  refine Fin.ext ?_
  match d with
  | ⟨0, _⟩ => show s.val + 1 * 0 = s.val; omega
  | ⟨1, _⟩ => show 0 + 1 * a.val = a.val; omega
  | ⟨2, _⟩ => show 0 + 1 * b.val = b.val; omega

theorem xRows_emb (k : Fin 8) (a : Fin 512) (b : Fin 2048) :
    (xRows k).view.emb (ix2 a b)
      = (ix2 (n0 := 4096) (n1 := 2048) ⟨512 * k.val + a.val, by have := k.isLt; have := a.isLt; omega⟩ b : S4096x2048.Idx) := by
  funext d
  refine Fin.ext ?_
  match d with
  | ⟨0, _⟩ => show 512 * k.val + 1 * a.val = 512 * k.val + a.val; omega
  | ⟨1, _⟩ => show 0 + 1 * b.val = b.val; omega

theorem slot8_emb (k : Fin 8) (a : Fin 512) (b : Fin 1024) :
    (Rect.unit (s := S8x512x1024) ![k.val, 0, 0] S1x512x1024.size (slot8_inb k)).emb
      (Shape.reshapeEquiv (squeezes_S1x512x1024_S512x1024).numel_eq (ix2 a b)) = (ix3 k a b : S8x512x1024.Idx) := by
  have hr : Shape.reshapeEquiv (squeezes_S1x512x1024_S512x1024).numel_eq (ix2 a b)
      = (ix3 (⟨0, Nat.one_pos⟩ : Fin 1) a b : S1x512x1024.Idx) :=
    Shape.reshapeEquiv_eq_of_rowMajor _ (by
      rw [Shape.rowMajor_val_three, Shape.rowMajor_val_two]
      show ((0 * 512 + a.val) * 1024 + b.val) = a.val * 1024 + b.val
      omega)
  rw [hr]
  funext d
  refine Fin.ext ?_
  match d with
  | ⟨0, _⟩ => show k.val + 1 * 0 = k.val; omega
  | ⟨1, _⟩ => show 0 + 1 * a.val = a.val; omega
  | ⟨2, _⟩ => show 0 + 1 * b.val = b.val; omega

theorem sbSlot_emb (k : Fin 8) (a : Fin 512) (b : Fin 1024) :
    (sbSlot k).view.emb (ix2 a b) = (ix3 k a b : S8x512x1024.Idx) := slot8_emb k a b

theorem kbSlot_emb (k : Fin 8) (a : Fin 512) (b : Fin 1024) :
    (kbSlot k).view.emb (ix2 a b) = (ix3 k a b : S8x512x1024.Idx) := slot8_emb k a b

theorem sbAccess_emb (k : Fin 8) (a : Fin 512) (b : Fin 1024) :
    (sbM.access (Rect.unit (s := S8x512x1024) ![k.val, 0, 0] S1x512x1024.size (slot8_inb k))).emb
        (ix3 (⟨0, Nat.one_pos⟩ : Fin 1) a b : S1x512x1024.Idx) = (ix3 k a b : S8x512x1024.Idx) := by
  funext d
  refine Fin.ext ?_
  match d with
  | ⟨0, _⟩ => show k.val + 1 * 0 = k.val; omega
  | ⟨1, _⟩ => show 0 + 1 * a.val = a.val; omega
  | ⟨2, _⟩ => show 0 + 1 * b.val = b.val; omega

theorem kbAccess_emb (k : Fin 8) (a : Fin 512) (b : Fin 1024) :
    (kbM.access (Rect.unit (s := S8x512x1024) ![k.val, 0, 0] S1x512x1024.size (slot8_inb k))).emb
        (ix3 (⟨0, Nat.one_pos⟩ : Fin 1) a b : S1x512x1024.Idx) = (ix3 k a b : S8x512x1024.Idx) := by
  funext d
  refine Fin.ext ?_
  match d with
  | ⟨0, _⟩ => show k.val + 1 * 0 = k.val; omega
  | ⟨1, _⟩ => show 0 + 1 * a.val = a.val; omega
  | ⟨2, _⟩ => show 0 + 1 * b.val = b.val; omega

theorem oRows_emb (d : Dev nD) (k : Fin 8) (a : Fin 512) (b : Fin 1024) :
    (oRows d k).view.emb (ix2 a b)
      = (ix2 (n0 := 8192) (n1 := 1024)
          ⟨4096 * xco d + 512 * k.val + a.val, by have := xco_lt d; have := k.isLt; have := a.isLt; omega⟩ b : S8192x1024.Idx) := by
  have ho := off_eq d k
  funext e
  refine Fin.ext ?_
  match e with
  | ⟨0, h0⟩ =>
    show k0_off1 d (BitVec.ofNat 32 (512 * k.val)) ⟨0, h0⟩ + 1 * a.val = 4096 * xco d + 512 * k.val + a.val
    rw [ho]
    show 4096 * xco d + 512 * k.val + 1 * a.val = 4096 * xco d + 512 * k.val + a.val
    omega
  | ⟨1, h1⟩ =>
    show k0_off1 d (BitVec.ofNat 32 (512 * k.val)) ⟨1, h1⟩ + 1 * b.val = b.val
    rw [ho]
    show 0 + 1 * b.val = b.val
    omega

theorem load_lands (k : Fin 8) (s : Fin 2) (x : S4096x2048.Idx → Elt F .f32)
    (fd : (inSlot s).view.ty.Contents (Elt F)) (i : (inSlot s).view.ty.Idx) (hi : i ∈ (inSlot s).view.set) :
    (inSlot s).view.write (Elt F) fd ((xRows k).view.read (Elt F) x) Finset.univ i = inBuf x k i := by
  obtain ⟨y, rfl⟩ := View.exists_emb_of_mem_set _ hi
  rw [View.write_emb_of_mem _ _ (Finset.mem_univ y)]
  obtain ⟨a, b, rfl⟩ : ∃ a b, y = ix2 a b := ⟨y 0, y 1, eq_ix2 y⟩
  rw [View.read_apply, inSlot_emb, xRows_emb]
  rfl

theorem read_half (x : S4096x2048.Idx → Elt F .f32) (k : Fin 8) (s h : Fin 2)
    (hinb : ∀ a, (![s.val, 0, 1024 * h.val] : Fin 3 → Nat) a + S1x512x1024.size a ≤ S2x512x2048.size a) :
    inM.view.readAt (Elt F) (Rect.unit (s := S2x512x2048) ![s.val, 0, 1024 * h.val] S1x512x1024.size hinb).toLoadRect (inBuf x k)
      = halfVec x k h := by
  funext y
  show inBuf x k ((Rect.unit (s := S2x512x2048) ![s.val, 0, 1024 * h.val] S1x512x1024.size hinb).toLoadRect.idx y) = halfVec x k h y
  unfold inBuf halfVec
  refine congrArg x ?_
  funext d
  refine Fin.ext ?_
  match d with
  | ⟨0, _⟩ => show 512 * k.val + (0 + 1 * (y 1).val) = 512 * k.val + (y 1).val; omega
  | ⟨1, _⟩ => show 1024 * h.val + 1 * (y 2).val = 1024 * h.val + (y 2).val; omega

theorem setOn_whole {κ : Kind} (b : Ref sig κ) (M : Finset b.ty.shape.Idx) :
    (View.whole b : View sig κ _ _ _).setOn M = M := Finset.map_refl

theorem sb_access_set (k : Fin 8) :
    (sbM.access (Rect.unit (s := S8x512x1024) ![k.val, 0, 0] S1x512x1024.size (slot8_inb k))).set = (sbSlot k).view.set :=
  (View.set_slice_whole cc0_scratch1 _).trans (sbSlot_set k).symm

theorem kb_access_set (k : Fin 8) :
    (kbM.access (Rect.unit (s := S8x512x1024) ![k.val, 0, 0] S1x512x1024.size (slot8_inb k))).set = (kbSlot k).view.set :=
  (View.set_slice_whole cc0_scratch2 _).trans (kbSlot_set k).symm

theorem in_load_sub (s h : Fin 2)
    (hinb : ∀ a, (![s.val, 0, 1024 * h.val] : Fin 3 → Nat) a + S1x512x1024.size a ≤ S2x512x2048.size a) :
    inM.view.setOn (Rect.unit (s := S2x512x2048) ![s.val, 0, 1024 * h.val] S1x512x1024.size hinb).toLoadRect.set
      ⊆ (inSlot s).view.set := by
  rw [inSlot_set]
  show (View.whole cc0_scratch0 : View sig .tc _ _ _).setOn _ ⊆ _
  rw [setOn_whole]
  intro i hi
  have hb := Rect.mem_set_unit.mp hi
  refine Rect.mem_set_unit.mpr fun a => ?_
  match a with
  | ⟨0, h0⟩ => exact hb ⟨0, h0⟩
  | ⟨1, h1⟩ => exact hb ⟨1, h1⟩
  | ⟨2, h2⟩ =>
    obtain ⟨-, hu⟩ := hb ⟨2, h2⟩
    have hh := h.isLt
    have hu' : (i ⟨2, h2⟩).val < 1024 * h.val + 1024 := hu
    exact ⟨Nat.zero_le _, show (i ⟨2, h2⟩).val < 0 + 2048 by omega⟩

theorem sb_load_sub (k : Fin 8) :
    sbM.view.setOn (Rect.unit (s := S8x512x1024) ![k.val, 0, 0] S1x512x1024.size (slot8_inb k)).toLoadRect.set
      ⊆ (sbSlot k).view.set := by
  rw [← sb_access_set]
  show (View.whole cc0_scratch1 : View sig .tc _ _ _).setOn _ ⊆ _
  rw [setOn_whole]
  exact (View.set_slice_whole cc0_scratch1 _).ge

theorem sb_store_sub (k : Fin 8) :
    (sbM.access (Rect.unit (s := S8x512x1024) ![k.val, 0, 0] S1x512x1024.size (slot8_inb k))).setOn Finset.univ
      ⊆ (sbSlot k).view.set :=
  (sb_access_set k).le

theorem kb_load_sub (k : Fin 8) :
    kbM.view.setOn (Rect.unit (s := S8x512x1024) ![k.val, 0, 0] S1x512x1024.size (slot8_inb k)).toLoadRect.set
      ⊆ (kbSlot k).view.set := by
  rw [← kb_access_set]
  show (View.whole cc0_scratch2 : View sig .tc _ _ _).setOn _ ⊆ _
  rw [setOn_whole]
  exact (View.set_slice_whole cc0_scratch2 _).ge

theorem kb_store_sub (k : Fin 8) :
    (kbM.access (Rect.unit (s := S8x512x1024) ![k.val, 0, 0] S1x512x1024.size (slot8_inb k))).setOn Finset.univ
      ⊆ (kbSlot k).view.set :=
  (kb_access_set k).le

def pay {α : Type} (v : S1x512x1024.Idx → α) : S1x512x1024.Idx → α :=
  shapeCast S1x512x1024 (shapeCast S512x1024 v shapeCasts_S1x512x1024_S512x1024) shapeCasts_S512x1024_S1x512x1024

theorem pay_eq {α : Type} (v : S1x512x1024.Idx → α) : pay v = v :=
  shapeCast_shapeCast v shapeCasts_S1x512x1024_S512x1024 shapeCasts_S512x1024_S1x512x1024

theorem store_sb (x : S4096x2048.Idx → Elt F .f32) (k : Fin 8) (h : Fin 2)
    (f : (sbSlot k).view.ty.Contents (Elt F)) (i : (sbSlot k).view.ty.Idx) (hi : i ∈ (sbSlot k).view.set) :
    (sbM.access (Rect.unit (s := S8x512x1024) ![k.val, 0, 0] S1x512x1024.size (slot8_inb k))).write (Elt F) f
        (pay (halfVec x k h)) Finset.univ i = halfBuf x h i := by
  obtain ⟨y, rfl⟩ := View.exists_emb_of_mem_set _ hi
  obtain ⟨a, b, rfl⟩ : ∃ a b, y = ix2 a b := ⟨y 0, y 1, eq_ix2 y⟩
  rw [pay_eq, sbSlot_emb]
  have hw := View.write_emb_of_mem
    (v := sbM.access (Rect.unit (s := S8x512x1024) ![k.val, 0, 0] S1x512x1024.size (slot8_inb k))) (Val := Elt F)
    f (halfVec x k h) (M := Finset.univ) (x := (ix3 (⟨0, Nat.one_pos⟩ : Fin 1) a b : S1x512x1024.Idx)) (Finset.mem_univ _)
  rw [sbAccess_emb] at hw
  refine hw.trans ?_
  rfl

theorem store_kb (x : S4096x2048.Idx → Elt F .f32) (k : Fin 8) (h : Fin 2)
    (f : (kbSlot k).view.ty.Contents (Elt F)) (i : (kbSlot k).view.ty.Idx) (hi : i ∈ (kbSlot k).view.set) :
    (kbM.access (Rect.unit (s := S8x512x1024) ![k.val, 0, 0] S1x512x1024.size (slot8_inb k))).write (Elt F) f
        (pay (halfVec x k h)) Finset.univ i = halfBuf x h i := by
  obtain ⟨y, rfl⟩ := View.exists_emb_of_mem_set _ hi
  obtain ⟨a, b, rfl⟩ : ∃ a b, y = ix2 a b := ⟨y 0, y 1, eq_ix2 y⟩
  rw [pay_eq, kbSlot_emb]
  have hw := View.write_emb_of_mem
    (v := kbM.access (Rect.unit (s := S8x512x1024) ![k.val, 0, 0] S1x512x1024.size (slot8_inb k))) (Val := Elt F)
    f (halfVec x k h) (M := Finset.univ) (x := (ix3 (⟨0, Nat.one_pos⟩ : Fin 1) a b : S1x512x1024.Idx)) (Finset.mem_univ _)
  rw [kbAccess_emb] at hw
  refine hw.trans ?_
  rfl

variable (m : (ℓ : Loc nD τ sig) → Buf (Elt F) ℓ)

/-- On the rows it lands in, the kept half of chunk `k` is the device's final result. -/
theorem keep_lands (c : Dev nD) (k : Fin 8) (fd : (oRows c k).view.ty.Contents (Elt F))
    (i : (oRows c k).view.ty.Idx) (hi : i ∈ (oRows c k).view.set) :
    (oRows c k).view.write (Elt F) fd ((kbSlot k).view.read (Elt F) (halfBuf (xAt m c) (xf c))) Finset.univ i
      = outAt m c i := by
  obtain ⟨y, rfl⟩ := View.exists_emb_of_mem_set _ hi
  rw [View.write_emb_of_mem _ _ (Finset.mem_univ y)]
  obtain ⟨a, b, rfl⟩ : ∃ a b, y = ix2 a b := ⟨y 0, y 1, eq_ix2 y⟩
  rw [View.read_apply, kbSlot_emb, oRows_emb]
  have hk := k.isLt
  have ha := a.isLt
  have ho := outOf_own (xf c) (xAt m c) (xAt m (peer c)) ⟨512 * k.val + a.val, by omega⟩ b
  refine Eq.trans ?_ (Eq.trans ho.symm ?_)
  · rfl
  · show outOf (xf c) (xAt m c) (xAt m (peer c)) _ = outOf (xf c) (xAt m c) (xAt m (peer c)) _
    refine congrArg _ ?_
    funext d
    refine Fin.ext ?_
    match d with
    | ⟨0, _⟩ => show 4096 * xco c + (512 * k.val + a.val) = 4096 * xco c + 512 * k.val + a.val; omega
    | ⟨1, _⟩ => rfl

theorem xAt_peer_peer (c : Dev nD) :
    (xAt m (peer (peer c)) : S4096x2048.Idx → Elt F .f32) = xAt m c := by
  have h : ∀ d : Dev nD, d = c → (xAt m d : S4096x2048.Idx → Elt F .f32) = xAt m c := by
    intro d hd; subst hd; rfl
  exact h _ (peer_peer c)

/-- On the rows it lands in, the sent half of chunk `k` is the partner's final result. -/
theorem send_lands (c : Dev nD) (k : Fin 8) (fd : (oRows c k).view.ty.Contents (Elt F))
    (i : (oRows c k).view.ty.Idx) (hi : i ∈ (oRows c k).view.set) :
    (oRows c k).view.write (Elt F) fd ((sbSlot k).view.read (Elt F) (halfBuf (xAt m c) (xf (peer c)))) Finset.univ i
      = outAt m (peer c) i := by
  obtain ⟨y, rfl⟩ := View.exists_emb_of_mem_set _ hi
  rw [View.write_emb_of_mem _ _ (Finset.mem_univ y)]
  obtain ⟨a, b, rfl⟩ : ∃ a b, y = ix2 a b := ⟨y 0, y 1, eq_ix2 y⟩
  rw [View.read_apply, sbSlot_emb, oRows_emb]
  have hk := k.isLt
  have ha := a.isLt
  have hx : xco c = 1 - xco (peer c) := by have := xco_peer c; have := xco_lt c; omega
  have ho := outOf_other (xf (peer c)) (xAt m (peer c)) (xAt m c) ⟨512 * k.val + a.val, by omega⟩ b
  refine Eq.trans ?_ (Eq.trans ho.symm ?_)
  · rfl
  · show outOf (xf (peer c)) (xAt m (peer c)) (xAt m c) _ = outOf (xf (peer c)) (xAt m (peer c)) (xAt m (peer (peer c))) _
    rw [xAt_peer_peer]
    refine congrArg _ ?_
    funext d
    refine Fin.ext ?_
    match d with
    | ⟨0, _⟩ =>
      show 4096 * (1 - xco (peer c)) + (512 * k.val + a.val) = 4096 * xco c + 512 * k.val + a.val
      omega
    | ⟨1, _⟩ => rfl

/-- Each device's argument being its row block of `X`, its result ends as its column block of `X`. -/
theorem outAt_eq_block (X : (⟨2, ![8192, 2048]⟩ : Shape).Idx → Elt F .f32)
    (hm : ∀ c : Dev nD, m ((c : Thread nD τ).loc main_arg0)
      = Layout.blockN ⟨2, ![4096, 2048]⟩ ⟨2, ![8192, 2048]⟩ (Layout.meshBlock [2, 4, 4] ![[0], []] c) X)
    (c : Dev nD) :
    outAt m c = Layout.blockN ⟨2, ![8192, 1024]⟩ ⟨2, ![8192, 2048]⟩ (Layout.meshBlock [2, 4, 4] ![[], [0]] c) X := by
  unfold outAt xAt
  rw [hm c, hm (peer c)]
  funext i
  exact outOf_block X c i

theorem pts_load_lands (c : Dev nD) (k : Fin 8) (s : Fin 2)
    (fd : Buf (Elt F) ((inSlot s).view.loc (c : Thread nD τ))) (x : S4096x2048.Idx → Elt F .f32) :
    ((inSlot s).view.loc (c : Thread nD τ) ↦[(inSlot s).view.set]{fullShare}
        (inSlot s).view.write (Elt F) fd ((xRows k).view.read (Elt F) x) Finset.univ : sProp 𝕄)
      = ((inSlot s).view.loc (c : Thread nD τ) ↦[(inSlot s).view.set]{fullShare} inBuf x k) :=
  pointsTo_congr fun i hi => load_lands k s x fd i hi

theorem pts_store_sb (c : Dev nD) (k : Fin 8) (h : Fin 2)
    (f : Buf (Elt F) ((sbSlot k).view.loc (c : Thread nD τ))) (x : S4096x2048.Idx → Elt F .f32) :
    ((sbSlot k).view.loc (c : Thread nD τ) ↦[(sbSlot k).view.set]{fullShare}
        (sbM.access (Rect.unit (s := S8x512x1024) ![k.val, 0, 0] S1x512x1024.size (slot8_inb k))).write (Elt F) f
          (pay (halfVec x k h)) Finset.univ : sProp 𝕄)
      = ((sbSlot k).view.loc (c : Thread nD τ) ↦[(sbSlot k).view.set]{fullShare} halfBuf x h) :=
  pointsTo_congr fun i hi => store_sb x k h f i hi

theorem pts_store_kb (c : Dev nD) (k : Fin 8) (h : Fin 2)
    (f : Buf (Elt F) ((kbSlot k).view.loc (c : Thread nD τ))) (x : S4096x2048.Idx → Elt F .f32) :
    ((kbSlot k).view.loc (c : Thread nD τ) ↦[(kbSlot k).view.set]{fullShare}
        (kbM.access (Rect.unit (s := S8x512x1024) ![k.val, 0, 0] S1x512x1024.size (slot8_inb k))).write (Elt F) f
          (pay (halfVec x k h)) Finset.univ : sProp 𝕄)
      = ((kbSlot k).view.loc (c : Thread nD τ) ↦[(kbSlot k).view.set]{fullShare} halfBuf x h) :=
  pointsTo_congr fun i hi => store_kb x k h f i hi

theorem pts_keep_lands (c : Dev nD) (k : Fin 8) (fd : Buf (Elt F) ((oRows c k).view.loc (c : Thread nD τ))) :
    ((oRows c k).view.loc (c : Thread nD τ) ↦[(oRows c k).view.set]{fullShare}
        (oRows c k).view.write (Elt F) fd ((kbSlot k).view.read (Elt F) (halfBuf (xAt m c) (xf c))) Finset.univ : sProp 𝕄)
      = ((oRows c k).view.loc (c : Thread nD τ) ↦[(oRows c k).view.set]{fullShare} outAt m c) :=
  pointsTo_congr fun i hi => keep_lands m c k fd i hi

theorem pts_send_lands (c : Dev nD) (k : Fin 8) (fd : Buf (Elt F) ((oRows c k).view.loc ((peer c) : Thread nD τ))) :
    ((oRows c k).view.loc ((peer c) : Thread nD τ) ↦[(oRows c k).view.set]{fullShare}
        (oRows c k).view.write (Elt F) fd ((sbSlot k).view.read (Elt F) (halfBuf (xAt m c) (xf (peer c)))) Finset.univ : sProp 𝕄)
      = ((oRows c k).view.loc ((peer c) : Thread nD τ) ↦[(oRows c k).view.set]{fullShare} outAt m (peer c)) :=
  pointsTo_congr fun i hi => send_lands m c k fd i hi

/-- info: 'Cert.KernelIdeal.A2A.outAt_eq_block' depends on axioms: [propext, Classical.choice, Quot.sound] -/
#guard_msgs in #print axioms outAt_eq_block

end Cert.KernelIdeal.A2A
end
-- ==== Proof.Sems.lean ====
import proofs.«900650_g7700000000000651_dist_a2a_v7x_xyz2x4x4_x_m4096_n1024_f32_1_alg».proof.Proof.State
import Idealize.ShloMosaic.Lib.Pipeline.Kit
import Idealize.ShloMosaic.Lib.Tactic

noncomputable section

namespace Cert.KernelIdeal.A2A

open Cert.KernelIdeal Cert.KernelIdeal.Gen Cert.A2A
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev SemIx : Type := Fin 2 ⊕ (Fin 8 ⊕ (Fin 8 ⊕ Fin 8))

def semIx : SemIx ≃ Fin 26 where
  toFun
    | .inl s => ⟨s.val, by have := s.isLt; omega⟩
    | .inr (.inl k) => ⟨2 + k.val, by have := k.isLt; omega⟩
    | .inr (.inr (.inl k)) => ⟨10 + k.val, by have := k.isLt; omega⟩
    | .inr (.inr (.inr k)) => ⟨18 + k.val, by have := k.isLt; omega⟩
  invFun j :=
    if h1 : j.val < 2 then .inl ⟨j.val, h1⟩
    else if h2 : j.val < 10 then .inr (.inl ⟨j.val - 2, by omega⟩)
    else if h3 : j.val < 18 then .inr (.inr (.inl ⟨j.val - 10, by omega⟩))
    else .inr (.inr (.inr ⟨j.val - 18, by have := j.isLt; omega⟩))
  left_inv := by decide
  right_inv := by decide

def semAt (c : Dev nD) : SemIx → GSem nD τ sig
  | .inl s => loadCell c s
  | .inr (.inl k) => keepCell c k
  | .inr (.inr (.inl k)) => sendCell c k
  | .inr (.inr (.inr k)) => recvCell c k

theorem osem_semIx (c : Dev nD) (x : SemIx) : (((c : Thread nD τ), osem (semIx x)) : GSem nD τ sig) = semAt c x := by
  rcases x with s | k | k | k
  · exact Prod.ext rfl (show osem (semIx (.inl s)) = SemLoc.dma (loadS s) from by revert s; decide)
  · exact Prod.ext rfl (show osem (semIx (.inr (.inl k))) = SemLoc.dma (keepS k) from by revert k; decide)
  · exact Prod.ext rfl (show osem (semIx (.inr (.inr (.inl k)))) = SemLoc.dma (sendS k) from by revert k; decide)
  · exact Prod.ext rfl (show osem (semIx (.inr (.inr (.inr k)))) = SemLoc.dma (recvS k) from by revert k; decide)

omit [FloatOps F] in
theorem sems_join (c : Dev nD) :
    iprop((bigSep Finset.univ fun s : Fin 2 => semVal (loadCell c s) 0) ∗ (bigSep Finset.univ fun k : Fin 8 => semVal (keepCell c k) 0)
        ∗ (bigSep Finset.univ fun k : Fin 8 => semVal (sendCell c k) 0) ∗ (bigSep Finset.univ fun k : Fin 8 => semVal (recvCell c k) 0))
      ⊢ (bigSep Finset.univ fun j : Fin 26 => semVal ((c : Thread nD τ), osem j) 0 : sProp 𝕄) := by
  refine Entails.of_eq (Eq.symm ?_)
  rw [bigSep_univ_equiv semIx,
    bigSep_congr (Ψ := fun x : SemIx => (semVal (semAt c x) 0 : sProp 𝕄)) (fun x _ => congrArg (fun g : GSem nD τ sig => (semVal g 0 : sProp 𝕄)) (osem_semIx c x)),
    bigSep_univ_sum, bigSep_univ_sum, bigSep_univ_sum]
  rfl

/-- info: 'Cert.KernelIdeal.A2A.sems_join' depends on axioms: [propext, Classical.choice, Quot.sound] -/
#guard_msgs in #print axioms sems_join

end Cert.KernelIdeal.A2A

end
-- ==== Proof.Joins.lean ====
import proofs.«900650_g7700000000000651_dist_a2a_v7x_xyz2x4x4_x_m4096_n1024_f32_1_alg».proof.Proof.Blocks
import proofs.«900650_g7700000000000651_dist_a2a_v7x_xyz2x4x4_x_m4096_n1024_f32_1_alg».proof.Proof.Sems

noncomputable section

namespace Cert.KernelIdeal.A2A

open Cert.KernelIdeal Cert.KernelIdeal.Gen Cert.A2A
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

theorem x_split' : ((((c : Thread nD τ).loc main_arg0) ↦{fullShare} xAt m c : sProp 𝕄)) = bigSep Finset.univ fun k : Fin 8 => xPts m c k := by
  unfold xPts; exact x_split c _

theorem x_join' : iprop(xPts m c 0 ∗ xPts m c 1 ∗ xPts m c 2 ∗ xPts m c 3 ∗ xPts m c 4 ∗ xPts m c 5 ∗ xPts m c 6 ∗ xPts m c 7) ⊢ ((((c : Thread nD τ).loc main_arg0) ↦{fullShare} xAt m c : sProp 𝕄)) := by
  rw [x_split' m c, bigSep_fin8]

theorem o_join' : iprop((oPts c c 0 (outAt m c) ∗ oPts c c 1 (outAt m c) ∗ oPts c c 2 (outAt m c) ∗ oPts c c 3 (outAt m c) ∗ oPts c c 4 (outAt m c) ∗ oPts c c 5 (outAt m c) ∗ oPts c c 6 (outAt m c) ∗ oPts c c 7 (outAt m c)) ∗ (oPts c (peer c) 0 (outAt m c) ∗ oPts c (peer c) 1 (outAt m c) ∗ oPts c (peer c) 2 (outAt m c) ∗ oPts c (peer c) 3 (outAt m c) ∗ oPts c (peer c) 4 (outAt m c) ∗ oPts c (peer c) 5 (outAt m c) ∗ oPts c (peer c) 6 (outAt m c) ∗ oPts c (peer c) 7 (outAt m c)))
    ⊢ ((((c : Thread nD τ).loc main_v1) ↦{fullShare} outAt m c : sProp 𝕄)) := by
  rw [o_split c (outAt m c), bigSep_fin8, bigSep_fin8]

theorem in_join' : iprop((∃ f, inPts c 0 f) ∗ (∃ f, inPts c 1 f)) ⊢ (iprop(∃ g, ((c : Thread nD τ).loc cc0_scratch0) ↦{fullShare} g) : sProp 𝕄) := by
  have h := in_join (F := F) c; rw [bigSep_fin2] at h; exact h
theorem sb_join' : iprop((∃ f, sbPts c 0 f) ∗ (∃ f, sbPts c 1 f) ∗ (∃ f, sbPts c 2 f) ∗ (∃ f, sbPts c 3 f) ∗ (∃ f, sbPts c 4 f) ∗ (∃ f, sbPts c 5 f) ∗ (∃ f, sbPts c 6 f) ∗ (∃ f, sbPts c 7 f)) ⊢ (iprop(∃ g, ((c : Thread nD τ).loc cc0_scratch1) ↦{fullShare} g) : sProp 𝕄) := by
  have h := sb_join (F := F) c; rw [bigSep_fin8] at h; exact h
theorem kb_join' : iprop((∃ f, kbPts c 0 f) ∗ (∃ f, kbPts c 1 f) ∗ (∃ f, kbPts c 2 f) ∗ (∃ f, kbPts c 3 f) ∗ (∃ f, kbPts c 4 f) ∗ (∃ f, kbPts c 5 f) ∗ (∃ f, kbPts c 6 f) ∗ (∃ f, kbPts c 7 f)) ⊢ (iprop(∃ g, ((c : Thread nD τ).loc cc0_scratch2) ↦{fullShare} g) : sProp 𝕄) := by
  have h := kb_join (F := F) c; rw [bigSep_fin8] at h; exact h

omit [FloatOps F] in
theorem sems_join' : iprop((semVal (loadCell c 0) 0 ∗ semVal (loadCell c 1) 0) ∗ (semVal (keepCell c 0) 0 ∗ semVal (keepCell c 1) 0 ∗ semVal (keepCell c 2) 0 ∗ semVal (keepCell c 3) 0 ∗ semVal (keepCell c 4) 0 ∗ semVal (keepCell c 5) 0 ∗ semVal (keepCell c 6) 0 ∗ semVal (keepCell c 7) 0)
      ∗ (semVal (sendCell c 0) 0 ∗ semVal (sendCell c 1) 0 ∗ semVal (sendCell c 2) 0 ∗ semVal (sendCell c 3) 0 ∗ semVal (sendCell c 4) 0 ∗ semVal (sendCell c 5) 0 ∗ semVal (sendCell c 6) 0 ∗ semVal (sendCell c 7) 0) ∗ (semVal (recvCell c 0) 0 ∗ semVal (recvCell c 1) 0 ∗ semVal (recvCell c 2) 0 ∗ semVal (recvCell c 3) 0 ∗ semVal (recvCell c 4) 0 ∗ semVal (recvCell c 5) 0 ∗ semVal (recvCell c 6) 0 ∗ semVal (recvCell c 7) 0))
    ⊢ (bigSep Finset.univ fun j : Fin 26 => semVal ((c : Thread nD τ), osem j) 0 : sProp 𝕄) := by
  have h := sems_join (F := F) c; rw [bigSep_fin2, bigSep_fin8, bigSep_fin8, bigSep_fin8] at h; exact h

end Cert.KernelIdeal.A2A

end
-- ==== Proof.Steps.lean ====
import proofs.«900650_g7700000000000651_dist_a2a_v7x_xyz2x4x4_x_m4096_n1024_f32_1_alg».proof.Proof.State
import proofs.«900650_g7700000000000651_dist_a2a_v7x_xyz2x4x4_x_m4096_n1024_f32_1_alg».proof.Proof.Tables
import proofs.«900650_g7700000000000651_dist_a2a_v7x_xyz2x4x4_x_m4096_n1024_f32_1_alg».proof.Proof.Value
import proofs.«900650_g7700000000000651_dist_a2a_v7x_xyz2x4x4_x_m4096_n1024_f32_1_alg».proof.Proof.Joins

noncomputable section

namespace Cert.KernelIdeal.A2A

open Cert.KernelIdeal Cert.KernelIdeal.Gen Cert.A2A
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Bundle
variable (m : (ℓ : Loc nD τ sig) → Buf (Elt F) ℓ) (K : Dev nD × Fin 27 → ℕ) (c : Dev nD)

theorem inv_own (i : Fin 27) : invs m K c ⊢ cellInv ER (Rd m) (K (c, i)) (kcell (c, i)) := by
  unfold invs; exact (BI.Entails.trans BI.sep_and and_elimL).trans (bigSep_elim (Finset.mem_univ i))
theorem inv_peer (i : Fin 27) : invs m K c ⊢ cellInv ER (Rd m) (K (peer c, i)) (kcell (peer c, i)) := by
  unfold invs; exact (BI.Entails.trans BI.sep_and and_elimR).trans (bigSep_elim (Finset.mem_univ i))
theorem inv_bar : invs m K c ⊢ cellInv ER (Rd m) (K (c, iBar)) (barCell c) := inv_own m K c iBar
theorem inv_load (s : Fin 2) : invs m K c ⊢ cellInv ER (Rd m) (K (c, iLoad s)) (loadCell c s) := by
  rw [← kcell_load]; exact inv_own m K c (iLoad s)
theorem inv_keep (k : Fin 8) : invs m K c ⊢ cellInv ER (Rd m) (K (c, iKeep k)) (keepCell c k) := by
  rw [← kcell_keep]; exact inv_own m K c (iKeep k)
theorem inv_send (k : Fin 8) : invs m K c ⊢ cellInv ER (Rd m) (K (c, iSend k)) (sendCell c k) := by
  rw [← kcell_send]; exact inv_own m K c (iSend k)
theorem inv_recv (k : Fin 8) : invs m K c ⊢ cellInv ER (Rd m) (K (c, iRecv k)) (recvCell c k) := by
  rw [← kcell_recv]; exact inv_own m K c (iRecv k)
theorem inv_peer_bar : invs m K c ⊢ cellInv ER (Rd m) (K (peer c, iBar)) (barCell (peer c)) := inv_peer m K c iBar
theorem inv_peer_recv (k : Fin 8) : invs m K c ⊢ cellInv ER (Rd m) (K (peer c, iRecv k)) (recvCell (peer c) k) := by
  rw [← kcell_recv]; exact inv_peer m K c (iRecv k)

omit [FloatOps F] in
theorem reach_at (i : Fin 27) : (reach0 c : sProp 𝕄) ⊢ reached ER (kcell (c, i)) 0 := by
  unfold reach0; exact bigSep_elim (Finset.mem_univ i)
omit [FloatOps F] in
theorem reach_bar : (reach0 c : sProp 𝕄) ⊢ reached ER (barCell c) 0 := reach_at c iBar
omit [FloatOps F] in
theorem reach_load (s : Fin 2) : (reach0 c : sProp 𝕄) ⊢ reached ER (loadCell c s) 0 := by rw [← kcell_load]; exact reach_at c (iLoad s)
omit [FloatOps F] in
theorem reach_keep (k : Fin 8) : (reach0 c : sProp 𝕄) ⊢ reached ER (keepCell c k) 0 := by rw [← kcell_keep]; exact reach_at c (iKeep k)
omit [FloatOps F] in
theorem reach_send (k : Fin 8) : (reach0 c : sProp 𝕄) ⊢ reached ER (sendCell c k) 0 := by rw [← kcell_send]; exact reach_at c (iSend k)
omit [FloatOps F] in
theorem reach_recv (k : Fin 8) : (reach0 c : sProp 𝕄) ⊢ reached ER (recvCell c k) 0 := by rw [← kcell_recv]; exact reach_at c (iRecv k)

end Bundle

section Steps
variable (m : (ℓ : Loc nD τ sig) → Buf (Elt F) ℓ) (K : Dev nD × Fin 27 → ℕ) (c : Dev nD)

/-- The copy of chunk `k` of the argument into slot `s`. -/
theorem wp_loadStart (k : Fin 8) (s : Fin 2) (hs : slotOf k = s) (r : ℕ) (hr : roundOf k = r)
    {hsrc : (xRows k : Memref sig .tc .hbm S512x2048 .f32).view.WordExact}
    {hdst : (inSlot s : Memref sig .tc .vmem S512x2048 .f32).view.WordExact}
    {hsem : DmaTarget.Typed .hbm (.dma (loadS s)) (DmaTarget.here (inSlot s) : DmaTarget nD τ sig Proc.tc .vmem S512x2048 .f32)}
    {α : Type} {Q : α → sProp 𝕄} {kont : PUnit → Prog (TpuEff nD τ sig (Elt F) Λ₀ .tc) α}
    {fd : Buf (Elt F) ((inSlot s : Memref sig .tc .vmem S512x2048 .f32).view.loc (c : Thread nD τ))}
    {prog : Prog (TpuEff nD τ sig (Elt F) Λ₀ .tc) α} (hprog : prog = .op (.enqueueDma (xRows k) (.here (inSlot s)) (.dma (loadS s)) hsrc hdst hsem) kont) :
    invs m K c ⊢ iprop(xPts m c k -∗ inPts c s fd -∗ dutyTok ER (loadCell c (slotOf k)) (roundOf k) ()
        -∗ reached ER (loadCell c s) r
        -∗ (cred (tallyAt (loadCell c s) () Nin) -∗ wp frame (wpE (defs₀ (F := F)) 𝒱₀ (c : Thread nD τ) none) Set.univ (kont ⟨⟩) Q)
        -∗ wp frame (wpE (defs₀ (F := F)) 𝒱₀ (c : Thread nD τ) none) Set.univ prog Q) := by
  subst hprog
  subst hs; subst hr
  iintro #HI Hx Hin Htok #Hr Hk
  ihave #HIc := (inv_load m K c (slotOf k)) $$ HI
  unfold xPts inPts
  iapply (Rounds.wp_copy_pointsTo 𝒱₀ ER (Rd m) (c : Thread nD τ) none (κ := K (c, iLoad (slotOf k))) (r := roundOf k) (d := ()) (fd := fd)
    (by rw [duties_load m c (slotOf k) (roundOf k) (roundOf_lt k)]; exact Finset.mem_singleton_self _)
    () Nin rfl (amount_load m c (slotOf k) (roundOf k) ())
    (by
      rw [payload_load, loadPay, chunk_of_round]
      unfold inPts xPts
      rw [pts_load_lands])) $$ [Hx Hin Htok]
  · iframe
    isplitr; · iexact HIc
    iexact Hr
  iexact Hk

/-- The wait for chunk `k`'s landing: the slot at the chunk, and the chunk's rows of the argument back. -/
theorem wp_loadWait (k : Fin 8) (s : Fin 2) (hs : slotOf k = s) (r : ℕ) (hr : roundOf k = r) (j : ℕ)
    {hsrc : (xRows k : Memref sig .tc .hbm S512x2048 .f32).view.WordExact}
    {hdst : (inSlot s : Memref sig .tc .vmem S512x2048 .f32).view.WordExact}
    {α : Type} {Q : α → sProp 𝕄} {kont : PUnit → Prog (TpuEff nD τ sig (Elt F) Λ₀ .tc) α} {W : Waits sig Unit}
    {prog : Prog (TpuEff nD τ sig (Elt F) Λ₀ .tc) α} (hprog : prog = .op (.waitDma2 (loadS s) (xRows k) (inSlot s) hsrc hdst) kont) :
    invs m K c ⊢ iprop(levAts L lv -∗ cred (tallyAt (loadCell c s) () Nin) -∗ owes (c : Thread nD τ) (owedFrom c j) W
        -∗ atPos ER (loadCell c s) r ∅ 0
        -∗ ((owes (c : Thread nD τ) (owedFrom c j) (insert (SemLoc.dma (loadS s), ()) W)
              ∗ atPos ER (loadCell c s) (r + 1) ∅ 0 ∗ reached ER (loadCell c s) (r + 1)
              ∗ inPts c s (inBuf (xAt m c) k) ∗ xPts m c k)
            -∗ wp frame (wpE (defs₀ (F := F)) 𝒱₀ (c : Thread nD τ) none) Set.univ (kont ⟨⟩) Q)
        -∗ wp frame (wpE (defs₀ (F := F)) 𝒱₀ (c : Thread nD τ) none) Set.univ prog Q) := by
  subst hprog
  subst hs; subst hr
  iintro #HI #Hlev Hc HO Hat Hk
  ihave #HIc := (inv_load m K c (slotOf k)) $$ HI
  iapply (Rounds.wp_wait_rest_token 𝒱₀ ER (Rd m) (c : Thread nD τ) none (κ := K (c, iLoad (slotOf k)))
      (wpE_waitDma2_eq 𝒱₀ (c : Thread nD τ) none Set.univ) (Set.mem_univ _) () (O := owedFrom c j) (W := W) (R := roundOf k) (m := 0) (T := ∅)
      (by rw [Nat.zero_add, expect_load m c (slotOf k) (roundOf k) (roundOf_lt k)])) $$ [Hc HO Hat]
  · isplitr; · iexact HIc
    isplitl [Hc]; · iexact Hc
    isplitl [HO]; · iexact HO
    isplitr
    · iapply (mayWait_low c (loadS (slotOf k)) (by rw [loadS_val]; have := (slotOf k).isLt; omega) j); iexact Hlev
    iexact Hat
  iintro ⟨HO, Hat, Hr, Hpay⟩
  ihave Hp := (Entails.of_eq (rest_load m c (slotOf k) (roundOf k) (roundOf_lt k))) $$ Hpay
  unfold loadPay
  rw [chunk_of_round]
  icases Hp with ⟨Hin, Hx⟩
  iapply Hk
  iframe

abbrev rectIn (s : Fin 2) (h : Fin 2) (hinb : ∀ a, (![s.val, 0, 1024 * h.val] : Fin 3 → Nat) a + S1x512x1024.size a ≤ S2x512x2048.size a) : Rect S2x512x2048 :=
  Rect.unit (s := S2x512x2048) ![s.val, 0, 1024 * h.val] S1x512x1024.size hinb
abbrev rect8 (k : Fin 8) : Rect S8x512x1024 := Rect.unit (s := S8x512x1024) ![k.val, 0, 0] S1x512x1024.size (slot8_inb k)

/-- The column half the partner's coordinate names goes from the slot to slot `k` of the send buffer. -/
theorem wp_moveSend (k : Fin 8) (s : Fin 2) {h : Fin 2} (hh : h = xf (peer c)) (x : S4096x2048.Idx → Elt F .f32)
    {hinb : ∀ a, (![s.val, 0, 1024 * h.val] : Fin 3 → Nat) a + S1x512x1024.size a ≤ S2x512x2048.size a}
    {hl₁ : (inM : Memref sig .tc .vmem S2x512x2048 .f32).view.LoadsAt (rectIn s h hinb).toLoadRect}
    {hl₂ : (sbM : Memref sig .tc .vmem S8x512x1024 .f32).view.LoadsAt (rect8 k).toLoadRect}
    {hx : ((sbM : Memref sig .tc .vmem S8x512x1024 .f32).access (rect8 k)).Stores Finset.univ}
    {hm : (Finset.univ : Finset (rect8 k).shape.Idx) = Finset.univ ∨ ∀ a, (rect8 k).stride a = 1}
    {α : Type} {Q : α → sProp 𝕄} {kont : PUnit → Prog (TpuEff nD τ sig (Elt F) Λ₀ .tc) α}
    {f : Buf (Elt F) ((sbSlot k : Memref sig .tc .vmem S512x1024 .f32).view.loc (c : Thread nD τ))}
    {prog : Prog (TpuEff nD τ sig (Elt F) Λ₀ .tc) α} (hprog : prog = .op (.load inM (rectIn s h hinb).toLoadRect hl₁) fun v => .op (.load sbM (rect8 k).toLoadRect hl₂) fun _ => .op (.store sbM (rect8 k) (pay v) Finset.univ hx hm) kont) :
    inPts c s (inBuf x k) ⊢ iprop(sbPts c k f
        -∗ ((inPts c s (inBuf x k) ∗ sbPts c k (halfBuf x h)) -∗ wp frame (wpE (defs₀ (F := F)) 𝒱₀ (c : Thread nD τ) none) Set.univ (kont ⟨⟩) Q)
        -∗ wp frame (wpE (defs₀ (F := F)) 𝒱₀ (c : Thread nD τ) none) Set.univ prog Q) := by
  subst hprog
  unfold inPts sbPts
  iintro Hin Hsb Hk
  iapply (wp_load 𝒱₀ (c : Thread nD τ) none Set.univ (m := inM) (in_load_sub s h hinb)) $$ Hin; iintro Hin
  iapply (wp_load 𝒱₀ (c : Thread nD τ) none Set.univ (m := sbM) (sb_load_sub k)) $$ Hsb; iintro Hsb
  iapply (wp_store 𝒱₀ (c : Thread nD τ) none Set.univ (m := sbM) (r := rect8 k) (Mk := Finset.univ) (sb_store_sub k)) $$ Hsb
  rw [read_half x k s h hinb, pts_store_sb c k h f x]
  iintro Hsb
  iapply Hk
  iframe

/-- The device's own column half goes from the slot to slot `k` of the keep buffer. -/
theorem wp_moveKeep (k : Fin 8) (s : Fin 2) {h : Fin 2} (hh : h = xf c) (x : S4096x2048.Idx → Elt F .f32)
    {hinb : ∀ a, (![s.val, 0, 1024 * h.val] : Fin 3 → Nat) a + S1x512x1024.size a ≤ S2x512x2048.size a}
    {hl₁ : (inM : Memref sig .tc .vmem S2x512x2048 .f32).view.LoadsAt (rectIn s h hinb).toLoadRect}
    {hl₂ : (kbM : Memref sig .tc .vmem S8x512x1024 .f32).view.LoadsAt (rect8 k).toLoadRect}
    {hx : ((kbM : Memref sig .tc .vmem S8x512x1024 .f32).access (rect8 k)).Stores Finset.univ}
    {hm : (Finset.univ : Finset (rect8 k).shape.Idx) = Finset.univ ∨ ∀ a, (rect8 k).stride a = 1}
    {α : Type} {Q : α → sProp 𝕄} {kont : PUnit → Prog (TpuEff nD τ sig (Elt F) Λ₀ .tc) α}
    {f : Buf (Elt F) ((kbSlot k : Memref sig .tc .vmem S512x1024 .f32).view.loc (c : Thread nD τ))}
    {prog : Prog (TpuEff nD τ sig (Elt F) Λ₀ .tc) α} (hprog : prog = .op (.load inM (rectIn s h hinb).toLoadRect hl₁) fun v => .op (.load kbM (rect8 k).toLoadRect hl₂) fun _ => .op (.store kbM (rect8 k) (pay v) Finset.univ hx hm) kont) :
    inPts c s (inBuf x k) ⊢ iprop(kbPts c k f
        -∗ ((inPts c s (inBuf x k) ∗ kbPts c k (halfBuf x h)) -∗ wp frame (wpE (defs₀ (F := F)) 𝒱₀ (c : Thread nD τ) none) Set.univ (kont ⟨⟩) Q)
        -∗ wp frame (wpE (defs₀ (F := F)) 𝒱₀ (c : Thread nD τ) none) Set.univ prog Q) := by
  subst hprog
  unfold inPts kbPts
  iintro Hin Hkb Hk
  iapply (wp_load 𝒱₀ (c : Thread nD τ) none Set.univ (m := inM) (in_load_sub s h hinb)) $$ Hin; iintro Hin
  iapply (wp_load 𝒱₀ (c : Thread nD τ) none Set.univ (m := kbM) (kb_load_sub k)) $$ Hkb; iintro Hkb
  iapply (wp_store 𝒱₀ (c : Thread nD τ) none Set.univ (m := kbM) (r := rect8 k) (Mk := Finset.univ) (kb_store_sub k)) $$ Hkb
  rw [read_half x k s h hinb, pts_store_kb c k h f x]
  iintro Hkb
  iapply Hk
  iframe

/-- The remote copy of send slot `k` into the partner's result; the device stops owing that block's receive credit. -/
theorem wp_rdma (n : Dev nD) (hn : n = peer c) (k : Fin 8) (hk8 : k.val < 8) (j : ℕ) (hj : k.val = j) (h : Fin 2) (hh : h = xf (peer c))
    {hsc : (oRows c k : Memref sig (Dev.tc n : Thread nD τ).2.kind .hbm S512x1024 .f32).view.ref.isScScratch = false}
    {hsrc : (sbSlot k : Memref sig .tc .vmem S512x1024 .f32).view.WordExact}
    {hdst : (oRows c k : Memref sig .tc .hbm S512x1024 .f32).view.WordExact}
    {hsem : DmaTarget.Typed .vmem (.dma (recvS k)) (.remote (Dev.tc n : Thread nD τ) (oRows c k : Memref sig .tc .hbm S512x1024 .f32) (.dma (sendS k)) hsc)}
    {α : Type} {Q : α → sProp 𝕄} {kont : PUnit → Prog (TpuEff nD τ sig (Elt F) Λ₀ .tc) α}
    {fn : Buf (Elt F) ((oRows c k : Memref sig .tc .hbm S512x1024 .f32).view.loc (peer c : Thread nD τ))}
    {W : Waits sig Unit}
    {prog : Prog (TpuEff nD τ sig (Elt F) Λ₀ .tc) α} (hprog : prog = .op (.enqueueDma (sbSlot k) (.remote (Dev.tc n : Thread nD τ) (oRows c k) (.dma (sendS k)) hsc) (.dma (recvS k)) hsrc hdst hsem) kont) :
    invs m K c ⊢ iprop(reach0 c -∗ reach0 (peer c)
        -∗ sbPts c k (halfBuf (xAt m c) h) -∗ oPts (peer c) c k fn
        -∗ owes (c : Thread nD τ) (owedFrom c j) W
        -∗ dutyTok ER (sendCell c k) 0 () -∗ dutyTok ER (recvCell (peer c) k) 0 ()
        -∗ ((cred (tallyAt (sendCell c k) () Nout) ∗ owes (c : Thread nD τ) (owedFrom c (j + 1)) W) -∗ wp frame (wpE (defs₀ (F := F)) 𝒱₀ (c : Thread nD τ) none) Set.univ (kont ⟨⟩) Q)
        -∗ wp frame (wpE (defs₀ (F := F)) 𝒱₀ (c : Thread nD τ) none) Set.univ prog Q) := by
  subst hprog
  subst hn
  subst hh
  subst hj
  iintro #HI #Hr #Hrp Hsb Ho HO Hts Htr Hk
  ihave #HIs := (inv_send m K c k) $$ HI
  ihave #HIr := (inv_peer_recv m K c k) $$ HI
  ihave #Hrs := (reach_send (F := F) c k) $$ Hr
  ihave #Hrr := (reach_recv (F := F) (peer c) k) $$ Hrp
  unfold sbPts oPts
  iapply (Rounds.wp_send_pointsTo 𝒱₀ ER (Rd m) (c : Thread nD τ) none (κ₁ := K (c, iSend k)) (κ₂ := K (peer c, iRecv k))
    (r₁ := 0) (r₂ := 0) (d₁ := ()) (d₂ := ()) (fd := fn)
    (by rw [duties_one m c (sendS_ge2 k)]; exact Finset.mem_singleton_self _) (by rw [duties_one m (peer c) (recvS_ge2 k)]; exact Finset.mem_singleton_self _)
    () () Nout rfl (amount_one m c (sendS_ge2 k) 0 ()) (amount_one m (peer c) (recvS_ge2 k) 0 ()) (owedFrom c (k.val + 1))
    (owedFrom_step c k.val hk8) (W := W)
    (by rw [payload_send]; unfold sendPay sbPts; exact BI.Entails.refl _)
    (by rw [payload_recv]; unfold recvPay oPts; rw [peer_peer, pts_send_lands m c k fn])) $$ [Hsb Ho HO Hts Htr]
  · iframe
    isplitr; · iexact HIs
    isplitr; · iexact HIr
    isplitr; · iexact Hrs
    iexact Hrr
  iexact Hk

/-- The local copy of keep slot `k` into the device's own result. -/
theorem wp_keepStart (k : Fin 8) (h : Fin 2) (hh : h = xf c)
    {hsrc : (kbSlot k : Memref sig .tc .vmem S512x1024 .f32).view.WordExact}
    {hdst : (oRows c k : Memref sig .tc .hbm S512x1024 .f32).view.WordExact}
    {hsem : DmaTarget.Typed .vmem (.dma (keepS k)) (DmaTarget.here (oRows c k) : DmaTarget nD τ sig Proc.tc .hbm S512x1024 .f32)}
    {α : Type} {Q : α → sProp 𝕄} {kont : PUnit → Prog (TpuEff nD τ sig (Elt F) Λ₀ .tc) α}
    {fd : Buf (Elt F) ((oRows c k : Memref sig .tc .hbm S512x1024 .f32).view.loc (c : Thread nD τ))}
    {prog : Prog (TpuEff nD τ sig (Elt F) Λ₀ .tc) α} (hprog : prog = .op (.enqueueDma (kbSlot k) (.here (oRows c k)) (.dma (keepS k)) hsrc hdst hsem) kont) :
    invs m K c ⊢ iprop(reach0 c -∗ kbPts c k (halfBuf (xAt m c) h) -∗ oPts c c k fd -∗ dutyTok ER (keepCell c k) 0 ()
        -∗ (cred (tallyAt (keepCell c k) () Nout) -∗ wp frame (wpE (defs₀ (F := F)) 𝒱₀ (c : Thread nD τ) none) Set.univ (kont ⟨⟩) Q)
        -∗ wp frame (wpE (defs₀ (F := F)) 𝒱₀ (c : Thread nD τ) none) Set.univ prog Q) := by
  subst hprog
  subst hh
  iintro #HI #Hr Hkb Ho Htk Hk
  ihave #HIk := (inv_keep m K c k) $$ HI
  ihave #Hrk := (reach_keep (F := F) c k) $$ Hr
  unfold kbPts oPts
  iapply (Rounds.wp_copy_pointsTo 𝒱₀ ER (Rd m) (c : Thread nD τ) none (κ := K (c, iKeep k)) (r := 0) (d := ()) (fd := fd)
    (by rw [duties_one m c (keepS_ge2 k)]; exact Finset.mem_singleton_self _)
    () Nout rfl (amount_one m c (keepS_ge2 k) 0 ())
    (by
      rw [payload_keep]; unfold keepPay oPts kbPts
      rw [pts_keep_lands m c k fd])) $$ [Hkb Ho Htk]
  · iframe
    isplitr; · iexact HIk
    iexact Hrk
  iexact Hk

/-- A wait for the one round of one of the device's own cells, owing nothing: the round's payload, and the cell closed at zero. -/
theorem wp_waitClose (κ : ℕ) (j : DmaSem sig) (N : ℕ) (Pay : sProp 𝕄)
    (hexp : (Rd (F := F) m).expect ((c : Thread nD τ), .dma j) 0 = N)
    (hrest : bigSep ((Rd (F := F) m).duties ((c : Thread nD τ), .dma j) 0 \ ∅) (fun d => (Rd m).payload ((c : Thread nD τ), .dma j) 0 d) = Pay)
    (hlater : ∀ r, 1 ≤ r → (Rd (F := F) m).duties ((c : Thread nD τ), .dma j) r = ∅)
    {sp sp' : Space} {s s' : Shape} {e e' : EltTy}
    (src : Memref sig .tc sp' s' e') (dst : Memref sig .tc sp s e) {hsrc : src.view.WordExact} {hdst : dst.view.WordExact}
    (hN : dst.view.dmaCredit = N)
    {α : Type} {Q : α → sProp 𝕄} {kont : PUnit → Prog (TpuEff nD τ sig (Elt F) Λ₀ .tc) α} {W : Waits sig Unit} :
    cellInv ER (Rd m) κ ((c : Thread nD τ), .dma j) ⊢ iprop(cred (tallyAt ((c : Thread nD τ), .dma j) () N) -∗ owes (c : Thread nD τ) 0 W
        -∗ atPos ER ((c : Thread nD τ), .dma j) 0 ∅ 0
        -∗ ((owes (c : Thread nD τ) 0 (insert (SemLoc.dma j, ()) W) ∗ semVal ((c : Thread nD τ), .dma j) 0 ∗ Pay) -∗ wp frame (wpE (defs₀ (F := F)) 𝒱₀ (c : Thread nD τ) none) Set.univ (kont ⟨⟩) Q)
        -∗ wp frame (wpE (defs₀ (F := F)) 𝒱₀ (c : Thread nD τ) none) Set.univ (.op (.waitDma2 j src dst hsrc hdst) kont) Q) := by
  subst hN
  iintro #HI Hc HO Hat Hk
  iapply (Rounds.wp_wait_rest_token 𝒱₀ ER (Rd m) (c : Thread nD τ) none (κ := κ)
      (wpE_waitDma2_eq 𝒱₀ (c : Thread nD τ) none Set.univ) (Set.mem_univ _) () (O := 0) (W := W) (R := 0) (m := 0) (T := ∅)
      (by rw [Nat.zero_add, hexp])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq hrest) $$ Hpay
  imod (Rounds.cell_close ER (Rd m) (Set.mem_univ κ) (fun h => h) (R := 0 + 1) hlater) $$ [Hat] with Hz
  · isplitr; · iexact HI
    iexact Hat
  iapply Hk
  iframe

theorem wp_keepWait (k : Fin 8) {hsrc : (kbSlot k : Memref sig .tc .vmem S512x1024 .f32).view.WordExact}
    {hdst : (oRows c k : Memref sig .tc .hbm S512x1024 .f32).view.WordExact}
    {α : Type} {Q : α → sProp 𝕄} {kont : PUnit → Prog (TpuEff nD τ sig (Elt F) Λ₀ .tc) α} {W : Waits sig Unit}
    {prog : Prog (TpuEff nD τ sig (Elt F) Λ₀ .tc) α} (hprog : prog = .op (.waitDma2 (keepS k) (kbSlot k) (oRows c k) hsrc hdst) kont) :
    invs m K c ⊢ iprop(cred (tallyAt (keepCell c k) () Nout) -∗ owes (c : Thread nD τ) 0 W -∗ atPos ER (keepCell c k) 0 ∅ 0
        -∗ ((owes (c : Thread nD τ) 0 (insert (SemLoc.dma (keepS k), ()) W) ∗ semVal (keepCell c k) 0
              ∗ oPts c c k (outAt m c) ∗ kbPts c k (halfBuf (xAt m c) (xf c)))
            -∗ wp frame (wpE (defs₀ (F := F)) 𝒱₀ (c : Thread nD τ) none) Set.univ (kont ⟨⟩) Q)
        -∗ wp frame (wpE (defs₀ (F := F)) 𝒱₀ (c : Thread nD τ) none) Set.univ prog Q) := by
  subst hprog
  exact (inv_keep m K c k).trans (wp_waitClose m c _ (keepS k) Nout (keepPay m c k) (expect_one m c (keepS_ge2 k)) ((rest_one m c (keepS_ge2 k)).trans (payload_keep m c k)) (later_one m c (keepS_ge2 k)) (kbSlot k) (oRows c k) rfl)

theorem wp_sendWait (k : Fin 8) {hsrc : (oRows c k : Memref sig .tc .hbm S512x1024 .f32).view.WordExact}
    {hdst : (sbSlot k : Memref sig .tc .vmem S512x1024 .f32).view.WordExact}
    {α : Type} {Q : α → sProp 𝕄} {kont : PUnit → Prog (TpuEff nD τ sig (Elt F) Λ₀ .tc) α} {W : Waits sig Unit}
    {prog : Prog (TpuEff nD τ sig (Elt F) Λ₀ .tc) α} (hprog : prog = .op (.waitDma2 (sendS k) (oRows c k) (sbSlot k) hsrc hdst) kont) :
    invs m K c ⊢ iprop(cred (tallyAt (sendCell c k) () Nout) -∗ owes (c : Thread nD τ) 0 W -∗ atPos ER (sendCell c k) 0 ∅ 0
        -∗ ((owes (c : Thread nD τ) 0 (insert (SemLoc.dma (sendS k), ()) W) ∗ semVal (sendCell c k) 0
              ∗ sbPts c k (halfBuf (xAt m c) (xf (peer c))))
            -∗ wp frame (wpE (defs₀ (F := F)) 𝒱₀ (c : Thread nD τ) none) Set.univ (kont ⟨⟩) Q)
        -∗ wp frame (wpE (defs₀ (F := F)) 𝒱₀ (c : Thread nD τ) none) Set.univ prog Q) := by
  subst hprog
  exact (inv_send m K c k).trans (wp_waitClose m c _ (sendS k) Nout (sendPay m c k) (expect_one m c (sendS_ge2 k)) ((rest_one m c (sendS_ge2 k)).trans (payload_send m c k)) (later_one m c (sendS_ge2 k)) (oRows c k) (sbSlot k) rfl)

theorem wp_recvWait (k : Fin 8) {hsrc : (sbSlot k : Memref sig .tc .vmem S512x1024 .f32).view.WordExact}
    {hdst : (oRows c k : Memref sig .tc .hbm S512x1024 .f32).view.WordExact}
    {α : Type} {Q : α → sProp 𝕄} {kont : PUnit → Prog (TpuEff nD τ sig (Elt F) Λ₀ .tc) α} {W : Waits sig Unit}
    {prog : Prog (TpuEff nD τ sig (Elt F) Λ₀ .tc) α} (hprog : prog = .op (.waitDma2 (recvS k) (sbSlot k) (oRows c k) hsrc hdst) kont) :
    invs m K c ⊢ iprop(cred (tallyAt (recvCell c k) () Nout) -∗ owes (c : Thread nD τ) 0 W -∗ atPos ER (recvCell c k) 0 ∅ 0
        -∗ ((owes (c : Thread nD τ) 0 (insert (SemLoc.dma (recvS k), ()) W) ∗ semVal (recvCell c k) 0
              ∗ oPts c (peer c) k (outAt m c))
            -∗ wp frame (wpE (defs₀ (F := F)) 𝒱₀ (c : Thread nD τ) none) Set.univ (kont ⟨⟩) Q)
        -∗ wp frame (wpE (defs₀ (F := F)) 𝒱₀ (c : Thread nD τ) none) Set.univ prog Q) := by
  subst hprog
  exact (inv_recv m K c k).trans (wp_waitClose m c _ (recvS k) Nout (recvPay m c k) (expect_one m c (recvS_ge2 k)) ((rest_one m c (recvS_ge2 k)).trans (payload_recv m c k)) (later_one m c (recvS_ge2 k)) (sbSlot k) (oRows c k) rfl)

omit [FloatOps F] in
theorem oPts_ex (c d : Dev nD) (k : Fin 8) (f : Buf (Elt F) ((oRows d k : Memref sig .tc .hbm S512x1024 .f32).view.loc (c : Thread nD τ))) :
    (oPts c d k f : sProp 𝕄) ⊢ iprop(∃ g, oPts c d k g) := by
  iintro H; iexists f; iexact H

omit [FloatOps F] in
theorem barPay_split (c : Dev nD) : (barPay c : sProp 𝕄)
    = iprop((bigSep Finset.univ fun k : Fin 8 => iprop(∃ f, oPts (peer c) c k f)) ∗ bigSep Finset.univ fun k : Fin 8 => reached ER (recvCell (peer c) k) 0) := by
  unfold barPay; rw [bigSep_sep']

omit [FloatOps F] in
theorem barPay_intro (c : Dev nD) (f : Buf (Elt F) ((c : Thread nD τ).loc main_v1)) :
    iprop((bigSep Finset.univ fun k : Fin 8 => oPts c (peer c) k f) ∗ reach0 c) ⊢ (barPay (peer c) : sProp 𝕄) := by
  rw [barPay_split, peer_peer]
  exact (sep_mono_left (bigSep_mono fun k _ => oPts_ex c (peer c) k f)).trans
    (sep_mono_right ((BI.bigSep_of_persistent Finset.univ (reach0 c)).trans (bigSep_mono fun k _ => reach_recv c k)))

end Steps

end Cert.KernelIdeal.A2A

end
-- ==== Proof.Body.lean ====
import proofs.«900650_g7700000000000651_dist_a2a_v7x_xyz2x4x4_x_m4096_n1024_f32_1_alg».proof.Proof.Steps
import proofs.«900650_g7700000000000651_dist_a2a_v7x_xyz2x4x4_x_m4096_n1024_f32_1_alg».proof.Proof.Gen.KernelIdeal.Points

noncomputable section

namespace Cert.KernelIdeal.A2A

open Cert.KernelIdeal Cert.KernelIdeal.Gen Cert.A2A
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

def bodyPre (K : Dev nD × Fin 27 → ℕ) (c : Dev nD) : sProp 𝕄 :=
  iprop(ghost m K c ∗ credits c ∗ levAts L lv
    ∗ (((c : Thread nD τ).loc main_arg0) ↦{fullShare} xAt m c)
    ∗ (((c : Thread nD τ).loc main_v1) ↦{fullShare} m ((c : Thread nD τ).loc main_v1))
    ∗ scratch c ∗ (dats m 0 c).owesAt () t0_0.castSucc)

def bodyPost (c : Dev nD) : sProp 𝕄 := iprop(Φ₁ m c ∗ (dats m 0 c).owesAt () t0_0.succ)

/-- A device keeps the column half its own first coordinate names and sends the other; the branch of the body it takes goes with that. -/
theorem halves (c : Dev nD) :
    ((0 : Fin 2) = xf c ∧ (1 : Fin 2) = xf (peer c)
      ∧ Scalar.cmpi .ne (Scalar.extui (Scalar.cmpi .eq (Scalar.remsi (Scalar.divsi (Dev.word c) 16#32) 2#32) 0#32)) 0#32 = 1#1
      ∧ ¬ Scalar.cmpi .ne (Scalar.extui (Scalar.cmpi .eq (Scalar.remsi (Scalar.divsi (Dev.word c) 16#32) 2#32) 1#32)) 0#32 = 1#1)
    ∨ ((1 : Fin 2) = xf c ∧ (0 : Fin 2) = xf (peer c)
      ∧ Scalar.cmpi .ne (Scalar.extui (Scalar.cmpi .eq (Scalar.remsi (Scalar.divsi (Dev.word c) 16#32) 2#32) 1#32)) 0#32 = 1#1
      ∧ ¬ Scalar.cmpi .ne (Scalar.extui (Scalar.cmpi .eq (Scalar.remsi (Scalar.divsi (Dev.word c) 16#32) 2#32) 0#32)) 0#32 = 1#1) := by
  revert c; decide

set_option maxHeartbeats 4000000 in
set_option maxRecDepth 65536 in
theorem sound_body (c : Dev nD) (K : Dev nD × Fin 27 → ℕ) (Kt : PUnit → sProp 𝕄) :
    iprop(bodyPre m K c ∗ (bodyPost m c -∗ Kt ⟨⟩))
      ⊢ wp frame (wpE (defs₀ (F := F)) 𝒱₀ (c : Thread nD τ) none) Set.univ (bodyAt0 (F := F) t0_0) Kt := by
  rcases halves c with ⟨hxc, hxp, hp, hn⟩ | ⟨hxc, hxp, hp, hn⟩
  all_goals
    unfold bodyAt0
    simp only [cc0_body_eq_skeleton]; unfold cc0_body_skel
    rw [k0_part1_eq_skeleton]; unfold k0_part1_skel
    simp only [semSignalWord, semWaitWord, Prog.lift, Prog.bind_op, Prog.bind_ret, Prog.pure_eq_ret, wp_deviceId, dif_pos hp, dif_neg hn]
    unfold bodyPre ghost atStart payToks credits scratch
    simp only [bigSep_fin8, bigSep_fin2]
    iintro ⟨⟨⟨#HI, #Hr0, #Hrp, ⟨HatB, ⟨Hat0, Hat1⟩, ⟨Hatk0, Hatk1, Hatk2, Hatk3, Hatk4, Hatk5, Hatk6, Hatk7⟩, ⟨Hats0, Hats1, Hats2, Hats3, Hats4, Hats5, Hats6, Hats7⟩, ⟨Hatr0, Hatr1, Hatr2, Hatr3, Hatr4, Hatr5, Hatr6, Hatr7⟩⟩, ⟨HtB, ⟨Htr0, Htr1, Htr2, Htr3, Htr4, Htr5, Htr6, Htr7⟩, ⟨Htk0, Htk1, Htk2, Htk3, Htk4, Htk5, Htk6, Htk7⟩, ⟨Hts0, Hts1, Hts2, Hts3, Hts4, Hts5, Hts6, Hts7⟩, ⟨Htl0, Htl1, Htl2, Htl3, Htl4, Htl5, Htl6, Htl7⟩⟩⟩, ⟨HcB, ⟨Hcr0, Hcr1, Hcr2, Hcr3, Hcr4, Hcr5, Hcr6, Hcr7⟩⟩, #Hlev, Hx, Hout, ⟨⟨%fi, Hin⟩, ⟨%fs, Hsb⟩, ⟨%fk, Hkb⟩⟩, Ho⟩, Hk⟩
    ihave Hx := (Entails.of_eq (x_split' m c)) $$ Hx
    ihave Hout := (Entails.of_eq (o_split c _)) $$ Hout
    ihave Hin := (Entails.of_eq (in_split c _)) $$ Hin
    ihave Hsb := (Entails.of_eq (sb_split c _)) $$ Hsb
    ihave Hkb := (Entails.of_eq (kb_split c _)) $$ Hkb
    icases Hout with ⟨HoutO, HoutP⟩
    ihave H' := (Entails.of_eq (bigSep_fin8 _)) $$ Hx
    icases H' with ⟨Hx0, Hx1, Hx2, Hx3, Hx4, Hx5, Hx6, Hx7⟩
    ihave H' := (Entails.of_eq (bigSep_fin8 _)) $$ HoutO
    icases H' with ⟨Hoo0, Hoo1, Hoo2, Hoo3, Hoo4, Hoo5, Hoo6, Hoo7⟩
    ihave H' := (Entails.of_eq (bigSep_fin8 _)) $$ Hsb
    icases H' with ⟨Hsb0, Hsb1, Hsb2, Hsb3, Hsb4, Hsb5, Hsb6, Hsb7⟩
    ihave H' := (Entails.of_eq (bigSep_fin8 _)) $$ Hkb
    icases H' with ⟨Hkb0, Hkb1, Hkb2, Hkb3, Hkb4, Hkb5, Hkb6, Hkb7⟩
    ihave H' := (Entails.of_eq (bigSep_fin2 _)) $$ Hin
    icases H' with ⟨Hin0, Hin1⟩
    ihave Hrl0 := (reach_load (F := F) c 0) $$ Hr0
    ihave Hrl1 := (reach_load (F := F) c 1) $$ Hr0
    unfold Dat.owesAt Pipeline.owesWithin
    icases Ho with ⟨%W, %hW, HO⟩
    rw [show (dats m 0 c).owed t0_0.castSucc = O₀ c from rfl]
    unfold O₀
    simp only [dev1_eq c]
    ihave #HIbp := (inv_peer_bar m K c) $$ HI
    ihave #Hrbp := (reach_bar (F := F) (peer c)) $$ Hrp
    iapply (Rounds.wp_signal 𝒱₀ ER (Rd m) (c : Thread nD τ) none (dst := (peer c : Thread nD τ)) (κ := K (peer c, iBar))
        (d := ()) (by rw [duties_bar m (peer c)]; exact Finset.mem_singleton_self _) ((amount_bar m (peer c) 0 ()).trans (by decide)) () (owedFrom c 0) rfl)
      $$ [HO HtB HoutP]
    · isplitr; · iexact HIbp
      isplitl [HO]; · iexact HO
      isplitl [HtB]; · iexact HtB
      isplitl [HoutP]
      · rw [payload_bar]
        iapply (barPay_intro c _)
        isplitl [HoutP]; · iexact HoutP
        iexact Hr0
      · iexact Hrbp
    iintro HO
    ihave #HIb := (inv_bar m K c) $$ HI
    iapply (Rounds.wp_wait_rest_token 𝒱₀ ER (Rd m) (c : Thread nD τ) none (κ := K (c, iBar))
        (wpE_semWait_eq 𝒱₀ (c : Thread nD τ) none Set.univ) (Set.mem_univ _) () (O := owedFrom c 0) (W := W) (R := 0) (m := 0) (T := ∅)
        (by rw [expect_bar]; decide)) $$ [HcB HO HatB]
    · isplitr; · iexact HIb
      isplitl [HcB]; · iexact HcB
      isplitl [HO]; · iexact HO
      isplitr; · iapply (mayWait_bar c); iexact Hlev
      iexact HatB
    iintro ⟨HO, HatB, -, Hpay⟩
    ihave Hp := (Entails.of_eq ((rest_bar m c).trans (barPay_split c))) $$ Hpay
    icases Hp with ⟨Hop, -⟩
    ihave H' := (Entails.of_eq (bigSep_fin8 _)) $$ Hop
    icases H' with ⟨⟨%g0, Hop0⟩, ⟨%g1, Hop1⟩, ⟨%g2, Hop2⟩, ⟨%g3, Hop3⟩, ⟨%g4, Hop4⟩, ⟨%g5, Hop5⟩, ⟨%g6, Hop6⟩, ⟨%g7, Hop7⟩⟩
    iapply (wp_loadStart m K c (0 : Fin 8) 0 (by decide) (0) (by decide) ?_) $$ HI Hx0 Hin0 Htl0 Hrl0
    · rfl
    iintro Hcl0
    iapply (wp_loadStart m K c (1 : Fin 8) 1 (by decide) (0) (by decide) ?_) $$ HI Hx1 Hin1 Htl1 Hrl1
    · rfl
    iintro Hcl1
    rw [k0_part2_eq_skeleton]; unfold k0_part2_skel
    simp only [semSignalWord, semWaitWord, Prog.lift, Prog.bind_op, Prog.bind_ret, Prog.pure_eq_ret, wp_deviceId, dif_pos hp, dif_neg hn]
    iapply (wp_loadWait m K c (0 : Fin 8) 0 (by decide) (0) (by decide) (0) ?_) $$ HI Hlev Hcl0 HO Hat0
    · rfl
    iintro ⟨HO, Hat0, Hrl0, Hin0, Hx0⟩
    iapply (wp_moveSend c (0 : Fin 8) (0 : Fin 2) hxp (xAt m c) ?_) $$ Hin0 Hsb0
    · rfl
    iintro ⟨Hin0, Hsb0⟩
    iapply (wp_moveKeep c (0 : Fin 8) (0 : Fin 2) hxc (xAt m c) ?_) $$ Hin0 Hkb0
    · rfl
    iintro ⟨Hin0, Hkb0⟩
    iapply (wp_rdma m K c _ (dev2_eq c) (0 : Fin 8) (by decide) (0) (by decide) _ hxp ?_) $$ HI Hr0 Hrp Hsb0 Hop0 HO Hts0 Htr0
    · rfl
    iintro ⟨Hcs0, HO⟩
    rw [k0_part3_eq_skeleton]; unfold k0_part3_skel
    simp only [semSignalWord, semWaitWord, Prog.lift, Prog.bind_op, Prog.bind_ret, Prog.pure_eq_ret, wp_deviceId, dif_pos hp, dif_neg hn]
    iapply (wp_keepStart m K c (0 : Fin 8) _ hxc ?_) $$ HI Hr0 Hkb0 Hoo0 Htk0
    · rfl
    iintro Hck0
    iapply (wp_loadStart m K c (2 : Fin 8) 0 (by decide) (0 + 1) (by decide) ?_) $$ HI Hx2 Hin0 Htl2 Hrl0
    · rfl
    iintro Hcl0
    iapply (wp_loadWait m K c (1 : Fin 8) 1 (by decide) (0) (by decide) (0 + 1) ?_) $$ HI Hlev Hcl1 HO Hat1
    · rfl
    iintro ⟨HO, Hat1, Hrl1, Hin1, Hx1⟩
    iapply (wp_moveSend c (1 : Fin 8) (1 : Fin 2) hxp (xAt m c) ?_) $$ Hin1 Hsb1
    · rfl
    iintro ⟨Hin1, Hsb1⟩
    iapply (wp_moveKeep c (1 : Fin 8) (1 : Fin 2) hxc (xAt m c) ?_) $$ Hin1 Hkb1
    · rfl
    iintro ⟨Hin1, Hkb1⟩
    rw [k0_part4_eq_skeleton]; unfold k0_part4_skel
    simp only [semSignalWord, semWaitWord, Prog.lift, Prog.bind_op, Prog.bind_ret, Prog.pure_eq_ret, wp_deviceId, dif_pos hp, dif_neg hn]
    iapply (wp_rdma m K c _ (dev3_eq c) (1 : Fin 8) (by decide) (0 + 1) (by decide) _ hxp ?_) $$ HI Hr0 Hrp Hsb1 Hop1 HO Hts1 Htr1
    · rfl
    iintro ⟨Hcs1, HO⟩
    iapply (wp_keepStart m K c (1 : Fin 8) _ hxc ?_) $$ HI Hr0 Hkb1 Hoo1 Htk1
    · rfl
    iintro Hck1
    iapply (wp_loadStart m K c (3 : Fin 8) 1 (by decide) (0 + 1) (by decide) ?_) $$ HI Hx3 Hin1 Htl3 Hrl1
    · rfl
    iintro Hcl1
    iapply (wp_loadWait m K c (2 : Fin 8) 0 (by decide) (0 + 1) (by decide) (0 + 1 + 1) ?_) $$ HI Hlev Hcl0 HO Hat0
    · rfl
    iintro ⟨HO, Hat0, Hrl0, Hin0, Hx2⟩
    iapply (wp_moveSend c (2 : Fin 8) (0 : Fin 2) hxp (xAt m c) ?_) $$ Hin0 Hsb2
    · rfl
    iintro ⟨Hin0, Hsb2⟩
    iapply (wp_moveKeep c (2 : Fin 8) (0 : Fin 2) hxc (xAt m c) ?_) $$ Hin0 Hkb2
    · rfl
    iintro ⟨Hin0, Hkb2⟩
    rw [k0_part5_eq_skeleton]; unfold k0_part5_skel
    simp only [semSignalWord, semWaitWord, Prog.lift, Prog.bind_op, Prog.bind_ret, Prog.pure_eq_ret, wp_deviceId, dif_pos hp, dif_neg hn]
    iapply (wp_rdma m K c _ (dev4_eq c) (2 : Fin 8) (by decide) (0 + 1 + 1) (by decide) _ hxp ?_) $$ HI Hr0 Hrp Hsb2 Hop2 HO Hts2 Htr2
    · rfl
    iintro ⟨Hcs2, HO⟩
    iapply (wp_keepStart m K c (2 : Fin 8) _ hxc ?_) $$ HI Hr0 Hkb2 Hoo2 Htk2
    · rfl
    iintro Hck2
    iapply (wp_loadStart m K c (4 : Fin 8) 0 (by decide) (0 + 1 + 1) (by decide) ?_) $$ HI Hx4 Hin0 Htl4 Hrl0
    · rfl
    iintro Hcl0
    rw [k0_part6_eq_skeleton]; unfold k0_part6_skel
    simp only [semSignalWord, semWaitWord, Prog.lift, Prog.bind_op, Prog.bind_ret, Prog.pure_eq_ret, wp_deviceId, dif_pos hp, dif_neg hn]
    iapply (wp_loadWait m K c (3 : Fin 8) 1 (by decide) (0 + 1) (by decide) (0 + 1 + 1 + 1) ?_) $$ HI Hlev Hcl1 HO Hat1
    · rfl
    iintro ⟨HO, Hat1, Hrl1, Hin1, Hx3⟩
    iapply (wp_moveSend c (3 : Fin 8) (1 : Fin 2) hxp (xAt m c) ?_) $$ Hin1 Hsb3
    · rfl
    iintro ⟨Hin1, Hsb3⟩
    iapply (wp_moveKeep c (3 : Fin 8) (1 : Fin 2) hxc (xAt m c) ?_) $$ Hin1 Hkb3
    · rfl
    iintro ⟨Hin1, Hkb3⟩
    iapply (wp_rdma m K c _ (dev5_eq c) (3 : Fin 8) (by decide) (0 + 1 + 1 + 1) (by decide) _ hxp ?_) $$ HI Hr0 Hrp Hsb3 Hop3 HO Hts3 Htr3
    · rfl
    iintro ⟨Hcs3, HO⟩
    rw [k0_part7_eq_skeleton]; unfold k0_part7_skel
    simp only [semSignalWord, semWaitWord, Prog.lift, Prog.bind_op, Prog.bind_ret, Prog.pure_eq_ret, wp_deviceId, dif_pos hp, dif_neg hn]
    iapply (wp_keepStart m K c (3 : Fin 8) _ hxc ?_) $$ HI Hr0 Hkb3 Hoo3 Htk3
    · rfl
    iintro Hck3
    iapply (wp_loadStart m K c (5 : Fin 8) 1 (by decide) (0 + 1 + 1) (by decide) ?_) $$ HI Hx5 Hin1 Htl5 Hrl1
    · rfl
    iintro Hcl1
    iapply (wp_loadWait m K c (4 : Fin 8) 0 (by decide) (0 + 1 + 1) (by decide) (0 + 1 + 1 + 1 + 1) ?_) $$ HI Hlev Hcl0 HO Hat0
    · rfl
    iintro ⟨HO, Hat0, Hrl0, Hin0, Hx4⟩
    iapply (wp_moveSend c (4 : Fin 8) (0 : Fin 2) hxp (xAt m c) ?_) $$ Hin0 Hsb4
    · rfl
    iintro ⟨Hin0, Hsb4⟩
    iapply (wp_moveKeep c (4 : Fin 8) (0 : Fin 2) hxc (xAt m c) ?_) $$ Hin0 Hkb4
    · rfl
    iintro ⟨Hin0, Hkb4⟩
    rw [k0_part8_eq_skeleton]; unfold k0_part8_skel
    simp only [semSignalWord, semWaitWord, Prog.lift, Prog.bind_op, Prog.bind_ret, Prog.pure_eq_ret, wp_deviceId, dif_pos hp, dif_neg hn]
    iapply (wp_rdma m K c _ (dev6_eq c) (4 : Fin 8) (by decide) (0 + 1 + 1 + 1 + 1) (by decide) _ hxp ?_) $$ HI Hr0 Hrp Hsb4 Hop4 HO Hts4 Htr4
    · rfl
    iintro ⟨Hcs4, HO⟩
    iapply (wp_keepStart m K c (4 : Fin 8) _ hxc ?_) $$ HI Hr0 Hkb4 Hoo4 Htk4
    · rfl
    iintro Hck4
    iapply (wp_loadStart m K c (6 : Fin 8) 0 (by decide) (0 + 1 + 1 + 1) (by decide) ?_) $$ HI Hx6 Hin0 Htl6 Hrl0
    · rfl
    iintro Hcl0
    iapply (wp_loadWait m K c (5 : Fin 8) 1 (by decide) (0 + 1 + 1) (by decide) (0 + 1 + 1 + 1 + 1 + 1) ?_) $$ HI Hlev Hcl1 HO Hat1
    · rfl
    iintro ⟨HO, Hat1, Hrl1, Hin1, Hx5⟩
    iapply (wp_moveSend c (5 : Fin 8) (1 : Fin 2) hxp (xAt m c) ?_) $$ Hin1 Hsb5
    · rfl
    iintro ⟨Hin1, Hsb5⟩
    iapply (wp_moveKeep c (5 : Fin 8) (1 : Fin 2) hxc (xAt m c) ?_) $$ Hin1 Hkb5
    · rfl
    iintro ⟨Hin1, Hkb5⟩
    rw [k0_part9_eq_skeleton]; unfold k0_part9_skel
    simp only [semSignalWord, semWaitWord, Prog.lift, Prog.bind_op, Prog.bind_ret, Prog.pure_eq_ret, wp_deviceId, dif_pos hp, dif_neg hn]
    iapply (wp_rdma m K c _ (dev7_eq c) (5 : Fin 8) (by decide) (0 + 1 + 1 + 1 + 1 + 1) (by decide) _ hxp ?_) $$ HI Hr0 Hrp Hsb5 Hop5 HO Hts5 Htr5
    · rfl
    iintro ⟨Hcs5, HO⟩
    iapply (wp_keepStart m K c (5 : Fin 8) _ hxc ?_) $$ HI Hr0 Hkb5 Hoo5 Htk5
    · rfl
    iintro Hck5
    iapply (wp_loadStart m K c (7 : Fin 8) 1 (by decide) (0 + 1 + 1 + 1) (by decide) ?_) $$ HI Hx7 Hin1 Htl7 Hrl1
    · rfl
    iintro Hcl1
    rw [k0_part10_eq_skeleton]; unfold k0_part10_skel
    simp only [semSignalWord, semWaitWord, Prog.lift, Prog.bind_op, Prog.bind_ret, Prog.pure_eq_ret, wp_deviceId, dif_pos hp, dif_neg hn]
    iapply (wp_loadWait m K c (6 : Fin 8) 0 (by decide) (0 + 1 + 1 + 1) (by decide) (0 + 1 + 1 + 1 + 1 + 1 + 1) ?_) $$ HI Hlev Hcl0 HO Hat0
    · rfl
    iintro ⟨HO, Hat0, Hrl0, Hin0, Hx6⟩
    iapply (wp_moveSend c (6 : Fin 8) (0 : Fin 2) hxp (xAt m c) ?_) $$ Hin0 Hsb6
    · rfl
    iintro ⟨Hin0, Hsb6⟩
    iapply (wp_moveKeep c (6 : Fin 8) (0 : Fin 2) hxc (xAt m c) ?_) $$ Hin0 Hkb6
    · rfl
    iintro ⟨Hin0, Hkb6⟩
    iapply (wp_rdma m K c _ (dev8_eq c) (6 : Fin 8) (by decide) (0 + 1 + 1 + 1 + 1 + 1 + 1) (by decide) _ hxp ?_) $$ HI Hr0 Hrp Hsb6 Hop6 HO Hts6 Htr6
    · rfl
    iintro ⟨Hcs6, HO⟩
    iapply (wp_keepStart m K c (6 : Fin 8) _ hxc ?_) $$ HI Hr0 Hkb6 Hoo6 Htk6
    · rfl
    iintro Hck6
    rw [k0_part11_eq_skeleton]; unfold k0_part11_skel
    simp only [semSignalWord, semWaitWord, Prog.lift, Prog.bind_op, Prog.bind_ret, Prog.pure_eq_ret, wp_deviceId, dif_pos hp, dif_neg hn]
    iapply (wp_loadWait m K c (7 : Fin 8) 1 (by decide) (0 + 1 + 1 + 1) (by decide) (0 + 1 + 1 + 1 + 1 + 1 + 1 + 1) ?_) $$ HI Hlev Hcl1 HO Hat1
    · rfl
    iintro ⟨HO, Hat1, Hrl1, Hin1, Hx7⟩
    iapply (wp_moveSend c (7 : Fin 8) (1 : Fin 2) hxp (xAt m c) ?_) $$ Hin1 Hsb7
    · rfl
    iintro ⟨Hin1, Hsb7⟩
    iapply (wp_moveKeep c (7 : Fin 8) (1 : Fin 2) hxc (xAt m c) ?_) $$ Hin1 Hkb7
    · rfl
    iintro ⟨Hin1, Hkb7⟩
    iapply (wp_rdma m K c _ (dev9_eq c) (7 : Fin 8) (by decide) (0 + 1 + 1 + 1 + 1 + 1 + 1 + 1) (by decide) _ hxp ?_) $$ HI Hr0 Hrp Hsb7 Hop7 HO Hts7 Htr7
    · rfl
    iintro ⟨Hcs7, HO⟩
    rw [show owedFrom c (0 + 1 + 1 + 1 + 1 + 1 + 1 + 1 + 1) = 0 from owedFrom_last c]
    rw [k0_part12_eq_skeleton]; unfold k0_part12_skel
    simp only [semSignalWord, semWaitWord, Prog.lift, Prog.bind_op, Prog.bind_ret, Prog.pure_eq_ret, wp_deviceId, dif_pos hp, dif_neg hn]
    iapply (wp_keepStart m K c (7 : Fin 8) _ hxc ?_) $$ HI Hr0 Hkb7 Hoo7 Htk7
    · rfl
    iintro Hck7
    iapply (wp_keepWait m K c (0 : Fin 8) ?_) $$ HI Hck0 HO Hatk0
    · rfl
    iintro ⟨HO, Hzk0, Hoo0, Hkb0⟩
    iapply (wp_keepWait m K c (1 : Fin 8) ?_) $$ HI Hck1 HO Hatk1
    · rfl
    iintro ⟨HO, Hzk1, Hoo1, Hkb1⟩
    iapply (wp_keepWait m K c (2 : Fin 8) ?_) $$ HI Hck2 HO Hatk2
    · rfl
    iintro ⟨HO, Hzk2, Hoo2, Hkb2⟩
    iapply (wp_keepWait m K c (3 : Fin 8) ?_) $$ HI Hck3 HO Hatk3
    · rfl
    iintro ⟨HO, Hzk3, Hoo3, Hkb3⟩
    rw [k0_part13_eq_skeleton]; unfold k0_part13_skel
    simp only [semSignalWord, semWaitWord, Prog.lift, Prog.bind_op, Prog.bind_ret, Prog.pure_eq_ret, wp_deviceId, dif_pos hp, dif_neg hn]
    iapply (wp_keepWait m K c (4 : Fin 8) ?_) $$ HI Hck4 HO Hatk4
    · rfl
    iintro ⟨HO, Hzk4, Hoo4, Hkb4⟩
    iapply (wp_keepWait m K c (5 : Fin 8) ?_) $$ HI Hck5 HO Hatk5
    · rfl
    iintro ⟨HO, Hzk5, Hoo5, Hkb5⟩
    iapply (wp_keepWait m K c (6 : Fin 8) ?_) $$ HI Hck6 HO Hatk6
    · rfl
    iintro ⟨HO, Hzk6, Hoo6, Hkb6⟩
    iapply (wp_keepWait m K c (7 : Fin 8) ?_) $$ HI Hck7 HO Hatk7
    · rfl
    iintro ⟨HO, Hzk7, Hoo7, Hkb7⟩
    iapply (wp_sendWait m K c (0 : Fin 8) ?_) $$ HI Hcs0 HO Hats0
    · rfl
    iintro ⟨HO, Hzs0, Hsb0⟩
    rw [k0_part14_eq_skeleton]; unfold k0_part14_skel
    simp only [semSignalWord, semWaitWord, Prog.lift, Prog.bind_op, Prog.bind_ret, Prog.pure_eq_ret, wp_deviceId, dif_pos hp, dif_neg hn]
    iapply (wp_recvWait m K c (0 : Fin 8) ?_) $$ HI Hcr0 HO Hatr0
    · rfl
    iintro ⟨HO, Hzr0, Hor0⟩
    iapply (wp_sendWait m K c (1 : Fin 8) ?_) $$ HI Hcs1 HO Hats1
    · rfl
    iintro ⟨HO, Hzs1, Hsb1⟩
    iapply (wp_recvWait m K c (1 : Fin 8) ?_) $$ HI Hcr1 HO Hatr1
    · rfl
    iintro ⟨HO, Hzr1, Hor1⟩
    iapply (wp_sendWait m K c (2 : Fin 8) ?_) $$ HI Hcs2 HO Hats2
    · rfl
    iintro ⟨HO, Hzs2, Hsb2⟩
    rw [k0_part15_eq_skeleton]; unfold k0_part15_skel
    simp only [semSignalWord, semWaitWord, Prog.lift, Prog.bind_op, Prog.bind_ret, Prog.pure_eq_ret, wp_deviceId, dif_pos hp, dif_neg hn]
    iapply (wp_recvWait m K c (2 : Fin 8) ?_) $$ HI Hcr2 HO Hatr2
    · rfl
    iintro ⟨HO, Hzr2, Hor2⟩
    iapply (wp_sendWait m K c (3 : Fin 8) ?_) $$ HI Hcs3 HO Hats3
    · rfl
    iintro ⟨HO, Hzs3, Hsb3⟩
    iapply (wp_recvWait m K c (3 : Fin 8) ?_) $$ HI Hcr3 HO Hatr3
    · rfl
    iintro ⟨HO, Hzr3, Hor3⟩
    rw [k0_part16_eq_skeleton]; unfold k0_part16_skel
    simp only [semSignalWord, semWaitWord, Prog.lift, Prog.bind_op, Prog.bind_ret, Prog.pure_eq_ret, wp_deviceId, dif_pos hp, dif_neg hn]
    iapply (wp_sendWait m K c (4 : Fin 8) ?_) $$ HI Hcs4 HO Hats4
    · rfl
    iintro ⟨HO, Hzs4, Hsb4⟩
    iapply (wp_recvWait m K c (4 : Fin 8) ?_) $$ HI Hcr4 HO Hatr4
    · rfl
    iintro ⟨HO, Hzr4, Hor4⟩
    iapply (wp_sendWait m K c (5 : Fin 8) ?_) $$ HI Hcs5 HO Hats5
    · rfl
    iintro ⟨HO, Hzs5, Hsb5⟩
    rw [k0_part17_eq_skeleton]; unfold k0_part17_skel
    simp only [semSignalWord, semWaitWord, Prog.lift, Prog.bind_op, Prog.bind_ret, Prog.pure_eq_ret, wp_deviceId, dif_pos hp, dif_neg hn]
    iapply (wp_recvWait m K c (5 : Fin 8) ?_) $$ HI Hcr5 HO Hatr5
    · rfl
    iintro ⟨HO, Hzr5, Hor5⟩
    iapply (wp_sendWait m K c (6 : Fin 8) ?_) $$ HI Hcs6 HO Hats6
    · rfl
    iintro ⟨HO, Hzs6, Hsb6⟩
    iapply (wp_recvWait m K c (6 : Fin 8) ?_) $$ HI Hcr6 HO Hatr6
    · rfl
    iintro ⟨HO, Hzr6, Hor6⟩
    iapply (wp_sendWait m K c (7 : Fin 8) ?_) $$ HI Hcs7 HO Hats7
    · rfl
    iintro ⟨HO, Hzs7, Hsb7⟩
    iapply (wp_recvWait m K c (7 : Fin 8) ?_) $$ HI Hcr7 HO Hatr7
    · rfl
    iintro ⟨HO, Hzr7, Hor7⟩
    ihave #HIl0 := (inv_load m K c (0 : Fin 2)) $$ HI
    imod (Rounds.cell_close ER (Rd m) (Set.mem_univ (K (c, iLoad 0))) (fun h => h) (R := (0 + 1 + 1 + 1 + 1)) (later_load m c 0)) $$ [Hat0] with Hzl0
    · isplitr; · iexact HIl0
      iexact Hat0
    ihave #HIl1 := (inv_load m K c (1 : Fin 2)) $$ HI
    imod (Rounds.cell_close ER (Rd m) (Set.mem_univ (K (c, iLoad 1))) (fun h => h) (R := (0 + 1 + 1 + 1 + 1)) (later_load m c 1)) $$ [Hat1] with Hzl1
    · isplitr; · iexact HIl1
      iexact Hat1
    rw [wp_ret]; imodintro
    iapply Hk
    unfold bodyPost Φ₁ scratch Dat.owesAt Pipeline.owesWithin
    rw [show (dats m 0 c).owed t0_0.succ = 0 from rfl]
    isplitr [HO]
    · isplitl [Hx0 Hx1 Hx2 Hx3 Hx4 Hx5 Hx6 Hx7]
      · iapply (x_join' m c); iframe
      isplitl [Hoo0 Hoo1 Hoo2 Hoo3 Hoo4 Hoo5 Hoo6 Hoo7 Hor0 Hor1 Hor2 Hor3 Hor4 Hor5 Hor6 Hor7]
      · iapply (o_join' m c); iframe
      isplitl [Hin0 Hin1 Hsb0 Hsb1 Hsb2 Hsb3 Hsb4 Hsb5 Hsb6 Hsb7 Hkb0 Hkb1 Hkb2 Hkb3 Hkb4 Hkb5 Hkb6 Hkb7]
      · isplitl [Hin0 Hin1]
        · iapply (in_join' c)
          isplitl [Hin0]; · iexists _; iexact Hin0
          iexists _; iexact Hin1
        isplitl [Hsb0 Hsb1 Hsb2 Hsb3 Hsb4 Hsb5 Hsb6 Hsb7]
        · iapply (sb_join' c)
          isplitl [Hsb0]; · iexists _; iexact Hsb0
          isplitl [Hsb1]; · iexists _; iexact Hsb1
          isplitl [Hsb2]; · iexists _; iexact Hsb2
          isplitl [Hsb3]; · iexists _; iexact Hsb3
          isplitl [Hsb4]; · iexists _; iexact Hsb4
          isplitl [Hsb5]; · iexists _; iexact Hsb5
          isplitl [Hsb6]; · iexists _; iexact Hsb6
          iexists _; iexact Hsb7
        · iapply (kb_join' c)
          isplitl [Hkb0]; · iexists _; iexact Hkb0
          isplitl [Hkb1]; · iexists _; iexact Hkb1
          isplitl [Hkb2]; · iexists _; iexact Hkb2
          isplitl [Hkb3]; · iexists _; iexact Hkb3
          isplitl [Hkb4]; · iexists _; iexact Hkb4
          isplitl [Hkb5]; · iexists _; iexact Hkb5
          isplitl [Hkb6]; · iexists _; iexact Hkb6
          iexists _; iexact Hkb7
      · iapply (sems_join' c); iframe
    · iexists _
      isplitr
      rotate_left
      · iexact HO
      · ipureintro; exact fun _ _ => Or.inl trivial

end Cert.KernelIdeal.A2A

end
-- ==== Proof.Oblig.lean ====
import proofs.«900650_g7700000000000651_dist_a2a_v7x_xyz2x4x4_x_m4096_n1024_f32_1_alg».proof.Proof.Body

noncomputable section

namespace Cert.KernelIdeal.A2A

open Cert.KernelIdeal Cert.KernelIdeal.Gen Cert.A2A
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

set_option maxRecDepth 8000 in
theorem body_obligation (m : (ℓ : Loc nD τ sig) → Buf (Elt F) ℓ) (c : Dev nD) :
    BodyObligation (dats (F := F) m 0 c) (defs₀ (F := F)) 𝒱₀ () Set.univ := fun t => by
  rw [fin_N0 t]
  show iprop(Φ₀ m c ∗ (dats m 0 c).owesAt () t0_0.castSucc ∗ bigSep (Finset.univ : Finset (Fin 0)) _)
    ⊢ wp frame (wpE (defs₀ (F := F)) 𝒱₀ c none) Set.univ (bodyAt0 (F := F) t0_0)
        (fun _ => iprop(Φ₁ m c ∗ (dats m 0 c).owesAt () t0_0.succ ∗ bigSep (Finset.univ : Finset (Fin 0)) _))
  unfold Φ₀ start
  iintro ⟨⟨⟨⟨%K, Hg⟩, Hcr, Hlev, Hx, Ho⟩, Hscr⟩, Howes, -⟩
  iapply (sound_body m c K fun _ => iprop(Φ₁ m c ∗ (dats m 0 c).owesAt () t0_0.succ ∗ bigSep (Finset.univ : Finset (Fin 0)) _))
  unfold bodyPre bodyPost
  isplitr []
  · iframe
  · iintro ⟨H1, H2⟩
    isplitl [H1]; · iexact H1
    isplitl [H2]; · iexact H2
    rw [Finset.univ_eq_empty, bigSep_empty]; iempintro

/-- info: 'Cert.KernelIdeal.A2A.body_obligation' depends on axioms: [propext, Classical.choice, Quot.sound] -/
#guard_msgs in #print axioms body_obligation

end Cert.KernelIdeal.A2A

end
-- ==== Proof.Launch.lean ====
import proofs.«900650_g7700000000000651_dist_a2a_v7x_xyz2x4x4_x_m4096_n1024_f32_1_alg».proof.Proof.Tables
import proofs.«900650_g7700000000000651_dist_a2a_v7x_xyz2x4x4_x_m4096_n1024_f32_1_alg».proof.Proof.Gen.KernelIdeal.Launch
import Idealize.ShloMosaic.Lib.Pipeline.Launch
import Idealize.ShloMosaic.Lib.Pipeline.Kit
import Idealize.ShloMosaic.Lib.Tactic
import Idealize.ShloMosaic.Lib.Ring

noncomputable section

namespace Cert.KernelIdeal.A2A

open Cert.KernelIdeal Cert.KernelIdeal.Gen Cert.A2A
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem bigSep_fin_succ {n : ℕ} (Φ : Fin (n + 1) → sProp 𝕄) :
    bigSep Finset.univ Φ = iprop(Φ 0 ∗ bigSep Finset.univ fun j : Fin n => Φ j.succ) := by
  rw [Fin.univ_succ, Finset.cons_eq_insert, bigSep_insert (by simp [Fin.succ_ne_zero]), bigSep_map]
  rfl

abbrev CellIx : Type := Unit ⊕ (Fin 2 ⊕ (Fin 8 ⊕ (Fin 8 ⊕ Fin 8)))

def cellIx : CellIx ≃ Fin 27 where
  toFun
    | .inl _ => iBar
    | .inr (.inl s) => iLoad s
    | .inr (.inr (.inl k)) => iKeep k
    | .inr (.inr (.inr (.inl k))) => iSend k
    | .inr (.inr (.inr (.inr k))) => iRecv k
  invFun i :=
    if h0 : i.val = 0 then .inl ()
    else if h1 : i.val < 3 then .inr (.inl ⟨i.val - 1, by omega⟩)
    else if h2 : i.val < 11 then .inr (.inr (.inl ⟨i.val - 3, by omega⟩))
    else if h3 : i.val < 19 then .inr (.inr (.inr (.inl ⟨i.val - 11, by omega⟩)))
    else .inr (.inr (.inr (.inr ⟨i.val - 19, by have := i.isLt; omega⟩)))
  left_inv := by decide
  right_inv := by decide

def cellAt (c : Dev nD) : CellIx → GSem nD τ sig
  | .inl _ => barCell c
  | .inr (.inl s) => loadCell c s
  | .inr (.inr (.inl k)) => keepCell c k
  | .inr (.inr (.inr (.inl k))) => sendCell c k
  | .inr (.inr (.inr (.inr k))) => recvCell c k

theorem kcell_cellIx (c : Dev nD) (x : CellIx) : kcell (c, cellIx x) = cellAt c x := by
  rcases x with _ | s | k | k | k
  · exact kcell_bar c
  · exact kcell_load c s
  · exact kcell_keep c k
  · exact kcell_send c k
  · exact kcell_recv c k

theorem cells_split (c : Dev nD) (Φ : GSem nD τ sig → sProp 𝕄) :
    bigSep Finset.univ (fun i : Fin 27 => Φ (kcell (c, i)))
      = iprop(Φ (barCell c) ∗ (bigSep Finset.univ fun s : Fin 2 => Φ (loadCell c s)) ∗ (bigSep Finset.univ fun k : Fin 8 => Φ (keepCell c k))
          ∗ (bigSep Finset.univ fun k : Fin 8 => Φ (sendCell c k)) ∗ (bigSep Finset.univ fun k : Fin 8 => Φ (recvCell c k))) := by
  rw [bigSep_univ_equiv cellIx, bigSep_congr (Ψ := fun x : CellIx => Φ (cellAt c x)) (fun x _ => congrArg Φ (kcell_cellIx c x)),
    bigSep_univ_sum, bigSep_univ_sum, bigSep_univ_sum, bigSep_univ_sum, bigSep_univ_of_subsingleton ()]
  rfl

theorem row_at (Φ : Dev nD × Fin 27 → sProp 𝕄) (c : Dev nD) :
    bigSep Finset.univ Φ ⊢ bigSep Finset.univ fun i : Fin 27 => Φ (c, i) := by
  rw [bigSep_univ_prod]; exact bigSep_elim (Finset.mem_univ c)

theorem ownSemFacts : Pipeline.OwnSemFacts cfg0.spec osem := by decide

theorem L_of_not_tc (g : GSem nD τ sig) (h : g.1.2 ≠ .tc) : L g = ∅ := if_neg h

theorem csem_injective : Function.Injective csem := by decide

theorem csem_succ (j : Fin 26) : csem j.succ = osem j := by revert j; decide

theorem kcell_injective : Function.Injective (kcell : Dev nD × Fin 27 → GSem nD τ sig) := by
  rintro ⟨c, i⟩ ⟨c', i'⟩ h
  have h1 : c = c' := by have := congrArg (fun g : GSem nD τ sig => g.1.1) h; exact this
  subst h1
  have h2 : i = i' := csem_injective (congrArg Prod.snd h)
  subst h2; rfl

def ringCells : Finset (GSem nD τ sig) := Finset.univ.map ⟨kcell, kcell_injective⟩

abbrev TokIx : Type := Unit ⊕ (Fin 8 ⊕ (Fin 8 ⊕ (Fin 8 ⊕ Fin 8)))

def tokKey : TokIx → SemLoc sig × ℕ
  | .inl _ => (.reg barS, 0)
  | .inr (.inl k) => (.dma (loadS ⟨k.val % 2, Nat.mod_lt _ (by decide)⟩), k.val / 2)
  | .inr (.inr (.inl k)) => (.dma (keepS k), 0)
  | .inr (.inr (.inr (.inl k))) => (.dma (sendS k), 0)
  | .inr (.inr (.inr (.inr k))) => (.dma (recvS k), 0)

theorem tokKey_injective : Function.Injective tokKey := by decide

abbrev tokOf (cx : Dev nD × TokIx) : GSem nD τ sig × ℕ × Unit := (((cx.1 : Thread nD τ), (tokKey cx.2).1), (tokKey cx.2).2, ())

theorem tokOf_injective : Function.Injective (tokOf : Dev nD × TokIx → GSem nD τ sig × ℕ × Unit) := by
  rintro ⟨c, x⟩ ⟨c', x'⟩ h
  have h1 : c = c' := by have := congrArg (fun t : GSem nD τ sig × ℕ × Unit => t.1.1.1) h; exact this
  subst h1
  have h2 : x = x' :=
    tokKey_injective (Prod.ext (congrArg (fun t : GSem nD τ sig × ℕ × Unit => t.1.2) h) (congrArg (fun t : GSem nD τ sig × ℕ × Unit => t.2.1) h))
  subst h2; rfl

def ringToks : Finset (GSem nD τ sig × ℕ × Unit) := Finset.univ.map ⟨tokOf, tokOf_injective⟩

def u₀ : UU :=
  (initOf (Pipeline.cells cfgs cellOf_inj) (Pipeline.launchToks cfgs cellOf_inj), initOf ringCells ringToks)

def toks (c : Dev nD) : sProp 𝕄 :=
  iprop(dutyTok ER (barCell c) 0 ()
    ∗ (bigSep Finset.univ fun k : Fin 8 => dutyTok ER (loadCell c ⟨k.val % 2, Nat.mod_lt _ (by decide)⟩) (k.val / 2) ())
    ∗ (bigSep Finset.univ fun k : Fin 8 => dutyTok ER (keepCell c k) 0 ())
    ∗ (bigSep Finset.univ fun k : Fin 8 => dutyTok ER (sendCell c k) 0 ())
    ∗ (bigSep Finset.univ fun k : Fin 8 => dutyTok ER (recvCell c k) 0 ()))

theorem toks_eq (c : Dev nD) :
    bigSep Finset.univ (fun x : TokIx => (dutyTok ER (tokOf (c, x)).1 (tokOf (c, x)).2.1 (tokOf (c, x)).2.2 : sProp 𝕄)) = toks c := by
  rw [bigSep_univ_sum, bigSep_univ_sum, bigSep_univ_sum, bigSep_univ_sum, bigSep_univ_of_subsingleton ()]
  rfl

def G (m : (ℓ : Loc nD τ sig) → Buf (Elt F) ℓ) (c : Dev nD) : sProp 𝕄 :=
  iprop((bigSep Finset.univ fun i : Fin 27 => roundState ER (Rd m) (kcell (c, i)) 0)
    ∗ (bigSep Finset.univ fun i : Fin 27 => iprop(atPos ER (kcell (c, i)) 0 ∅ 0 ∗ reached ER (kcell (c, i)) 0)) ∗ toks c)

def G' (m : (ℓ : Loc nD τ sig) → Buf (Elt F) ℓ) (c : Dev nD) : sProp 𝕄 := iprop(∃ K, ghost m K c)

theorem fund_ring (m : (ℓ : Loc nD τ sig) → Buf (Elt F) ℓ) :
    BI.own (ER (initOf ringCells ringToks)) ⊢ (|==> bigSep Finset.univ (G m) : sProp 𝕄) := by
  have hX (Φ : GSem nD τ sig → sProp 𝕄) :
      bigSep ringCells Φ = bigSep Finset.univ fun c : Dev nD => bigSep Finset.univ fun i : Fin 27 => Φ (kcell (c, i)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => toks_eq c
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  iframe

theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun i : Fin 27 => semVal (kcell (c, i)) 0 : sProp 𝕄) := by
  have e : (fun j : Fin 26 => (semVal (kcell (c, j.succ)) 0 : sProp 𝕄)) = fun j => semVal ((c : Thread nD τ), osem j) 0 :=
    funext fun j => by rw [show kcell (c, j.succ) = ((c : Thread nD τ), osem j) from Prod.ext rfl (csem_succ j)]
  rw [unscopedSems0_eq, bigSep_fin_succ, e]
  unfold Pipeline.ownSems0
  iintro ⟨HS, HB⟩
  isplitl [HB]; · iexact HB
  iexact HS

theorem core_alloc (m : (ℓ : Loc nD τ sig) → Buf (Elt F) ℓ) (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i : Fin 27 => iprop(∃ κ : ℕ, cellInv ER (Rd m) κ (kcell (c, i))))
          ∗ (bigSep Finset.univ fun i : Fin 27 => iprop(atPos ER (kcell (c, i)) 0 ∅ 0 ∗ reached ER (kcell (c, i)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun i : Fin 27 => semVal (kcell (c, i)) 0) ∗ bigSep Finset.univ fun i : Fin 27 => roundState ER (Rd m) (kcell (c, i)) 0)
      ⊢ (|={Set.univ}=> bigSep Finset.univ fun i : Fin 27 => iprop(∃ κ : ℕ, cellInv ER (Rd m) κ (kcell (c, i))) : sProp 𝕄) from by
        rw [← bigSep_sep']
        exact (bigSep_mono fun i _ => (Rounds.body_intro ER (Rd m) (kcell (c, i))).trans inv_alloc).trans (bigSep_fupd _ _)) $$ [Hv Hst] with Hinv
  · isplitl [Hv] <;> iassumption
  imodintro
  iframe

def records (m : (ℓ : Loc nD τ sig) → Buf (Elt F) ℓ) (K : Dev nD × Fin 27 → ℕ) : sProp 𝕄 :=
  iprop((bigSep Finset.univ fun ck : Dev nD × Fin 27 => cellInv ER (Rd m) (K ck) (kcell ck))
    ∗ bigSep Finset.univ fun ck : Dev nD × Fin 27 => reached ER (kcell ck) 0)

instance records_persistent (m : (ℓ : Loc nD τ sig) → Buf (Elt F) ℓ) (K : Dev nD × Fin 27 → ℕ) : BI.Persistent (records m K) := by
  unfold records; infer_instance

theorem ghost_intro (m : (ℓ : Loc nD τ sig) → Buf (Elt F) ℓ) (K : Dev nD × Fin 27 → ℕ) (c : Dev nD) :
    iprop(records m K ∗ (atStart c ∗ payToks c)) ⊢ G' m c := by
  unfold records G' ghost invs reach0
  iintro ⟨⟨#HI, #HR⟩, Hat, Htk⟩
  iexists K
  isplitr
  · isplitr
    · iapply (row_at (fun ck : Dev nD × Fin 27 => (cellInv ER (Rd m) (K ck) (kcell ck) : sProp 𝕄)) c); iexact HI
    · iapply (row_at (fun ck : Dev nD × Fin 27 => (cellInv ER (Rd m) (K ck) (kcell ck) : sProp 𝕄)) (peer c)); iexact HI
  isplitr; · iapply (row_at (fun ck : Dev nD × Fin 27 => (reached ER (kcell ck) 0 : sProp 𝕄)) c); iexact HR
  isplitr; · iapply (row_at (fun ck : Dev nD × Fin 27 => (reached ER (kcell ck) 0 : sProp 𝕄)) (peer c)); iexact HR
  isplitl [Hat]; · iexact Hat
  iexact Htk

/-- A device keeps its load, keep and send tokens and hands its barrier token and its eight receive tokens to its partner; the pairing is its own inverse. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep', bigSep_sep', bigSep_sep',
    bigSep_univ_equiv pairing (fun c : Dev nD => (dutyTok ER (barCell c) 0 () : sProp 𝕄)),
    bigSep_univ_equiv pairing (fun c : Dev nD => (bigSep Finset.univ fun k : Fin 8 => dutyTok ER (recvCell c k) 0 () : sProp 𝕄))]
  iintro ⟨H1, H2, H3, H4, H5⟩
  isplitl [H1]; · iexact H1
  isplitl [H5]; · iexact H5
  isplitl [H3]; · iexact H3
  isplitl [H4]; · iexact H4
  iexact H2

theorem atStart_intro (c : Dev nD) : (bigSep Finset.univ fun i : Fin 27 => (atPos ER (kcell (c, i)) 0 ∅ 0 : sProp 𝕄)) ⊢ atStart c := by
  unfold atStart; exact Entails.of_eq (cells_split c fun g => atPos ER g 0 ∅ 0)

theorem regroup (m : (ℓ : Loc nD τ sig) → Buf (Elt F) ℓ) :
    (bigSep Finset.univ fun c : Dev nD => iprop((bigSep Finset.univ fun i : Fin 27 => iprop(∃ κ : ℕ, cellInv ER (Rd m) κ (kcell (c, i))))
          ∗ (bigSep Finset.univ fun i : Fin 27 => iprop(atPos ER (kcell (c, i)) 0 ∅ 0 ∗ reached ER (kcell (c, i)) 0)) ∗ toks c) : sProp 𝕄)
      ⊢ bigSep Finset.univ (G' m) := by
  rw [bigSep_sep', bigSep_sep', ← bigSep_univ_prod (fun ck : Dev nD × Fin 27 => iprop(∃ κ : ℕ, cellInv ER (Rd m) κ (kcell ck))),
    bigSep_congr (s := Finset.univ) (fun (c : Dev nD) _ => bigSep_sep' Finset.univ (fun i : Fin 27 => (atPos ER (kcell (c, i)) 0 ∅ 0 : sProp 𝕄)) (fun i => reached ER (kcell (c, i)) 0)),
    bigSep_sep', ← bigSep_univ_prod (fun ck : Dev nD × Fin 27 => (reached ER (kcell ck) 0 : sProp 𝕄))]
  iintro ⟨HI, ⟨Hat, #HR⟩, Htok⟩
  ihave HK := (BI.bigSep_exists_pi Finset.univ (fun (ck : Dev nD × Fin 27) (κ : ℕ) => (cellInv ER (Rd m) κ (kcell ck) : sProp 𝕄))) $$ HI
  icases HK with ⟨%K, #HI⟩
  ihave Htk := (toks_around (F := F)) $$ Htok
  iapply (BI.bigSep_with_persistent (R := records m K) fun c _ => ghost_intro m K c)
  isplitr
  · unfold records; isplitl; · iexact HI
    iexact HR
  · iapply ((Entails.of_eq (bigSep_sep' Finset.univ (fun c : Dev nD => bigSep Finset.univ fun i : Fin 27 => (atPos ER (kcell (c, i)) 0 ∅ 0 : sProp 𝕄)) payToks).symm).trans
      (bigSep_mono fun c _ => sep_mono_left (atStart_intro (F := F) c)))
    isplitl [Hat]; · iexact Hat
    iexact Htk

theorem glob (m : (ℓ : Loc nD τ sig) → Buf (Elt F) ℓ) :
    (bigSep Finset.univ fun c => iprop(Pipeline.ownSems0 (Ix := Unit) (Name := ℕ) (U := UU) (Lvl := ℕ) (Val := Elt F) (τ := τ) osem c ∗ unscopedSems0 c ∗ G m c) : sProp 𝕄)
      ⊢ |={Set.univ}=> bigSep Finset.univ (G' m) :=
  ((bigSep_mono fun c _ => core_alloc m c).trans (bigSep_fupd _ _)).trans (BI.fupd_mono (regroup m))

/-- What the devices owe device `c`'s cells at launch is its partner's dues: one unit on its barrier cell and a block's credit on each receive cell. -/
theorem creds (c : Dev nD) : (Pipeline.launchCred O₀ c : sProp 𝕄) ⊢ credits c := by
  have h1 : (Pipeline.launchCred O₀ c : sProp 𝕄)
      = iprop(Pipeline.launchCred (fun d : Dev nD => owedFrom d 0) c ∗ Pipeline.launchCred (fun d : Dev nD => tallyAt (barCell (peer d)) () 1) c) :=
    Pipeline.launchCred_add (fun d : Dev nD => owedFrom d 0) (fun d : Dev nD => tallyAt (barCell (peer d)) () 1) c
  have e : (fun d : Dev nD => owedFrom d 0) = fun d : Dev nD => ∑ k' ∈ (Finset.univ : Finset (Fin 8)), tallyAt (recvCell (peer d) k') () Nout := by
    funext d; unfold owedFrom; rw [Ring.rangeSet_univ]
  have h2 : (Pipeline.launchCred (fun d : Dev nD => owedFrom d 0) c : sProp 𝕄)
      = bigSep Finset.univ fun k' : Fin 8 => Pipeline.launchCred (fun d : Dev nD => tallyAt (recvCell (peer d) k') () Nout) c := by
    rw [e]; exact Pipeline.launchCred_sum Finset.univ (fun (k' : Fin 8) (d : Dev nD) => tallyAt (recvCell (peer d) k') () Nout) c
  have hR : (bigSep Finset.univ fun k' : Fin 8 => (Pipeline.launchCred (fun d : Dev nD => tallyAt (recvCell (peer d) k') () Nout) c : sProp 𝕄))
      ⊢ bigSep Finset.univ fun k' : Fin 8 => cred (tallyAt (recvCell c k') () Nout) :=
    bigSep_mono fun k' _ => Pipeline.launchCred_tallyAt (SemLoc.dma (recvS k')) peer peer peer_peer peer_peer () Nout c
  rw [h1, h2]
  unfold credits
  iintro ⟨HR, HB⟩
  isplitl [HB]
  · iapply (Pipeline.launchCred_tallyAt (SemLoc.reg barS) peer peer peer_peer peer_peer () 1 c); iexact HB
  · iapply hR; iexact HR

theorem start_intro (m : (ℓ : Loc nD τ sig) → Buf (Elt F) ℓ) (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨Hx, Ho⟩, Hlev, Hcr, -, HG⟩
  ihave Hc := (creds (F := F) c) $$ Hcr
  imodintro
  unfold start G' xAt
  isplitl
  · iframe
  · iempintro

theorem phi0_intro (m : (ℓ : Loc nD τ sig) → Buf (Elt F) ℓ) (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  iframe

def finalPts (m : (ℓ : Loc nD τ sig) → Buf (Elt F) ℓ) (c : Dev nD) : sProp 𝕄 :=
  iprop((((c : Thread nD τ).loc main_arg0) ↦{fullShare} xAt m c) ∗ (((c : Thread nD τ).loc main_v1) ↦{fullShare} outAt m c))

theorem phi1_exit (m : (ℓ : Loc nD τ sig) → Buf (Elt F) ℓ) (c : Dev nD) :
    (dats m 0 c).Φ (Fin.last cfg0.N) ⊢ iprop(finalPts m c ∗ Pipeline.ownSems0 osem c ∗ Pipeline.scopedRest cfg0.spec c) := by
  rw [show (dats m 0 c).Φ (Fin.last cfg0.N) = Φ₁ m c from rfl, scopedRest0_eq]
  unfold Φ₁ finalPts scratch Pipeline.ownSems0
  iintro ⟨Hx, Ho, Hr, Hz⟩
  iframe

theorem waits (m : (ℓ : Loc nD τ sig) → Buf (Elt F) ℓ) (c : Dev nD) :
    (levAts L lv : sProp 𝕄) ⊢ Pipeline.cellsWaits cfgs (dats m) () 0 c :=
  Pipeline.cellsWaits_intro cfgs (dats m) () 0 c fun w => w.elim0

set_option maxRecDepth 8000 in
/-- From zero counters every fair execution of the thirty-two devices terminates, each result at its final contents and each argument as launched. -/
theorem run_main (m : (ℓ : Loc nD τ sig) → Buf (Elt F) ℓ) (ρ : Dev nD → PrngReg)
    (hbody : ∀ c : Dev nD, BodyObligation (dats (F := F) m 0 c) (defs₀ (F := F)) 𝒱₀ () Set.univ) :
    θ_run defs (onTc (τ := τ) (main (F := F))) (s₀ m ρ)
      (fun r => ∀ c : Dev nD, r.2.mem ((c : Thread nD τ).loc main_v1) = outAt m c
        ∧ r.2.mem ((c : Thread nD τ).loc main_arg0) = m ((c : Thread nD τ).loc main_arg0)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (hbody c).loose) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_not_tc) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ w => w.elim0) (hpf := fun _ k => k.elim0)
    (X := start m) (Y := finalPts m) (Z := fun _ => iprop(emp))
    (hX := start_intro m ρ) (hin := phi0_intro m) (hout := phi1_exit m)
    (QY := fun c s => s.mem ((c : Thread nD τ).loc main_v1) = outAt m c
      ∧ s.mem ((c : Thread nD τ).loc main_arg0) = m ((c : Thread nD τ).loc main_arg0))
    (hY := fun c s' => by
      unfold finalPts xAt
      iintro ⟨⟨Hx, Ho⟩, -, HSI⟩
      icombine HSI Hx gives %hx
      icombine HSI Ho gives %ho
      imodintro
      isplitr; · ipureintro; exact ⟨Buf.eq_of_forall_mem_univ ho, Buf.eq_of_forall_mem_univ hx⟩
      iexact HSI)
    (hQ := fun _ h c => (h c).2.2)

/-- info: 'Cert.KernelIdeal.A2A.run_main' depends on axioms: [propext, Classical.choice, Quot.sound] -/
#guard_msgs in #print axioms run_main

end Cert.KernelIdeal.A2A

end
-- ==== Proof.KMesh.lean ====
import proofs.«900650_g7700000000000651_dist_a2a_v7x_xyz2x4x4_x_m4096_n1024_f32_1_alg».proof.Proof.Gen.Kernel
import proofs.«900650_g7700000000000651_dist_a2a_v7x_xyz2x4x4_x_m4096_n1024_f32_1_alg».proof.Proof.Common

namespace Cert.Kernel.A2A

open Cert.Kernel Cert.Kernel.Gen Cert.A2A
open Idealize.ShloMosaic

theorem dev1_eq (c : Dev nD) : (⟨k0_dev1 c, k0_dev1_lt c⟩ : Dev nD) = peer c := Fin.ext ((k0_dev1_eq c).trans (by revert c; decide))
theorem dev2_eq (c : Dev nD) : (⟨k0_dev2 c, k0_dev2_lt c⟩ : Dev nD) = peer c := Fin.ext ((k0_dev2_eq c).trans (by revert c; decide))
theorem dev3_eq (c : Dev nD) : (⟨k0_dev3 c, k0_dev3_lt c⟩ : Dev nD) = peer c := Fin.ext ((k0_dev3_eq c).trans (by revert c; decide))
theorem dev4_eq (c : Dev nD) : (⟨k0_dev4 c, k0_dev4_lt c⟩ : Dev nD) = peer c := Fin.ext ((k0_dev4_eq c).trans (by revert c; decide))
theorem dev5_eq (c : Dev nD) : (⟨k0_dev5 c, k0_dev5_lt c⟩ : Dev nD) = peer c := Fin.ext ((k0_dev5_eq c).trans (by revert c; decide))
theorem dev6_eq (c : Dev nD) : (⟨k0_dev6 c, k0_dev6_lt c⟩ : Dev nD) = peer c := Fin.ext ((k0_dev6_eq c).trans (by revert c; decide))
theorem dev7_eq (c : Dev nD) : (⟨k0_dev7 c, k0_dev7_lt c⟩ : Dev nD) = peer c := Fin.ext ((k0_dev7_eq c).trans (by revert c; decide))
theorem dev8_eq (c : Dev nD) : (⟨k0_dev8 c, k0_dev8_lt c⟩ : Dev nD) = peer c := Fin.ext ((k0_dev8_eq c).trans (by revert c; decide))
theorem dev9_eq (c : Dev nD) : (⟨k0_dev9 c, k0_dev9_lt c⟩ : Dev nD) = peer c := Fin.ext ((k0_dev9_eq c).trans (by revert c; decide))

theorem off_eq (c : Dev nD) (k : Fin 8) : k0_off1 c (BitVec.ofNat 32 (512 * k.val)) = ![4096 * xco c + 512 * k.val, 0] := k0_off1_eq c k

end Cert.Kernel.A2A
-- ==== Proof.KProto.lean ====
import proofs.«900650_g7700000000000651_dist_a2a_v7x_xyz2x4x4_x_m4096_n1024_f32_1_alg».proof.Proof.Gen.Kernel
import proofs.«900650_g7700000000000651_dist_a2a_v7x_xyz2x4x4_x_m4096_n1024_f32_1_alg».proof.Proof.Gen.Kernel.Skeleton
import proofs.«900650_g7700000000000651_dist_a2a_v7x_xyz2x4x4_x_m4096_n1024_f32_1_alg».proof.Proof.Gen.Kernel.Launch
import proofs.«900650_g7700000000000651_dist_a2a_v7x_xyz2x4x4_x_m4096_n1024_f32_1_alg».proof.Proof.KMesh
import Idealize.ShloMosaic.Lib.Pipeline.Launch
import Idealize.ShloMosaic.Lib.Pipeline.Kit
import Idealize.ShloMosaic.Lib.Ring
import Idealize.ShloMosaic.Lib.ValueIdx
import Idealize.ShloMosaic.Lib.Tactic

noncomputable section

namespace Cert.Kernel.A2A

open Cert.Kernel Cert.Kernel.Gen Cert.A2A
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

abbrev xM : Memref sig .tc .hbm S4096x2048 .f32 := Memref.whole main_arg0
abbrev oM : Memref sig .tc .hbm S8192x1024 .f32 := Memref.whole main_v1
abbrev inM : Memref sig .tc .vmem S2x512x2048 .f32 := Memref.whole cc0_scratch0
abbrev sbM : Memref sig .tc .vmem S8x512x1024 .f32 := Memref.whole cc0_scratch1
abbrev kbM : Memref sig .tc .vmem S8x512x1024 .f32 := Memref.whole cc0_scratch2

abbrev xRows (k : Fin 8) : Memref sig .tc .hbm S512x2048 .f32 :=
  xM.slice (Rect.unit (s := S4096x2048) ![512 * k.val, 0] S512x2048.size (xrows_inb k)) (fun _ => rfl)
abbrev inSlot (s : Fin 2) : Memref sig .tc .vmem S512x2048 .f32 :=
  (inM.slice (Rect.unit (s := S2x512x2048) ![s.val, 0, 0] S1x512x2048.size (inslot_inb s)) (fun _ => rfl)).squeeze S512x2048
    squeezes_S1x512x2048_S512x2048
abbrev sbSlot (k : Fin 8) : Memref sig .tc .vmem S512x1024 .f32 :=
  (sbM.slice (Rect.unit (s := S8x512x1024) ![k.val, 0, 0] S1x512x1024.size (slot8_inb k)) (fun _ => rfl)).squeeze S512x1024
    squeezes_S1x512x1024_S512x1024
abbrev kbSlot (k : Fin 8) : Memref sig .tc .vmem S512x1024 .f32 :=
  (kbM.slice (Rect.unit (s := S8x512x1024) ![k.val, 0, 0] S1x512x1024.size (slot8_inb k)) (fun _ => rfl)).squeeze S512x1024
    squeezes_S1x512x1024_S512x1024
abbrev oRows (d : Dev nD) (k : Fin 8) : Memref sig .tc .hbm S512x1024 .f32 :=
  oM.slice (Rect.unit (s := S8192x1024) (k0_off1 d (BitVec.ofNat 32 (512 * k.val))) S512x1024.size (k0_off1_inb d k)) (fun _ => rfl)

abbrev barS : Sem sig := (SemArray.scalar (sig.barrier 0 rfl) : Sems sig S_).sem
abbrev loadS (s : Fin 2) : DmaSem sig :=
  ((cc0_scratch3.slice (Rect.unit (s := S2) ![s.val] S1.size (sem2_inb s))).squeeze S_ squeezes_S1_S_).sem
abbrev keepS (k : Fin 8) : DmaSem sig :=
  ((cc0_scratch4.slice (Rect.unit (s := S8) ![k.val] S1.size (sem8_inb k))).squeeze S_ squeezes_S1_S_).sem
abbrev sendS (k : Fin 8) : DmaSem sig :=
  ((cc0_scratch5.slice (Rect.unit (s := S8) ![k.val] S1.size (sem8_inb k))).squeeze S_ squeezes_S1_S_).sem
abbrev recvS (k : Fin 8) : DmaSem sig :=
  ((cc0_scratch6.slice (Rect.unit (s := S8) ![k.val] S1.size (sem8_inb k))).squeeze S_ squeezes_S1_S_).sem

theorem loadS_val (s : Fin 2) : (loadS s).val = s.val := by revert s; decide
theorem keepS_val (k : Fin 8) : (keepS k).val = 2 + k.val := by revert k; decide
theorem sendS_val (k : Fin 8) : (sendS k).val = 10 + k.val := by revert k; decide
theorem recvS_val (k : Fin 8) : (recvS k).val = 18 + k.val := by revert k; decide

abbrev barCell (c : Dev nD) : GSem nD τ sig := ((c : Thread nD τ), .reg barS)
abbrev loadCell (c : Dev nD) (s : Fin 2) : GSem nD τ sig := ((c : Thread nD τ), .dma (loadS s))
abbrev keepCell (c : Dev nD) (k : Fin 8) : GSem nD τ sig := ((c : Thread nD τ), .dma (keepS k))
abbrev sendCell (c : Dev nD) (k : Fin 8) : GSem nD τ sig := ((c : Thread nD τ), .dma (sendS k))
abbrev recvCell (c : Dev nD) (k : Fin 8) : GSem nD τ sig := ((c : Thread nD τ), .dma (recvS k))

abbrev osem : Fin 26 → SemLoc sig := fun j => .dma j
abbrev csem : Fin 27 → SemLoc sig := fun i => if h : i.val = 0 then .reg barS else .dma ⟨i.val - 1, by have := i.isLt; show i.val - 1 < 26; omega⟩
abbrev kcell (ck : Dev nD × Fin 27) : GSem nD τ sig := ((ck.1 : Thread nD τ), csem ck.2)

abbrev Nin : ℕ := (inSlot 0 : Memref sig .tc .vmem S512x2048 .f32).view.dmaCredit
abbrev Nout : ℕ := (sbSlot 0 : Memref sig .tc .vmem S512x1024 .f32).view.dmaCredit
theorem Nin_pos : 0 < Nin := View.dmaCredit_pos _ (by decide)
theorem Nout_pos : 0 < Nout := View.dmaCredit_pos _ (by decide)

def xAt (c : Dev nD) : Buf (Elt F) ((c : Thread nD τ).loc main_arg0) := m ((c : Thread nD τ).loc main_arg0)

def outAt (c : Dev nD) : Buf (Elt F) ((c : Thread nD τ).loc main_v1) := outOf (xf c) (xAt m c) (xAt m (peer c))

end Cert.Kernel.A2A

end
-- ==== Proof.KSched.lean ====
import proofs.«900650_g7700000000000651_dist_a2a_v7x_xyz2x4x4_x_m4096_n1024_f32_1_alg».proof.Proof.KProto

noncomputable section

namespace Cert.Kernel.A2A

open Cert.Kernel Cert.Kernel.Gen Cert.A2A
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def xPts (c : Dev nD) (k : Fin 8) : sProp 𝕄 :=
  (xRows k).view.loc (c : Thread nD τ) ↦[(xRows k).view.set]{fullShare} xAt m c
def inPts (c : Dev nD) (s : Fin 2) (f : Buf (Elt F) ((inSlot s).view.loc (c : Thread nD τ))) : sProp 𝕄 :=
  (inSlot s).view.loc (c : Thread nD τ) ↦[(inSlot s).view.set]{fullShare} f
def sbPts (c : Dev nD) (k : Fin 8) (f : Buf (Elt F) ((sbSlot k).view.loc (c : Thread nD τ))) : sProp 𝕄 :=
  (sbSlot k).view.loc (c : Thread nD τ) ↦[(sbSlot k).view.set]{fullShare} f
def kbPts (c : Dev nD) (k : Fin 8) (f : Buf (Elt F) ((kbSlot k).view.loc (c : Thread nD τ))) : sProp 𝕄 :=
  (kbSlot k).view.loc (c : Thread nD τ) ↦[(kbSlot k).view.set]{fullShare} f
def oPts (c d : Dev nD) (k : Fin 8) (f : Buf (Elt F) ((oRows d k).view.loc (c : Thread nD τ))) : sProp 𝕄 :=
  (oRows d k).view.loc (c : Thread nD τ) ↦[(oRows d k).view.set]{fullShare} f

def barPay (c : Dev nD) : sProp 𝕄 :=
  bigSep Finset.univ fun k : Fin 8 => iprop((∃ f, oPts (peer c) c k f) ∗ reached ER (recvCell (peer c) k) 0)
def loadPay (c : Dev nD) (s : Fin 2) (r : ℕ) : sProp 𝕄 :=
  iprop(inPts c s (inBuf (xAt m c) ⟨(2 * r + s.val) % 8, Nat.mod_lt _ (by decide)⟩) ∗ xPts m c ⟨(2 * r + s.val) % 8, Nat.mod_lt _ (by decide)⟩)
def keepPay (c : Dev nD) (k : Fin 8) : sProp 𝕄 :=
  iprop(oPts c c k (outAt m c) ∗ kbPts c k (halfBuf (xAt m c) (xf c)))
def sendPay (c : Dev nD) (k : Fin 8) : sProp 𝕄 := sbPts c k (halfBuf (xAt m c) (xf (peer c)))
def recvPay (c : Dev nD) (k : Fin 8) : sProp 𝕄 := oPts c (peer c) k (outAt m c)

def chunkOf (j : DmaSem sig) : Fin 8 := ⟨(j.val + 6) % 8, Nat.mod_lt _ (by decide)⟩

/-- Every round of every cell has one duty: the barrier's unit, a chunk landing in a load slot (four rounds a slot), a kept half, a sent half, a received half. -/
def Rd : Rounds.Schedule (GSem nD τ sig) Unit 𝕄 where
  duties g r :=
    if g.1.2 = .tc then
      (match g.2 with
        | .reg s => if s = barS ∧ r = 0 then {()} else ∅
        | .dma j => if j.val < 2 then (if r < 4 then {()} else ∅) else (if r = 0 then {()} else ∅))
    else ∅
  unitless _ := False
  amount g _ _ := match g.2 with
    | .reg _ => 1
    | .dma j => if j.val < 2 then Nin else Nout
  payload g r _ := match g.2 with
    | .reg _ => barPay g.1.1
    | .dma j =>
      if h : j.val < 2 then loadPay m g.1.1 ⟨j.val, h⟩ r
      else if j.val < 10 then keepPay m g.1.1 (chunkOf j)
      else if j.val < 18 then sendPay m g.1.1 (chunkOf j)
      else recvPay m g.1.1 (chunkOf j)
  amount_pos g _ _ _ := by
    rcases g with ⟨t, sm⟩
    cases sm with
    | reg s => exact Nat.one_pos
    | dma j =>
      show 0 < if j.val < 2 then Nin else Nout
      split
      · exact Nin_pos
      · exact Nout_pos

end Cert.Kernel.A2A

end
-- ==== Proof.KState.lean ====
import proofs.«900650_g7700000000000651_dist_a2a_v7x_xyz2x4x4_x_m4096_n1024_f32_1_alg».proof.Proof.KSched

noncomputable section

namespace Cert.Kernel.A2A

open Cert.Kernel Cert.Kernel.Gen Cert.A2A
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def iBar : Fin 27 := 0
def iLoad (s : Fin 2) : Fin 27 := ⟨1 + s.val, by have := s.isLt; omega⟩
def iKeep (k : Fin 8) : Fin 27 := ⟨3 + k.val, by have := k.isLt; omega⟩
def iSend (k : Fin 8) : Fin 27 := ⟨11 + k.val, by have := k.isLt; omega⟩
def iRecv (k : Fin 8) : Fin 27 := ⟨19 + k.val, by have := k.isLt; omega⟩

theorem kcell_bar (c : Dev nD) : kcell (c, iBar) = barCell c := rfl
theorem csem_load (s : Fin 2) : csem (iLoad s) = .dma (loadS s) := by revert s; decide
theorem csem_keep (k : Fin 8) : csem (iKeep k) = .dma (keepS k) := by revert k; decide
theorem csem_send (k : Fin 8) : csem (iSend k) = .dma (sendS k) := by revert k; decide
theorem csem_recv (k : Fin 8) : csem (iRecv k) = .dma (recvS k) := by revert k; decide
theorem kcell_load (c : Dev nD) (s : Fin 2) : kcell (c, iLoad s) = loadCell c s := congrArg (Prod.mk (c : Thread nD τ)) (csem_load s)
theorem kcell_keep (c : Dev nD) (k : Fin 8) : kcell (c, iKeep k) = keepCell c k := congrArg (Prod.mk (c : Thread nD τ)) (csem_keep k)
theorem kcell_send (c : Dev nD) (k : Fin 8) : kcell (c, iSend k) = sendCell c k := congrArg (Prod.mk (c : Thread nD τ)) (csem_send k)
theorem kcell_recv (c : Dev nD) (k : Fin 8) : kcell (c, iRecv k) = recvCell c k := congrArg (Prod.mk (c : Thread nD τ)) (csem_recv k)

/-- The receive credits a device still owes its partner from chunk `k` on. -/
def owedFrom (c : Dev nD) (k : ℕ) : CellTallies nD τ sig Unit :=
  ∑ k' ∈ Ring.rangeSet 8 k 8, tallyAt (recvCell (peer c) k') () Nout

def O₀ (c : Dev nD) : CellTallies nD τ sig Unit := owedFrom c 0 + tallyAt (barCell (peer c)) () 1

def L (g : GSem nD τ sig) : Finset Unit := if g.1.2 = .tc then {()} else ∅
/-- Receive cells sit above barrier cells, and those above every other cell: a device waits only below what it owes. -/
def lv (g : GSem nD τ sig) (_ : Unit) : ℕ :=
  match g.2 with
  | .reg _ => 1
  | .dma j => if 18 ≤ j.val then 2 else 0

variable (K : Dev nD × Fin 27 → ℕ)

def invs (c : Dev nD) : sProp 𝕄 :=
  iprop((bigSep Finset.univ fun i : Fin 27 => cellInv ER (Rd m) (K (c, i)) (kcell (c, i)))
    ∗ (bigSep Finset.univ fun i : Fin 27 => cellInv ER (Rd m) (K (peer c, i)) (kcell (peer c, i))))

instance invs_persistent (c : Dev nD) : BI.Persistent (invs m K c) := by unfold invs; infer_instance

def reach0 (c : Dev nD) : sProp 𝕄 := bigSep Finset.univ fun i : Fin 27 => reached ER (kcell (c, i)) 0

instance reach0_persistent (c : Dev nD) : BI.Persistent (reach0 (F := F) c) := by unfold reach0; infer_instance

def atStart (c : Dev nD) : sProp 𝕄 :=
  iprop(atPos ER (barCell c) 0 ∅ 0
    ∗ (bigSep Finset.univ fun s : Fin 2 => atPos ER (loadCell c s) 0 ∅ 0)
    ∗ (bigSep Finset.univ fun k : Fin 8 => atPos ER (keepCell c k) 0 ∅ 0)
    ∗ (bigSep Finset.univ fun k : Fin 8 => atPos ER (sendCell c k) 0 ∅ 0)
    ∗ (bigSep Finset.univ fun k : Fin 8 => atPos ER (recvCell c k) 0 ∅ 0))

def payToks (c : Dev nD) : sProp 𝕄 :=
  iprop(dutyTok ER (barCell (peer c)) 0 ()
    ∗ (bigSep Finset.univ fun k : Fin 8 => dutyTok ER (recvCell (peer c) k) 0 ())
    ∗ (bigSep Finset.univ fun k : Fin 8 => dutyTok ER (keepCell c k) 0 ())
    ∗ (bigSep Finset.univ fun k : Fin 8 => dutyTok ER (sendCell c k) 0 ())
    ∗ (bigSep Finset.univ fun k : Fin 8 => dutyTok ER (loadCell c (slotOf k)) (roundOf k) ()))

def ghost (c : Dev nD) : sProp 𝕄 :=
  iprop(invs m K c ∗ reach0 c ∗ reach0 (peer c) ∗ atStart c ∗ payToks c)

def credits (c : Dev nD) : sProp 𝕄 :=
  iprop(cred (tallyAt (barCell c) () 1) ∗ bigSep Finset.univ fun k : Fin 8 => cred (tallyAt (recvCell c k) () Nout))

def start (c : Dev nD) : sProp 𝕄 :=
  iprop((∃ K, ghost m K c) ∗ credits c ∗ levAts L lv
    ∗ (((c : Thread nD τ).loc main_arg0) ↦{fullShare} xAt m c)
    ∗ (((c : Thread nD τ).loc main_v1) ↦{fullShare} m ((c : Thread nD τ).loc main_v1)))

def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

def Φ₀ (c : Dev nD) : sProp 𝕄 := iprop(start m c ∗ scratch c)

def Φ₁ (c : Dev nD) : sProp 𝕄 :=
  iprop((((c : Thread nD τ).loc main_arg0) ↦{fullShare} xAt m c)
    ∗ (((c : Thread nD τ).loc main_v1) ↦{fullShare} outAt m c)
    ∗ scratch c
    ∗ bigSep Finset.univ fun j : Fin 26 => semVal ((c : Thread nD τ), osem j) 0)

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

end Cert.Kernel.A2A

end
-- ==== Proof.KTables.lean ====
import proofs.«900650_g7700000000000651_dist_a2a_v7x_xyz2x4x4_x_m4096_n1024_f32_1_alg».proof.Proof.KState

noncomputable section

namespace Cert.Kernel.A2A

open Cert.Kernel Cert.Kernel.Gen Cert.A2A
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem loadS_lt (s : Fin 2) : (loadS s).val < 2 := by rw [loadS_val]; exact s.isLt
theorem keepS_ge2 (k : Fin 8) : ¬ (keepS k).val < 2 := by rw [keepS_val]; omega
theorem keepS_lt10 (k : Fin 8) : (keepS k).val < 10 := by rw [keepS_val]; have := k.isLt; omega
theorem sendS_ge2 (k : Fin 8) : ¬ (sendS k).val < 2 := by rw [sendS_val]; omega
theorem sendS_ge10 (k : Fin 8) : ¬ (sendS k).val < 10 := by rw [sendS_val]; omega
theorem sendS_lt18 (k : Fin 8) : (sendS k).val < 18 := by rw [sendS_val]; have := k.isLt; omega
theorem recvS_ge2 (k : Fin 8) : ¬ (recvS k).val < 2 := by rw [recvS_val]; omega
theorem recvS_ge10 (k : Fin 8) : ¬ (recvS k).val < 10 := by rw [recvS_val]; omega
theorem recvS_ge18 (k : Fin 8) : ¬ (recvS k).val < 18 := by rw [recvS_val]; omega

theorem loadS_fin (s : Fin 2) : (⟨(loadS s).val, loadS_lt s⟩ : Fin 2) = s := Fin.ext (loadS_val s)
theorem chunkOf_keep (k : Fin 8) : chunkOf (keepS k) = k :=
  Fin.ext (by show ((keepS k).val + 6) % 8 = k.val; rw [keepS_val]; have := k.isLt; omega)
theorem chunkOf_send (k : Fin 8) : chunkOf (sendS k) = k :=
  Fin.ext (by show ((sendS k).val + 6) % 8 = k.val; rw [sendS_val]; have := k.isLt; omega)
theorem chunkOf_recv (k : Fin 8) : chunkOf (recvS k) = k :=
  Fin.ext (by show ((recvS k).val + 6) % 8 = k.val; rw [recvS_val]; have := k.isLt; omega)

theorem thr_tc (c : Dev nD) : ((c : Thread nD τ)).2 = Proc.tc := rfl

omit [FloatOps F] in
theorem duties_reg (m : (ℓ : Loc nD τ sig) → Buf (Elt F) ℓ) (t : Thread nD τ) (s : Sem sig) (r : ℕ) :
    (Rd (F := F) m).duties (t, .reg s) r = if t.2 = .tc then (if s = barS ∧ r = 0 then {()} else ∅) else ∅ := rfl
omit [FloatOps F] in
theorem duties_dma (m : (ℓ : Loc nD τ sig) → Buf (Elt F) ℓ) (t : Thread nD τ) (j : DmaSem sig) (r : ℕ) :
    (Rd (F := F) m).duties (t, .dma j) r
      = if t.2 = .tc then (if j.val < 2 then (if r < 4 then {()} else ∅) else (if r = 0 then {()} else ∅)) else ∅ := rfl
omit [FloatOps F] in
theorem amount_dma (m : (ℓ : Loc nD τ sig) → Buf (Elt F) ℓ) (t : Thread nD τ) (j : DmaSem sig) (r : ℕ) (d : Unit) :
    (Rd (F := F) m).amount (t, .dma j) r d = if j.val < 2 then Nin else Nout := rfl
omit [FloatOps F] in
theorem payload_reg (m : (ℓ : Loc nD τ sig) → Buf (Elt F) ℓ) (t : Thread nD τ) (s : Sem sig) (r : ℕ) (d : Unit) :
    (Rd (F := F) m).payload (t, .reg s) r d = barPay t.1 := rfl
omit [FloatOps F] in
theorem payload_dma (m : (ℓ : Loc nD τ sig) → Buf (Elt F) ℓ) (t : Thread nD τ) (j : DmaSem sig) (r : ℕ) (d : Unit) :
    (Rd (F := F) m).payload (t, .dma j) r d
      = if h : j.val < 2 then loadPay m t.1 ⟨j.val, h⟩ r
        else if j.val < 10 then keepPay m t.1 (chunkOf j)
        else if j.val < 18 then sendPay m t.1 (chunkOf j)
        else recvPay m t.1 (chunkOf j) := rfl

omit [FloatOps F] in
theorem duties_bar (m : (ℓ : Loc nD τ sig) → Buf (Elt F) ℓ) (c : Dev nD) :
    (Rd (F := F) m).duties (barCell c) 0 = {()} := by
  rw [duties_reg, if_pos (thr_tc c)]; exact if_pos ⟨rfl, rfl⟩
omit [FloatOps F] in
theorem duties_load (m : (ℓ : Loc nD τ sig) → Buf (Elt F) ℓ) (c : Dev nD) (s : Fin 2) (r : ℕ) (hr : r < 4) :
    (Rd (F := F) m).duties (loadCell c s) r = {()} := by
  rw [duties_dma, if_pos (thr_tc c), if_pos (loadS_lt s), if_pos hr]

omit [FloatOps F] in
theorem later_load (m : (ℓ : Loc nD τ sig) → Buf (Elt F) ℓ) (c : Dev nD) (s : Fin 2) :
    ∀ r, 3 + 1 ≤ r → (Rd (F := F) m).duties (loadCell c s) r = ∅ := fun r hr => by
  rw [duties_dma, if_pos (thr_tc c), if_pos (loadS_lt s)]; exact if_neg (by omega)

omit [FloatOps F] in
theorem duties_one (m : (ℓ : Loc nD τ sig) → Buf (Elt F) ℓ) (c : Dev nD) {j : DmaSem sig} (hj : ¬ j.val < 2) :
    (Rd (F := F) m).duties ((c : Thread nD τ), .dma j) 0 = {()} := by
  rw [duties_dma, if_pos (thr_tc c), if_neg hj, if_pos rfl]
omit [FloatOps F] in
theorem later_one (m : (ℓ : Loc nD τ sig) → Buf (Elt F) ℓ) (c : Dev nD) {j : DmaSem sig} (hj : ¬ j.val < 2) :
    ∀ r, 1 ≤ r → (Rd (F := F) m).duties ((c : Thread nD τ), .dma j) r = ∅ := fun r hr => by
  rw [duties_dma, if_pos (thr_tc c), if_neg hj]; exact if_neg (by omega)
omit [FloatOps F] in
theorem amount_one (m : (ℓ : Loc nD τ sig) → Buf (Elt F) ℓ) (c : Dev nD) {j : DmaSem sig} (hj : ¬ j.val < 2) (r : ℕ) (d : Unit) :
    (Rd (F := F) m).amount ((c : Thread nD τ), .dma j) r d = Nout :=
  (amount_dma m (c : Thread nD τ) j r d).trans (if_neg hj)
omit [FloatOps F] in
theorem expect_one (m : (ℓ : Loc nD τ sig) → Buf (Elt F) ℓ) (c : Dev nD) {j : DmaSem sig} (hj : ¬ j.val < 2) :
    (Rd (F := F) m).expect ((c : Thread nD τ), .dma j) 0 = Nout := by
  unfold Schedule.expect Schedule.amountOf; rw [duties_one m c hj, Finset.sum_singleton, amount_one m c hj]
omit [FloatOps F] in
theorem rest_one (m : (ℓ : Loc nD τ sig) → Buf (Elt F) ℓ) (c : Dev nD) {j : DmaSem sig} (hj : ¬ j.val < 2) :
    bigSep ((Rd (F := F) m).duties ((c : Thread nD τ), .dma j) 0 \ ∅) (fun d => (Rd (F := F) m).payload ((c : Thread nD τ), .dma j) 0 d)
      = (Rd (F := F) m).payload ((c : Thread nD τ), .dma j) 0 () := by
  rw [Finset.sdiff_empty, duties_one m c hj, bigSep_singleton]

omit [FloatOps F] in
theorem amount_bar (m : (ℓ : Loc nD τ sig) → Buf (Elt F) ℓ) (c : Dev nD) (r : ℕ) (d : Unit) :
    (Rd (F := F) m).amount (barCell c) r d = 1 := rfl
omit [FloatOps F] in
theorem amount_load (m : (ℓ : Loc nD τ sig) → Buf (Elt F) ℓ) (c : Dev nD) (s : Fin 2) (r : ℕ) (d : Unit) :
    (Rd (F := F) m).amount (loadCell c s) r d = Nin :=
  (amount_dma m (c : Thread nD τ) (loadS s) r d).trans (if_pos (loadS_lt s))

omit [FloatOps F] in
theorem expect_bar (m : (ℓ : Loc nD τ sig) → Buf (Elt F) ℓ) (c : Dev nD) :
    (Rd (F := F) m).expect (barCell c) 0 = 1 := by
  unfold Schedule.expect Schedule.amountOf; rw [duties_bar, Finset.sum_singleton, amount_bar]
omit [FloatOps F] in
theorem expect_load (m : (ℓ : Loc nD τ sig) → Buf (Elt F) ℓ) (c : Dev nD) (s : Fin 2) (r : ℕ) (hr : r < 4) :
    (Rd (F := F) m).expect (loadCell c s) r = Nin := by
  unfold Schedule.expect Schedule.amountOf; rw [duties_load m c s r hr, Finset.sum_singleton, amount_load]

omit [FloatOps F] in
theorem payload_bar (m : (ℓ : Loc nD τ sig) → Buf (Elt F) ℓ) (c : Dev nD) :
    (Rd (F := F) m).payload (barCell c) 0 () = barPay c := rfl
omit [FloatOps F] in
theorem payload_load (m : (ℓ : Loc nD τ sig) → Buf (Elt F) ℓ) (c : Dev nD) (s : Fin 2) (r : ℕ) :
    (Rd (F := F) m).payload (loadCell c s) r () = loadPay m c s r := by
  have h := payload_dma m (c : Thread nD τ) (loadS s) r ()
  rw [dif_pos (loadS_lt s), loadS_fin] at h
  exact h
omit [FloatOps F] in
theorem payload_keep (m : (ℓ : Loc nD τ sig) → Buf (Elt F) ℓ) (c : Dev nD) (k : Fin 8) :
    (Rd (F := F) m).payload (keepCell c k) 0 () = keepPay m c k := by
  have h := payload_dma m (c : Thread nD τ) (keepS k) 0 ()
  rw [dif_neg (keepS_ge2 k), if_pos (keepS_lt10 k), chunkOf_keep] at h
  exact h
omit [FloatOps F] in
theorem payload_send (m : (ℓ : Loc nD τ sig) → Buf (Elt F) ℓ) (c : Dev nD) (k : Fin 8) :
    (Rd (F := F) m).payload (sendCell c k) 0 () = sendPay m c k := by
  have h := payload_dma m (c : Thread nD τ) (sendS k) 0 ()
  rw [dif_neg (sendS_ge2 k), if_neg (sendS_ge10 k), if_pos (sendS_lt18 k), chunkOf_send] at h
  exact h
omit [FloatOps F] in
theorem payload_recv (m : (ℓ : Loc nD τ sig) → Buf (Elt F) ℓ) (c : Dev nD) (k : Fin 8) :
    (Rd (F := F) m).payload (recvCell c k) 0 () = recvPay m c k := by
  have h := payload_dma m (c : Thread nD τ) (recvS k) 0 ()
  rw [dif_neg (recvS_ge2 k), if_neg (recvS_ge10 k), if_neg (recvS_ge18 k), chunkOf_recv] at h
  exact h

omit [FloatOps F] in
theorem rest_bar (m : (ℓ : Loc nD τ sig) → Buf (Elt F) ℓ) (c : Dev nD) :
    bigSep ((Rd (F := F) m).duties (barCell c) 0 \ ∅) (fun d => (Rd (F := F) m).payload (barCell c) 0 d) = barPay c := by
  rw [Finset.sdiff_empty, duties_bar, bigSep_singleton, payload_bar]
omit [FloatOps F] in
theorem rest_load (m : (ℓ : Loc nD τ sig) → Buf (Elt F) ℓ) (c : Dev nD) (s : Fin 2) (r : ℕ) (hr : r < 4) :
    bigSep ((Rd (F := F) m).duties (loadCell c s) r \ ∅) (fun d => (Rd (F := F) m).payload (loadCell c s) r d) = loadPay m c s r := by
  rw [Finset.sdiff_empty, duties_load m c s r hr, bigSep_singleton, payload_load]

omit [FloatOps F] in
instance Rd_payload_storable (m : (ℓ : Loc nD τ sig) → Buf (Elt F) ℓ) (g : GSem nD τ sig) (r : ℕ) (d : Unit) :
    BI.Storable (upEmb : UEmb _ 𝕄) ((Rd (F := F) m).payload g r d) := by
  rcases g with ⟨t, sm⟩
  cases sm with
  | reg s =>
    rw [payload_reg]
    unfold barPay oPts
    infer_instance
  | dma j =>
    rw [payload_dma]
    unfold loadPay keepPay sendPay recvPay inPts xPts oPts kbPts sbPts
    (repeat' split) <;> infer_instance

theorem owedFrom_last (c : Dev nD) : owedFrom c 8 = 0 := by
  unfold owedFrom; rw [Ring.rangeSet_empty (le_refl 8), Finset.sum_empty]

theorem owedFrom_step (c : Dev nD) (k : ℕ) (hk : k < 8) :
    owedFrom c k = owedFrom c (k + 1) + tallyAt (recvCell (peer c) ⟨k, hk⟩) () Nout := by
  unfold owedFrom
  rw [Ring.rangeSet_head hk hk, Finset.sum_insert (Ring.head_not_mem_rangeSet hk), add_comm]

theorem owedFrom_pos {c : Dev nD} {k : ℕ} {g : GSem nD τ sig} {u : Unit} (h : 0 < owedFrom c k g u) :
    ∃ k' : Fin 8, g = recvCell (peer c) k' := by
  unfold owedFrom at h
  obtain ⟨k', _, hk'⟩ := Pipeline.sum_pos_exists h
  exact ⟨k', (Pipeline.tallyAt_pos hk').1⟩

theorem L_tc (c : Dev nD) (sm : SemLoc sig) : L ((c : Thread nD τ), sm) = {()} := if_pos rfl

theorem lv_bar (c : Dev nD) (u : Unit) : lv (barCell c) u = 1 := rfl
theorem lv_recv (c : Dev nD) (k : Fin 8) (u : Unit) : lv (recvCell c k) u = 2 := by
  show (if 18 ≤ (recvS k).val then 2 else 0) = 2
  rw [recvS_val]; exact if_pos (by omega)
theorem lv_low (c : Dev nD) (j : DmaSem sig) (hj : j.val < 18) (u : Unit) : lv ((c : Thread nD τ), .dma j) u = 0 := by
  show (if 18 ≤ j.val then 2 else 0) = 0
  exact if_neg (by omega)

omit [FloatOps F] in
theorem mayWait_bar (c : Dev nD) :
    (levAts L lv : sProp 𝕄) ⊢ MayWait (c : Thread nD τ) (.reg barS) () (owedFrom c 0) :=
  Pipeline.mayWait_of_levAts (by rw [L_tc]; exact Finset.mem_singleton_self _) (fun g u hg => by
    obtain ⟨k', rfl⟩ := owedFrom_pos hg
    refine ⟨by rw [L_tc]; exact Finset.mem_singleton.mpr rfl, ?_⟩
    show lv (barCell c) () < lv (recvCell (peer c) k') u
    rw [lv_bar, lv_recv]; decide)

omit [FloatOps F] in
theorem mayWait_low (c : Dev nD) (j : DmaSem sig) (hj : j.val < 18) (k : ℕ) :
    (levAts L lv : sProp 𝕄) ⊢ MayWait (c : Thread nD τ) (.dma j) () (owedFrom c k) :=
  Pipeline.mayWait_of_levAts (by rw [L_tc]; exact Finset.mem_singleton_self _) (fun g u hg => by
    obtain ⟨k', rfl⟩ := owedFrom_pos hg
    refine ⟨by rw [L_tc]; exact Finset.mem_singleton.mpr rfl, ?_⟩
    show lv ((c : Thread nD τ), .dma j) () < lv (recvCell (peer c) k') u
    rw [lv_low c j hj, lv_recv]; decide)

/-- info: 'Cert.Kernel.A2A.mayWait_low' depends on axioms: [propext, Classical.choice, Quot.sound] -/
#guard_msgs in #print axioms mayWait_low

end Cert.Kernel.A2A

end
-- ==== Proof.KBlocks.lean ====
import proofs.«900650_g7700000000000651_dist_a2a_v7x_xyz2x4x4_x_m4096_n1024_f32_1_alg».proof.Proof.KSched
import Idealize.ShloMosaic.Lib.Ring

noncomputable section

namespace Cert.Kernel.A2A

open Cert.Kernel Cert.Kernel.Gen Cert.A2A
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

theorem xRows_set (k : Fin 8) :
    (xRows k).view.set = (Rect.unit (s := S4096x2048) ![512 * k.val, 0] S512x2048.size (xrows_inb k)).set :=
  View.set_slice_whole _ _

theorem inSlot_set (s : Fin 2) :
    (inSlot s).view.set = (Rect.unit (s := S2x512x2048) ![s.val, 0, 0] S1x512x2048.size (inslot_inb s)).set :=
  (View.set_reshape _ _).trans (View.set_slice_whole _ _)

theorem sbSlot_set (k : Fin 8) :
    (sbSlot k).view.set = (Rect.unit (s := S8x512x1024) ![k.val, 0, 0] S1x512x1024.size (slot8_inb k)).set :=
  (View.set_reshape _ _).trans (View.set_slice_whole _ _)

theorem kbSlot_set (k : Fin 8) :
    (kbSlot k).view.set = (Rect.unit (s := S8x512x1024) ![k.val, 0, 0] S1x512x1024.size (slot8_inb k)).set :=
  (View.set_reshape _ _).trans (View.set_slice_whole _ _)

def oBlk (d : Dev nD) (k : Fin 8) : Fin 16 := ⟨8 * xco d + k.val, by have := xco_lt d; have := k.isLt; omega⟩

theorem oRows_set (d : Dev nD) (k : Fin 8) :
    (oRows d k).view.set
      = (Rect.unit (s := S8192x1024) ![512 * (oBlk d k).val, 0] S512x1024.size (o16_inb (oBlk d k))).set := by
  refine (View.set_slice_whole _ _).trans (unit_set_congr _ _ ?_)
  rw [off_eq]
  show ![4096 * xco d + 512 * k.val, 0] = ![512 * (8 * xco d + k.val), 0]
  rw [show 4096 * xco d + 512 * k.val = 512 * (8 * xco d + k.val) by omega]

theorem x_disj (b b' : Fin 8) (h : b ≠ b') : Disjoint (xRows b).view.set (xRows b').view.set := by
  rw [xRows_set, xRows_set]; exact x_lead_disj b b' h

theorem x_cover : Finset.biUnion (β := S4096x2048.Idx) Finset.univ (fun k : Fin 8 => (xRows k).view.set) = Finset.univ := by
  rw [show (fun k : Fin 8 => ((xRows k).view.set : Finset S4096x2048.Idx))
      = fun k : Fin 8 => (Rect.unit (s := S4096x2048) ![512 * k.val, 0] S512x2048.size (xrows_inb k)).set from funext xRows_set]
  exact x_lead_cover

theorem in_disj (b b' : Fin 2) (h : b ≠ b') : Disjoint (inSlot b).view.set (inSlot b').view.set := by
  rw [inSlot_set, inSlot_set]; exact in_lead_disj b b' h

theorem in_cover : Finset.biUnion (β := S2x512x2048.Idx) Finset.univ (fun s : Fin 2 => (inSlot s).view.set) = Finset.univ := by
  rw [show (fun s : Fin 2 => ((inSlot s).view.set : Finset S2x512x2048.Idx))
      = fun s : Fin 2 => (Rect.unit (s := S2x512x2048) ![s.val, 0, 0] S1x512x2048.size (inslot_inb s)).set from funext inSlot_set]
  exact in_lead_cover

theorem sb_disj (b b' : Fin 8) (h : b ≠ b') : Disjoint (sbSlot b).view.set (sbSlot b').view.set := by
  rw [sbSlot_set, sbSlot_set]; exact slot8_lead_disj b b' h
theorem sb_cover : Finset.biUnion (β := S8x512x1024.Idx) Finset.univ (fun k : Fin 8 => (sbSlot k).view.set) = Finset.univ := by
  rw [show (fun k : Fin 8 => ((sbSlot k).view.set : Finset S8x512x1024.Idx))
      = fun k : Fin 8 => (Rect.unit (s := S8x512x1024) ![k.val, 0, 0] S1x512x1024.size (slot8_inb k)).set from funext sbSlot_set]
  exact slot8_lead_cover
theorem kb_disj (b b' : Fin 8) (h : b ≠ b') : Disjoint (kbSlot b).view.set (kbSlot b').view.set := by
  rw [kbSlot_set, kbSlot_set]; exact slot8_lead_disj b b' h
theorem kb_cover : Finset.biUnion (β := S8x512x1024.Idx) Finset.univ (fun k : Fin 8 => (kbSlot k).view.set) = Finset.univ := by
  rw [show (fun k : Fin 8 => ((kbSlot k).view.set : Finset S8x512x1024.Idx))
      = fun k : Fin 8 => (Rect.unit (s := S8x512x1024) ![k.val, 0, 0] S1x512x1024.size (slot8_inb k)).set from funext kbSlot_set]
  exact slot8_lead_cover

variable {F : FTy → Type} [FloatOps F]

local notation "𝕄" => MT nD τ sig Unit (Elt F) ℕ UU ℕ

theorem x_split (c : Dev nD) (f : Buf (Elt F) ((c : Thread nD τ).loc main_arg0)) :
    (((c : Thread nD τ).loc main_arg0) ↦{fullShare} f : sProp 𝕄)
      = bigSep Finset.univ fun k : Fin 8 => ((xRows k).view.loc (c : Thread nD τ) ↦[(xRows k).view.set]{fullShare} f) :=
  Ring.pointsTo_blocks (ℓ := (c : Thread nD τ).loc main_arg0) (fun k : Fin 8 => (xRows k).view.set) x_disj x_cover f

theorem in_split (c : Dev nD) (f : Buf (Elt F) ((c : Thread nD τ).loc cc0_scratch0)) :
    (((c : Thread nD τ).loc cc0_scratch0) ↦{fullShare} f : sProp 𝕄) = bigSep Finset.univ fun s : Fin 2 => inPts c s f :=
  Ring.pointsTo_blocks (ℓ := (c : Thread nD τ).loc cc0_scratch0) (fun s : Fin 2 => (inSlot s).view.set) in_disj in_cover f

theorem sb_split (c : Dev nD) (f : Buf (Elt F) ((c : Thread nD τ).loc cc0_scratch1)) :
    (((c : Thread nD τ).loc cc0_scratch1) ↦{fullShare} f : sProp 𝕄) = bigSep Finset.univ fun k : Fin 8 => sbPts c k f :=
  Ring.pointsTo_blocks (ℓ := (c : Thread nD τ).loc cc0_scratch1) (fun k : Fin 8 => (sbSlot k).view.set) sb_disj sb_cover f

theorem kb_split (c : Dev nD) (f : Buf (Elt F) ((c : Thread nD τ).loc cc0_scratch2)) :
    (((c : Thread nD τ).loc cc0_scratch2) ↦{fullShare} f : sProp 𝕄) = bigSep Finset.univ fun k : Fin 8 => kbPts c k f :=
  Ring.pointsTo_blocks (ℓ := (c : Thread nD τ).loc cc0_scratch2) (fun k : Fin 8 => (kbSlot k).view.set) kb_disj kb_cover f

theorem in_join (c : Dev nD) :
    (bigSep Finset.univ fun s : Fin 2 => iprop(∃ f, inPts c s f))
      ⊢ (iprop(∃ g, ((c : Thread nD τ).loc cc0_scratch0) ↦{fullShare} g) : sProp 𝕄) :=
  Ring.pointsTo_blocks_join_exists (ℓ := (c : Thread nD τ).loc cc0_scratch0) (fun s : Fin 2 => (inSlot s).view.set) in_disj in_cover
    (fun _ => default)

theorem sb_join (c : Dev nD) :
    (bigSep Finset.univ fun k : Fin 8 => iprop(∃ f, sbPts c k f))
      ⊢ (iprop(∃ g, ((c : Thread nD τ).loc cc0_scratch1) ↦{fullShare} g) : sProp 𝕄) :=
  Ring.pointsTo_blocks_join_exists (ℓ := (c : Thread nD τ).loc cc0_scratch1) (fun k : Fin 8 => (sbSlot k).view.set) sb_disj sb_cover
    (fun _ => default)

theorem kb_join (c : Dev nD) :
    (bigSep Finset.univ fun k : Fin 8 => iprop(∃ f, kbPts c k f))
      ⊢ (iprop(∃ g, ((c : Thread nD τ).loc cc0_scratch2) ↦{fullShare} g) : sProp 𝕄) :=
  Ring.pointsTo_blocks_join_exists (ℓ := (c : Thread nD τ).loc cc0_scratch2) (fun k : Fin 8 => (kbSlot k).view.set) kb_disj kb_cover
    (fun _ => default)

theorem o_split16 (c : Dev nD) (f : Buf (Elt F) ((c : Thread nD τ).loc main_v1)) :
    (((c : Thread nD τ).loc main_v1) ↦{fullShare} f : sProp 𝕄)
      = bigSep Finset.univ fun b : Fin 16 =>
          (((c : Thread nD τ).loc main_v1) ↦[(Rect.unit (s := S8192x1024) ![512 * b.val, 0] S512x1024.size (o16_inb b)).set]{fullShare} f) :=
  Ring.pointsTo_blocks (ℓ := (c : Thread nD τ).loc main_v1)
    (fun b : Fin 16 => (Rect.unit (s := S8192x1024) ![512 * b.val, 0] S512x1024.size (o16_inb b)).set) o16_disj o16_cover f

theorem oPts_blk (c d : Dev nD) (k : Fin 8) (f : Buf (Elt F) ((c : Thread nD τ).loc main_v1)) :
    (oPts c d k f : sProp 𝕄)
      = (((c : Thread nD τ).loc main_v1) ↦[(Rect.unit (s := S8192x1024) ![512 * (oBlk d k).val, 0] S512x1024.size (o16_inb (oBlk d k))).set]{fullShare} f) := by
  unfold oPts; rw [oRows_set]

theorem oBlk_low (d : Dev nD) (h : xco d = 0) (k : Fin 8) : oBlk d k = Fin.castAdd 8 k := by
  apply Fin.ext; show 8 * xco d + k.val = k.val; omega
theorem oBlk_high (d : Dev nD) (h : xco d = 1) (k : Fin 8) : oBlk d k = Fin.natAdd 8 k := by
  apply Fin.ext; show 8 * xco d + k.val = 8 + k.val; omega

/-- A result is its sixteen row blocks: the eight the device fills and the eight its partner fills, in the order of their first coordinates. -/
theorem o_split (c : Dev nD) (f : Buf (Elt F) ((c : Thread nD τ).loc main_v1)) :
    (((c : Thread nD τ).loc main_v1) ↦{fullShare} f : sProp 𝕄)
      = iprop((bigSep Finset.univ fun k : Fin 8 => oPts c c k f) ∗ (bigSep Finset.univ fun k : Fin 8 => oPts c (peer c) k f)) := by
  rw [o_split16, bigSep_fin16_halves]
  simp only [oPts_blk]
  rcases xco_cases c with h | h
  · have hp : xco (peer c) = 1 := by have := xco_peer c; omega
    simp only [oBlk_low c h, oBlk_high (peer c) hp]
  · have hp : xco (peer c) = 0 := by have := xco_peer c; omega
    simp only [oBlk_high c h, oBlk_low (peer c) hp]
    exact sep_swap _ _

/-- info: 'Cert.Kernel.A2A.o_split' depends on axioms: [propext, Classical.choice, Quot.sound] -/
#guard_msgs in #print axioms o_split

end Cert.Kernel.A2A

end
-- ==== Proof.KValue.lean ====
import proofs.«900650_g7700000000000651_dist_a2a_v7x_xyz2x4x4_x_m4096_n1024_f32_1_alg».proof.Proof.KBlocks
import Idealize.ShloMosaic.Lib.Pipeline.Value
import Idealize.ShloMosaic.Lib.ValueIdx
import Idealize.ShloMosaic.Lib.Layout

noncomputable section

namespace Cert.Kernel.A2A

open Cert.Kernel Cert.Kernel.Gen Cert.A2A
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

theorem inSlot_emb (s : Fin 2) (a : Fin 512) (b : Fin 2048) :
    (inSlot s).view.emb (ix2 a b) = (ix3 s a b : S2x512x2048.Idx) := by
  show (Rect.unit (s := S2x512x2048) ![s.val, 0, 0] S1x512x2048.size (inslot_inb s)).emb
      (Shape.reshapeEquiv (squeezes_S1x512x2048_S512x2048).numel_eq (ix2 a b)) = _
  have hr : Shape.reshapeEquiv (squeezes_S1x512x2048_S512x2048).numel_eq (ix2 a b)
      = (ix3 (⟨0, Nat.one_pos⟩ : Fin 1) a b : S1x512x2048.Idx) :=
    Shape.reshapeEquiv_eq_of_rowMajor _ (by
      rw [Shape.rowMajor_val_three, Shape.rowMajor_val_two]
      show ((0 * 512 + a.val) * 2048 + b.val) = a.val * 2048 + b.val
      omega)
  rw [hr]
  funext d
  refine Fin.ext ?_
  match d with
  | ⟨0, _⟩ => show s.val + 1 * 0 = s.val; omega
  | ⟨1, _⟩ => show 0 + 1 * a.val = a.val; omega
  | ⟨2, _⟩ => show 0 + 1 * b.val = b.val; omega

theorem xRows_emb (k : Fin 8) (a : Fin 512) (b : Fin 2048) :
    (xRows k).view.emb (ix2 a b)
      = (ix2 (n0 := 4096) (n1 := 2048) ⟨512 * k.val + a.val, by have := k.isLt; have := a.isLt; omega⟩ b : S4096x2048.Idx) := by
  funext d
  refine Fin.ext ?_
  match d with
  | ⟨0, _⟩ => show 512 * k.val + 1 * a.val = 512 * k.val + a.val; omega
  | ⟨1, _⟩ => show 0 + 1 * b.val = b.val; omega

theorem slot8_emb (k : Fin 8) (a : Fin 512) (b : Fin 1024) :
    (Rect.unit (s := S8x512x1024) ![k.val, 0, 0] S1x512x1024.size (slot8_inb k)).emb
      (Shape.reshapeEquiv (squeezes_S1x512x1024_S512x1024).numel_eq (ix2 a b)) = (ix3 k a b : S8x512x1024.Idx) := by
  have hr : Shape.reshapeEquiv (squeezes_S1x512x1024_S512x1024).numel_eq (ix2 a b)
      = (ix3 (⟨0, Nat.one_pos⟩ : Fin 1) a b : S1x512x1024.Idx) :=
    Shape.reshapeEquiv_eq_of_rowMajor _ (by
      rw [Shape.rowMajor_val_three, Shape.rowMajor_val_two]
      show ((0 * 512 + a.val) * 1024 + b.val) = a.val * 1024 + b.val
      omega)
  rw [hr]
  funext d
  refine Fin.ext ?_
  match d with
  | ⟨0, _⟩ => show k.val + 1 * 0 = k.val; omega
  | ⟨1, _⟩ => show 0 + 1 * a.val = a.val; omega
  | ⟨2, _⟩ => show 0 + 1 * b.val = b.val; omega

theorem sbSlot_emb (k : Fin 8) (a : Fin 512) (b : Fin 1024) :
    (sbSlot k).view.emb (ix2 a b) = (ix3 k a b : S8x512x1024.Idx) := slot8_emb k a b

theorem kbSlot_emb (k : Fin 8) (a : Fin 512) (b : Fin 1024) :
    (kbSlot k).view.emb (ix2 a b) = (ix3 k a b : S8x512x1024.Idx) := slot8_emb k a b

theorem sbAccess_emb (k : Fin 8) (a : Fin 512) (b : Fin 1024) :
    (sbM.access (Rect.unit (s := S8x512x1024) ![k.val, 0, 0] S1x512x1024.size (slot8_inb k))).emb
        (ix3 (⟨0, Nat.one_pos⟩ : Fin 1) a b : S1x512x1024.Idx) = (ix3 k a b : S8x512x1024.Idx) := by
  funext d
  refine Fin.ext ?_
  match d with
  | ⟨0, _⟩ => show k.val + 1 * 0 = k.val; omega
  | ⟨1, _⟩ => show 0 + 1 * a.val = a.val; omega
  | ⟨2, _⟩ => show 0 + 1 * b.val = b.val; omega

theorem kbAccess_emb (k : Fin 8) (a : Fin 512) (b : Fin 1024) :
    (kbM.access (Rect.unit (s := S8x512x1024) ![k.val, 0, 0] S1x512x1024.size (slot8_inb k))).emb
        (ix3 (⟨0, Nat.one_pos⟩ : Fin 1) a b : S1x512x1024.Idx) = (ix3 k a b : S8x512x1024.Idx) := by
  funext d
  refine Fin.ext ?_
  match d with
  | ⟨0, _⟩ => show k.val + 1 * 0 = k.val; omega
  | ⟨1, _⟩ => show 0 + 1 * a.val = a.val; omega
  | ⟨2, _⟩ => show 0 + 1 * b.val = b.val; omega

theorem oRows_emb (d : Dev nD) (k : Fin 8) (a : Fin 512) (b : Fin 1024) :
    (oRows d k).view.emb (ix2 a b)
      = (ix2 (n0 := 8192) (n1 := 1024)
          ⟨4096 * xco d + 512 * k.val + a.val, by have := xco_lt d; have := k.isLt; have := a.isLt; omega⟩ b : S8192x1024.Idx) := by
  have ho := off_eq d k
  funext e
  refine Fin.ext ?_
  match e with
  | ⟨0, h0⟩ =>
    show k0_off1 d (BitVec.ofNat 32 (512 * k.val)) ⟨0, h0⟩ + 1 * a.val = 4096 * xco d + 512 * k.val + a.val
    rw [ho]
    show 4096 * xco d + 512 * k.val + 1 * a.val = 4096 * xco d + 512 * k.val + a.val
    omega
  | ⟨1, h1⟩ =>
    show k0_off1 d (BitVec.ofNat 32 (512 * k.val)) ⟨1, h1⟩ + 1 * b.val = b.val
    rw [ho]
    show 0 + 1 * b.val = b.val
    omega

theorem load_lands (k : Fin 8) (s : Fin 2) (x : S4096x2048.Idx → Elt F .f32)
    (fd : (inSlot s).view.ty.Contents (Elt F)) (i : (inSlot s).view.ty.Idx) (hi : i ∈ (inSlot s).view.set) :
    (inSlot s).view.write (Elt F) fd ((xRows k).view.read (Elt F) x) Finset.univ i = inBuf x k i := by
  obtain ⟨y, rfl⟩ := View.exists_emb_of_mem_set _ hi
  rw [View.write_emb_of_mem _ _ (Finset.mem_univ y)]
  obtain ⟨a, b, rfl⟩ : ∃ a b, y = ix2 a b := ⟨y 0, y 1, eq_ix2 y⟩
  rw [View.read_apply, inSlot_emb, xRows_emb]
  rfl

theorem read_half (x : S4096x2048.Idx → Elt F .f32) (k : Fin 8) (s h : Fin 2)
    (hinb : ∀ a, (![s.val, 0, 1024 * h.val] : Fin 3 → Nat) a + S1x512x1024.size a ≤ S2x512x2048.size a) :
    inM.view.readAt (Elt F) (Rect.unit (s := S2x512x2048) ![s.val, 0, 1024 * h.val] S1x512x1024.size hinb).toLoadRect (inBuf x k)
      = halfVec x k h := by
  funext y
  show inBuf x k ((Rect.unit (s := S2x512x2048) ![s.val, 0, 1024 * h.val] S1x512x1024.size hinb).toLoadRect.idx y) = halfVec x k h y
  unfold inBuf halfVec
  refine congrArg x ?_
  funext d
  refine Fin.ext ?_
  match d with
  | ⟨0, _⟩ => show 512 * k.val + (0 + 1 * (y 1).val) = 512 * k.val + (y 1).val; omega
  | ⟨1, _⟩ => show 1024 * h.val + 1 * (y 2).val = 1024 * h.val + (y 2).val; omega

theorem setOn_whole {κ : Kind} (b : Ref sig κ) (M : Finset b.ty.shape.Idx) :
    (View.whole b : View sig κ _ _ _).setOn M = M := Finset.map_refl

theorem sb_access_set (k : Fin 8) :
    (sbM.access (Rect.unit (s := S8x512x1024) ![k.val, 0, 0] S1x512x1024.size (slot8_inb k))).set = (sbSlot k).view.set :=
  (View.set_slice_whole cc0_scratch1 _).trans (sbSlot_set k).symm

theorem kb_access_set (k : Fin 8) :
    (kbM.access (Rect.unit (s := S8x512x1024) ![k.val, 0, 0] S1x512x1024.size (slot8_inb k))).set = (kbSlot k).view.set :=
  (View.set_slice_whole cc0_scratch2 _).trans (kbSlot_set k).symm

theorem in_load_sub (s h : Fin 2)
    (hinb : ∀ a, (![s.val, 0, 1024 * h.val] : Fin 3 → Nat) a + S1x512x1024.size a ≤ S2x512x2048.size a) :
    inM.view.setOn (Rect.unit (s := S2x512x2048) ![s.val, 0, 1024 * h.val] S1x512x1024.size hinb).toLoadRect.set
      ⊆ (inSlot s).view.set := by
  rw [inSlot_set]
  show (View.whole cc0_scratch0 : View sig .tc _ _ _).setOn _ ⊆ _
  rw [setOn_whole]
  intro i hi
  have hb := Rect.mem_set_unit.mp hi
  refine Rect.mem_set_unit.mpr fun a => ?_
  match a with
  | ⟨0, h0⟩ => exact hb ⟨0, h0⟩
  | ⟨1, h1⟩ => exact hb ⟨1, h1⟩
  | ⟨2, h2⟩ =>
    obtain ⟨-, hu⟩ := hb ⟨2, h2⟩
    have hh := h.isLt
    have hu' : (i ⟨2, h2⟩).val < 1024 * h.val + 1024 := hu
    exact ⟨Nat.zero_le _, show (i ⟨2, h2⟩).val < 0 + 2048 by omega⟩

theorem sb_load_sub (k : Fin 8) :
    sbM.view.setOn (Rect.unit (s := S8x512x1024) ![k.val, 0, 0] S1x512x1024.size (slot8_inb k)).toLoadRect.set
      ⊆ (sbSlot k).view.set := by
  rw [← sb_access_set]
  show (View.whole cc0_scratch1 : View sig .tc _ _ _).setOn _ ⊆ _
  rw [setOn_whole]
  exact (View.set_slice_whole cc0_scratch1 _).ge

theorem sb_store_sub (k : Fin 8) :
    (sbM.access (Rect.unit (s := S8x512x1024) ![k.val, 0, 0] S1x512x1024.size (slot8_inb k))).setOn Finset.univ
      ⊆ (sbSlot k).view.set :=
  (sb_access_set k).le

theorem kb_load_sub (k : Fin 8) :
    kbM.view.setOn (Rect.unit (s := S8x512x1024) ![k.val, 0, 0] S1x512x1024.size (slot8_inb k)).toLoadRect.set
      ⊆ (kbSlot k).view.set := by
  rw [← kb_access_set]
  show (View.whole cc0_scratch2 : View sig .tc _ _ _).setOn _ ⊆ _
  rw [setOn_whole]
  exact (View.set_slice_whole cc0_scratch2 _).ge

theorem kb_store_sub (k : Fin 8) :
    (kbM.access (Rect.unit (s := S8x512x1024) ![k.val, 0, 0] S1x512x1024.size (slot8_inb k))).setOn Finset.univ
      ⊆ (kbSlot k).view.set :=
  (kb_access_set k).le

def pay {α : Type} (v : S1x512x1024.Idx → α) : S1x512x1024.Idx → α :=
  shapeCast S1x512x1024 (shapeCast S512x1024 v shapeCasts_S1x512x1024_S512x1024) shapeCasts_S512x1024_S1x512x1024

theorem pay_eq {α : Type} (v : S1x512x1024.Idx → α) : pay v = v :=
  shapeCast_shapeCast v shapeCasts_S1x512x1024_S512x1024 shapeCasts_S512x1024_S1x512x1024

theorem store_sb (x : S4096x2048.Idx → Elt F .f32) (k : Fin 8) (h : Fin 2)
    (f : (sbSlot k).view.ty.Contents (Elt F)) (i : (sbSlot k).view.ty.Idx) (hi : i ∈ (sbSlot k).view.set) :
    (sbM.access (Rect.unit (s := S8x512x1024) ![k.val, 0, 0] S1x512x1024.size (slot8_inb k))).write (Elt F) f
        (pay (halfVec x k h)) Finset.univ i = halfBuf x h i := by
  obtain ⟨y, rfl⟩ := View.exists_emb_of_mem_set _ hi
  obtain ⟨a, b, rfl⟩ : ∃ a b, y = ix2 a b := ⟨y 0, y 1, eq_ix2 y⟩
  rw [pay_eq, sbSlot_emb]
  have hw := View.write_emb_of_mem
    (v := sbM.access (Rect.unit (s := S8x512x1024) ![k.val, 0, 0] S1x512x1024.size (slot8_inb k))) (Val := Elt F)
    f (halfVec x k h) (M := Finset.univ) (x := (ix3 (⟨0, Nat.one_pos⟩ : Fin 1) a b : S1x512x1024.Idx)) (Finset.mem_univ _)
  rw [sbAccess_emb] at hw
  refine hw.trans ?_
  rfl

theorem store_kb (x : S4096x2048.Idx → Elt F .f32) (k : Fin 8) (h : Fin 2)
    (f : (kbSlot k).view.ty.Contents (Elt F)) (i : (kbSlot k).view.ty.Idx) (hi : i ∈ (kbSlot k).view.set) :
    (kbM.access (Rect.unit (s := S8x512x1024) ![k.val, 0, 0] S1x512x1024.size (slot8_inb k))).write (Elt F) f
        (pay (halfVec x k h)) Finset.univ i = halfBuf x h i := by
  obtain ⟨y, rfl⟩ := View.exists_emb_of_mem_set _ hi
  obtain ⟨a, b, rfl⟩ : ∃ a b, y = ix2 a b := ⟨y 0, y 1, eq_ix2 y⟩
  rw [pay_eq, kbSlot_emb]
  have hw := View.write_emb_of_mem
    (v := kbM.access (Rect.unit (s := S8x512x1024) ![k.val, 0, 0] S1x512x1024.size (slot8_inb k))) (Val := Elt F)
    f (halfVec x k h) (M := Finset.univ) (x := (ix3 (⟨0, Nat.one_pos⟩ : Fin 1) a b : S1x512x1024.Idx)) (Finset.mem_univ _)
  rw [kbAccess_emb] at hw
  refine hw.trans ?_
  rfl

variable (m : (ℓ : Loc nD τ sig) → Buf (Elt F) ℓ)

/-- On the rows it lands in, the kept half of chunk `k` is the device's final result. -/
theorem keep_lands (c : Dev nD) (k : Fin 8) (fd : (oRows c k).view.ty.Contents (Elt F))
    (i : (oRows c k).view.ty.Idx) (hi : i ∈ (oRows c k).view.set) :
    (oRows c k).view.write (Elt F) fd ((kbSlot k).view.read (Elt F) (halfBuf (xAt m c) (xf c))) Finset.univ i
      = outAt m c i := by
  obtain ⟨y, rfl⟩ := View.exists_emb_of_mem_set _ hi
  rw [View.write_emb_of_mem _ _ (Finset.mem_univ y)]
  obtain ⟨a, b, rfl⟩ : ∃ a b, y = ix2 a b := ⟨y 0, y 1, eq_ix2 y⟩
  rw [View.read_apply, kbSlot_emb, oRows_emb]
  have hk := k.isLt
  have ha := a.isLt
  have ho := outOf_own (xf c) (xAt m c) (xAt m (peer c)) ⟨512 * k.val + a.val, by omega⟩ b
  refine Eq.trans ?_ (Eq.trans ho.symm ?_)
  · rfl
  · show outOf (xf c) (xAt m c) (xAt m (peer c)) _ = outOf (xf c) (xAt m c) (xAt m (peer c)) _
    refine congrArg _ ?_
    funext d
    refine Fin.ext ?_
    match d with
    | ⟨0, _⟩ => show 4096 * xco c + (512 * k.val + a.val) = 4096 * xco c + 512 * k.val + a.val; omega
    | ⟨1, _⟩ => rfl

theorem xAt_peer_peer (c : Dev nD) :
    (xAt m (peer (peer c)) : S4096x2048.Idx → Elt F .f32) = xAt m c := by
  have h : ∀ d : Dev nD, d = c → (xAt m d : S4096x2048.Idx → Elt F .f32) = xAt m c := by
    intro d hd; subst hd; rfl
  exact h _ (peer_peer c)

/-- On the rows it lands in, the sent half of chunk `k` is the partner's final result. -/
theorem send_lands (c : Dev nD) (k : Fin 8) (fd : (oRows c k).view.ty.Contents (Elt F))
    (i : (oRows c k).view.ty.Idx) (hi : i ∈ (oRows c k).view.set) :
    (oRows c k).view.write (Elt F) fd ((sbSlot k).view.read (Elt F) (halfBuf (xAt m c) (xf (peer c)))) Finset.univ i
      = outAt m (peer c) i := by
  obtain ⟨y, rfl⟩ := View.exists_emb_of_mem_set _ hi
  rw [View.write_emb_of_mem _ _ (Finset.mem_univ y)]
  obtain ⟨a, b, rfl⟩ : ∃ a b, y = ix2 a b := ⟨y 0, y 1, eq_ix2 y⟩
  rw [View.read_apply, sbSlot_emb, oRows_emb]
  have hk := k.isLt
  have ha := a.isLt
  have hx : xco c = 1 - xco (peer c) := by have := xco_peer c; have := xco_lt c; omega
  have ho := outOf_other (xf (peer c)) (xAt m (peer c)) (xAt m c) ⟨512 * k.val + a.val, by omega⟩ b
  refine Eq.trans ?_ (Eq.trans ho.symm ?_)
  · rfl
  · show outOf (xf (peer c)) (xAt m (peer c)) (xAt m c) _ = outOf (xf (peer c)) (xAt m (peer c)) (xAt m (peer (peer c))) _
    rw [xAt_peer_peer]
    refine congrArg _ ?_
    funext d
    refine Fin.ext ?_
    match d with
    | ⟨0, _⟩ =>
      show 4096 * (1 - xco (peer c)) + (512 * k.val + a.val) = 4096 * xco c + 512 * k.val + a.val
      omega
    | ⟨1, _⟩ => rfl

/-- Each device's argument being its row block of `X`, its result ends as its column block of `X`. -/
theorem outAt_eq_block (X : (⟨2, ![8192, 2048]⟩ : Shape).Idx → Elt F .f32)
    (hm : ∀ c : Dev nD, m ((c : Thread nD τ).loc main_arg0)
      = Layout.blockN ⟨2, ![4096, 2048]⟩ ⟨2, ![8192, 2048]⟩ (Layout.meshBlock [2, 4, 4] ![[0], []] c) X)
    (c : Dev nD) :
    outAt m c = Layout.blockN ⟨2, ![8192, 1024]⟩ ⟨2, ![8192, 2048]⟩ (Layout.meshBlock [2, 4, 4] ![[], [0]] c) X := by
  unfold outAt xAt
  rw [hm c, hm (peer c)]
  funext i
  exact outOf_block X c i

theorem pts_load_lands (c : Dev nD) (k : Fin 8) (s : Fin 2)
    (fd : Buf (Elt F) ((inSlot s).view.loc (c : Thread nD τ))) (x : S4096x2048.Idx → Elt F .f32) :
    ((inSlot s).view.loc (c : Thread nD τ) ↦[(inSlot s).view.set]{fullShare}
        (inSlot s).view.write (Elt F) fd ((xRows k).view.read (Elt F) x) Finset.univ : sProp 𝕄)
      = ((inSlot s).view.loc (c : Thread nD τ) ↦[(inSlot s).view.set]{fullShare} inBuf x k) :=
  pointsTo_congr fun i hi => load_lands k s x fd i hi

theorem pts_store_sb (c : Dev nD) (k : Fin 8) (h : Fin 2)
    (f : Buf (Elt F) ((sbSlot k).view.loc (c : Thread nD τ))) (x : S4096x2048.Idx → Elt F .f32) :
    ((sbSlot k).view.loc (c : Thread nD τ) ↦[(sbSlot k).view.set]{fullShare}
        (sbM.access (Rect.unit (s := S8x512x1024) ![k.val, 0, 0] S1x512x1024.size (slot8_inb k))).write (Elt F) f
          (pay (halfVec x k h)) Finset.univ : sProp 𝕄)
      = ((sbSlot k).view.loc (c : Thread nD τ) ↦[(sbSlot k).view.set]{fullShare} halfBuf x h) :=
  pointsTo_congr fun i hi => store_sb x k h f i hi

theorem pts_store_kb (c : Dev nD) (k : Fin 8) (h : Fin 2)
    (f : Buf (Elt F) ((kbSlot k).view.loc (c : Thread nD τ))) (x : S4096x2048.Idx → Elt F .f32) :
    ((kbSlot k).view.loc (c : Thread nD τ) ↦[(kbSlot k).view.set]{fullShare}
        (kbM.access (Rect.unit (s := S8x512x1024) ![k.val, 0, 0] S1x512x1024.size (slot8_inb k))).write (Elt F) f
          (pay (halfVec x k h)) Finset.univ : sProp 𝕄)
      = ((kbSlot k).view.loc (c : Thread nD τ) ↦[(kbSlot k).view.set]{fullShare} halfBuf x h) :=
  pointsTo_congr fun i hi => store_kb x k h f i hi

theorem pts_keep_lands (c : Dev nD) (k : Fin 8) (fd : Buf (Elt F) ((oRows c k).view.loc (c : Thread nD τ))) :
    ((oRows c k).view.loc (c : Thread nD τ) ↦[(oRows c k).view.set]{fullShare}
        (oRows c k).view.write (Elt F) fd ((kbSlot k).view.read (Elt F) (halfBuf (xAt m c) (xf c))) Finset.univ : sProp 𝕄)
      = ((oRows c k).view.loc (c : Thread nD τ) ↦[(oRows c k).view.set]{fullShare} outAt m c) :=
  pointsTo_congr fun i hi => keep_lands m c k fd i hi

theorem pts_send_lands (c : Dev nD) (k : Fin 8) (fd : Buf (Elt F) ((oRows c k).view.loc ((peer c) : Thread nD τ))) :
    ((oRows c k).view.loc ((peer c) : Thread nD τ) ↦[(oRows c k).view.set]{fullShare}
        (oRows c k).view.write (Elt F) fd ((sbSlot k).view.read (Elt F) (halfBuf (xAt m c) (xf (peer c)))) Finset.univ : sProp 𝕄)
      = ((oRows c k).view.loc ((peer c) : Thread nD τ) ↦[(oRows c k).view.set]{fullShare} outAt m (peer c)) :=
  pointsTo_congr fun i hi => send_lands m c k fd i hi

/-- info: 'Cert.Kernel.A2A.outAt_eq_block' depends on axioms: [propext, Classical.choice, Quot.sound] -/
#guard_msgs in #print axioms outAt_eq_block

end Cert.Kernel.A2A
end
-- ==== Proof.KSems.lean ====
import proofs.«900650_g7700000000000651_dist_a2a_v7x_xyz2x4x4_x_m4096_n1024_f32_1_alg».proof.Proof.KState
import Idealize.ShloMosaic.Lib.Pipeline.Kit
import Idealize.ShloMosaic.Lib.Tactic

noncomputable section

namespace Cert.Kernel.A2A

open Cert.Kernel Cert.Kernel.Gen Cert.A2A
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev SemIx : Type := Fin 2 ⊕ (Fin 8 ⊕ (Fin 8 ⊕ Fin 8))

def semIx : SemIx ≃ Fin 26 where
  toFun
    | .inl s => ⟨s.val, by have := s.isLt; omega⟩
    | .inr (.inl k) => ⟨2 + k.val, by have := k.isLt; omega⟩
    | .inr (.inr (.inl k)) => ⟨10 + k.val, by have := k.isLt; omega⟩
    | .inr (.inr (.inr k)) => ⟨18 + k.val, by have := k.isLt; omega⟩
  invFun j :=
    if h1 : j.val < 2 then .inl ⟨j.val, h1⟩
    else if h2 : j.val < 10 then .inr (.inl ⟨j.val - 2, by omega⟩)
    else if h3 : j.val < 18 then .inr (.inr (.inl ⟨j.val - 10, by omega⟩))
    else .inr (.inr (.inr ⟨j.val - 18, by have := j.isLt; omega⟩))
  left_inv := by decide
  right_inv := by decide

def semAt (c : Dev nD) : SemIx → GSem nD τ sig
  | .inl s => loadCell c s
  | .inr (.inl k) => keepCell c k
  | .inr (.inr (.inl k)) => sendCell c k
  | .inr (.inr (.inr k)) => recvCell c k

theorem osem_semIx (c : Dev nD) (x : SemIx) : (((c : Thread nD τ), osem (semIx x)) : GSem nD τ sig) = semAt c x := by
  rcases x with s | k | k | k
  · exact Prod.ext rfl (show osem (semIx (.inl s)) = SemLoc.dma (loadS s) from by revert s; decide)
  · exact Prod.ext rfl (show osem (semIx (.inr (.inl k))) = SemLoc.dma (keepS k) from by revert k; decide)
  · exact Prod.ext rfl (show osem (semIx (.inr (.inr (.inl k)))) = SemLoc.dma (sendS k) from by revert k; decide)
  · exact Prod.ext rfl (show osem (semIx (.inr (.inr (.inr k)))) = SemLoc.dma (recvS k) from by revert k; decide)

omit [FloatOps F] in
theorem sems_join (c : Dev nD) :
    iprop((bigSep Finset.univ fun s : Fin 2 => semVal (loadCell c s) 0) ∗ (bigSep Finset.univ fun k : Fin 8 => semVal (keepCell c k) 0)
        ∗ (bigSep Finset.univ fun k : Fin 8 => semVal (sendCell c k) 0) ∗ (bigSep Finset.univ fun k : Fin 8 => semVal (recvCell c k) 0))
      ⊢ (bigSep Finset.univ fun j : Fin 26 => semVal ((c : Thread nD τ), osem j) 0 : sProp 𝕄) := by
  refine Entails.of_eq (Eq.symm ?_)
  rw [bigSep_univ_equiv semIx,
    bigSep_congr (Ψ := fun x : SemIx => (semVal (semAt c x) 0 : sProp 𝕄)) (fun x _ => congrArg (fun g : GSem nD τ sig => (semVal g 0 : sProp 𝕄)) (osem_semIx c x)),
    bigSep_univ_sum, bigSep_univ_sum, bigSep_univ_sum]
  rfl

/-- info: 'Cert.Kernel.A2A.sems_join' depends on axioms: [propext, Classical.choice, Quot.sound] -/
#guard_msgs in #print axioms sems_join

end Cert.Kernel.A2A

end
-- ==== Proof.KJoins.lean ====
import proofs.«900650_g7700000000000651_dist_a2a_v7x_xyz2x4x4_x_m4096_n1024_f32_1_alg».proof.Proof.KBlocks
import proofs.«900650_g7700000000000651_dist_a2a_v7x_xyz2x4x4_x_m4096_n1024_f32_1_alg».proof.Proof.KSems

noncomputable section

namespace Cert.Kernel.A2A

open Cert.Kernel Cert.Kernel.Gen Cert.A2A
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

theorem x_split' : ((((c : Thread nD τ).loc main_arg0) ↦{fullShare} xAt m c : sProp 𝕄)) = bigSep Finset.univ fun k : Fin 8 => xPts m c k := by
  unfold xPts; exact x_split c _

theorem x_join' : iprop(xPts m c 0 ∗ xPts m c 1 ∗ xPts m c 2 ∗ xPts m c 3 ∗ xPts m c 4 ∗ xPts m c 5 ∗ xPts m c 6 ∗ xPts m c 7) ⊢ ((((c : Thread nD τ).loc main_arg0) ↦{fullShare} xAt m c : sProp 𝕄)) := by
  rw [x_split' m c, bigSep_fin8]

theorem o_join' : iprop((oPts c c 0 (outAt m c) ∗ oPts c c 1 (outAt m c) ∗ oPts c c 2 (outAt m c) ∗ oPts c c 3 (outAt m c) ∗ oPts c c 4 (outAt m c) ∗ oPts c c 5 (outAt m c) ∗ oPts c c 6 (outAt m c) ∗ oPts c c 7 (outAt m c)) ∗ (oPts c (peer c) 0 (outAt m c) ∗ oPts c (peer c) 1 (outAt m c) ∗ oPts c (peer c) 2 (outAt m c) ∗ oPts c (peer c) 3 (outAt m c) ∗ oPts c (peer c) 4 (outAt m c) ∗ oPts c (peer c) 5 (outAt m c) ∗ oPts c (peer c) 6 (outAt m c) ∗ oPts c (peer c) 7 (outAt m c)))
    ⊢ ((((c : Thread nD τ).loc main_v1) ↦{fullShare} outAt m c : sProp 𝕄)) := by
  rw [o_split c (outAt m c), bigSep_fin8, bigSep_fin8]

theorem in_join' : iprop((∃ f, inPts c 0 f) ∗ (∃ f, inPts c 1 f)) ⊢ (iprop(∃ g, ((c : Thread nD τ).loc cc0_scratch0) ↦{fullShare} g) : sProp 𝕄) := by
  have h := in_join (F := F) c; rw [bigSep_fin2] at h; exact h
theorem sb_join' : iprop((∃ f, sbPts c 0 f) ∗ (∃ f, sbPts c 1 f) ∗ (∃ f, sbPts c 2 f) ∗ (∃ f, sbPts c 3 f) ∗ (∃ f, sbPts c 4 f) ∗ (∃ f, sbPts c 5 f) ∗ (∃ f, sbPts c 6 f) ∗ (∃ f, sbPts c 7 f)) ⊢ (iprop(∃ g, ((c : Thread nD τ).loc cc0_scratch1) ↦{fullShare} g) : sProp 𝕄) := by
  have h := sb_join (F := F) c; rw [bigSep_fin8] at h; exact h
theorem kb_join' : iprop((∃ f, kbPts c 0 f) ∗ (∃ f, kbPts c 1 f) ∗ (∃ f, kbPts c 2 f) ∗ (∃ f, kbPts c 3 f) ∗ (∃ f, kbPts c 4 f) ∗ (∃ f, kbPts c 5 f) ∗ (∃ f, kbPts c 6 f) ∗ (∃ f, kbPts c 7 f)) ⊢ (iprop(∃ g, ((c : Thread nD τ).loc cc0_scratch2) ↦{fullShare} g) : sProp 𝕄) := by
  have h := kb_join (F := F) c; rw [bigSep_fin8] at h; exact h

omit [FloatOps F] in
theorem sems_join' : iprop((semVal (loadCell c 0) 0 ∗ semVal (loadCell c 1) 0) ∗ (semVal (keepCell c 0) 0 ∗ semVal (keepCell c 1) 0 ∗ semVal (keepCell c 2) 0 ∗ semVal (keepCell c 3) 0 ∗ semVal (keepCell c 4) 0 ∗ semVal (keepCell c 5) 0 ∗ semVal (keepCell c 6) 0 ∗ semVal (keepCell c 7) 0)
      ∗ (semVal (sendCell c 0) 0 ∗ semVal (sendCell c 1) 0 ∗ semVal (sendCell c 2) 0 ∗ semVal (sendCell c 3) 0 ∗ semVal (sendCell c 4) 0 ∗ semVal (sendCell c 5) 0 ∗ semVal (sendCell c 6) 0 ∗ semVal (sendCell c 7) 0) ∗ (semVal (recvCell c 0) 0 ∗ semVal (recvCell c 1) 0 ∗ semVal (recvCell c 2) 0 ∗ semVal (recvCell c 3) 0 ∗ semVal (recvCell c 4) 0 ∗ semVal (recvCell c 5) 0 ∗ semVal (recvCell c 6) 0 ∗ semVal (recvCell c 7) 0))
    ⊢ (bigSep Finset.univ fun j : Fin 26 => semVal ((c : Thread nD τ), osem j) 0 : sProp 𝕄) := by
  have h := sems_join (F := F) c; rw [bigSep_fin2, bigSep_fin8, bigSep_fin8, bigSep_fin8] at h; exact h

end Cert.Kernel.A2A

end
-- ==== Proof.KSteps.lean ====
import proofs.«900650_g7700000000000651_dist_a2a_v7x_xyz2x4x4_x_m4096_n1024_f32_1_alg».proof.Proof.KState
import proofs.«900650_g7700000000000651_dist_a2a_v7x_xyz2x4x4_x_m4096_n1024_f32_1_alg».proof.Proof.KTables
import proofs.«900650_g7700000000000651_dist_a2a_v7x_xyz2x4x4_x_m4096_n1024_f32_1_alg».proof.Proof.KValue
import proofs.«900650_g7700000000000651_dist_a2a_v7x_xyz2x4x4_x_m4096_n1024_f32_1_alg».proof.Proof.KJoins

noncomputable section

namespace Cert.Kernel.A2A

open Cert.Kernel Cert.Kernel.Gen Cert.A2A
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Bundle
variable (m : (ℓ : Loc nD τ sig) → Buf (Elt F) ℓ) (K : Dev nD × Fin 27 → ℕ) (c : Dev nD)

theorem inv_own (i : Fin 27) : invs m K c ⊢ cellInv ER (Rd m) (K (c, i)) (kcell (c, i)) := by
  unfold invs; exact (BI.Entails.trans BI.sep_and and_elimL).trans (bigSep_elim (Finset.mem_univ i))
theorem inv_peer (i : Fin 27) : invs m K c ⊢ cellInv ER (Rd m) (K (peer c, i)) (kcell (peer c, i)) := by
  unfold invs; exact (BI.Entails.trans BI.sep_and and_elimR).trans (bigSep_elim (Finset.mem_univ i))
theorem inv_bar : invs m K c ⊢ cellInv ER (Rd m) (K (c, iBar)) (barCell c) := inv_own m K c iBar
theorem inv_load (s : Fin 2) : invs m K c ⊢ cellInv ER (Rd m) (K (c, iLoad s)) (loadCell c s) := by
  rw [← kcell_load]; exact inv_own m K c (iLoad s)
theorem inv_keep (k : Fin 8) : invs m K c ⊢ cellInv ER (Rd m) (K (c, iKeep k)) (keepCell c k) := by
  rw [← kcell_keep]; exact inv_own m K c (iKeep k)
theorem inv_send (k : Fin 8) : invs m K c ⊢ cellInv ER (Rd m) (K (c, iSend k)) (sendCell c k) := by
  rw [← kcell_send]; exact inv_own m K c (iSend k)
theorem inv_recv (k : Fin 8) : invs m K c ⊢ cellInv ER (Rd m) (K (c, iRecv k)) (recvCell c k) := by
  rw [← kcell_recv]; exact inv_own m K c (iRecv k)
theorem inv_peer_bar : invs m K c ⊢ cellInv ER (Rd m) (K (peer c, iBar)) (barCell (peer c)) := inv_peer m K c iBar
theorem inv_peer_recv (k : Fin 8) : invs m K c ⊢ cellInv ER (Rd m) (K (peer c, iRecv k)) (recvCell (peer c) k) := by
  rw [← kcell_recv]; exact inv_peer m K c (iRecv k)

omit [FloatOps F] in
theorem reach_at (i : Fin 27) : (reach0 c : sProp 𝕄) ⊢ reached ER (kcell (c, i)) 0 := by
  unfold reach0; exact bigSep_elim (Finset.mem_univ i)
omit [FloatOps F] in
theorem reach_bar : (reach0 c : sProp 𝕄) ⊢ reached ER (barCell c) 0 := reach_at c iBar
omit [FloatOps F] in
theorem reach_load (s : Fin 2) : (reach0 c : sProp 𝕄) ⊢ reached ER (loadCell c s) 0 := by rw [← kcell_load]; exact reach_at c (iLoad s)
omit [FloatOps F] in
theorem reach_keep (k : Fin 8) : (reach0 c : sProp 𝕄) ⊢ reached ER (keepCell c k) 0 := by rw [← kcell_keep]; exact reach_at c (iKeep k)
omit [FloatOps F] in
theorem reach_send (k : Fin 8) : (reach0 c : sProp 𝕄) ⊢ reached ER (sendCell c k) 0 := by rw [← kcell_send]; exact reach_at c (iSend k)
omit [FloatOps F] in
theorem reach_recv (k : Fin 8) : (reach0 c : sProp 𝕄) ⊢ reached ER (recvCell c k) 0 := by rw [← kcell_recv]; exact reach_at c (iRecv k)

end Bundle

section Steps
variable (m : (ℓ : Loc nD τ sig) → Buf (Elt F) ℓ) (K : Dev nD × Fin 27 → ℕ) (c : Dev nD)

/-- The copy of chunk `k` of the argument into slot `s`. -/
theorem wp_loadStart (k : Fin 8) (s : Fin 2) (hs : slotOf k = s) (r : ℕ) (hr : roundOf k = r)
    {hsrc : (xRows k : Memref sig .tc .hbm S512x2048 .f32).view.WordExact}
    {hdst : (inSlot s : Memref sig .tc .vmem S512x2048 .f32).view.WordExact}
    {hsem : DmaTarget.Typed .hbm (.dma (loadS s)) (DmaTarget.here (inSlot s) : DmaTarget nD τ sig Proc.tc .vmem S512x2048 .f32)}
    {α : Type} {Q : α → sProp 𝕄} {kont : PUnit → Prog (TpuEff nD τ sig (Elt F) Λ₀ .tc) α}
    {fd : Buf (Elt F) ((inSlot s : Memref sig .tc .vmem S512x2048 .f32).view.loc (c : Thread nD τ))}
    {prog : Prog (TpuEff nD τ sig (Elt F) Λ₀ .tc) α} (hprog : prog = .op (.enqueueDma (xRows k) (.here (inSlot s)) (.dma (loadS s)) hsrc hdst hsem) kont) :
    invs m K c ⊢ iprop(xPts m c k -∗ inPts c s fd -∗ dutyTok ER (loadCell c (slotOf k)) (roundOf k) ()
        -∗ reached ER (loadCell c s) r
        -∗ (cred (tallyAt (loadCell c s) () Nin) -∗ wp frame (wpE (defs₀ (F := F)) 𝒱₀ (c : Thread nD τ) none) Set.univ (kont ⟨⟩) Q)
        -∗ wp frame (wpE (defs₀ (F := F)) 𝒱₀ (c : Thread nD τ) none) Set.univ prog Q) := by
  subst hprog
  subst hs; subst hr
  iintro #HI Hx Hin Htok #Hr Hk
  ihave #HIc := (inv_load m K c (slotOf k)) $$ HI
  unfold xPts inPts
  iapply (Rounds.wp_copy_pointsTo 𝒱₀ ER (Rd m) (c : Thread nD τ) none (κ := K (c, iLoad (slotOf k))) (r := roundOf k) (d := ()) (fd := fd)
    (by rw [duties_load m c (slotOf k) (roundOf k) (roundOf_lt k)]; exact Finset.mem_singleton_self _)
    () Nin rfl (amount_load m c (slotOf k) (roundOf k) ())
    (by
      rw [payload_load, loadPay, chunk_of_round]
      unfold inPts xPts
      rw [pts_load_lands])) $$ [Hx Hin Htok]
  · iframe
    isplitr; · iexact HIc
    iexact Hr
  iexact Hk

/-- The wait for chunk `k`'s landing: the slot at the chunk, and the chunk's rows of the argument back. -/
theorem wp_loadWait (k : Fin 8) (s : Fin 2) (hs : slotOf k = s) (r : ℕ) (hr : roundOf k = r) (j : ℕ)
    {hsrc : (xRows k : Memref sig .tc .hbm S512x2048 .f32).view.WordExact}
    {hdst : (inSlot s : Memref sig .tc .vmem S512x2048 .f32).view.WordExact}
    {α : Type} {Q : α → sProp 𝕄} {kont : PUnit → Prog (TpuEff nD τ sig (Elt F) Λ₀ .tc) α} {W : Waits sig Unit}
    {prog : Prog (TpuEff nD τ sig (Elt F) Λ₀ .tc) α} (hprog : prog = .op (.waitDma2 (loadS s) (xRows k) (inSlot s) hsrc hdst) kont) :
    invs m K c ⊢ iprop(levAts L lv -∗ cred (tallyAt (loadCell c s) () Nin) -∗ owes (c : Thread nD τ) (owedFrom c j) W
        -∗ atPos ER (loadCell c s) r ∅ 0
        -∗ ((owes (c : Thread nD τ) (owedFrom c j) (insert (SemLoc.dma (loadS s), ()) W)
              ∗ atPos ER (loadCell c s) (r + 1) ∅ 0 ∗ reached ER (loadCell c s) (r + 1)
              ∗ inPts c s (inBuf (xAt m c) k) ∗ xPts m c k)
            -∗ wp frame (wpE (defs₀ (F := F)) 𝒱₀ (c : Thread nD τ) none) Set.univ (kont ⟨⟩) Q)
        -∗ wp frame (wpE (defs₀ (F := F)) 𝒱₀ (c : Thread nD τ) none) Set.univ prog Q) := by
  subst hprog
  subst hs; subst hr
  iintro #HI #Hlev Hc HO Hat Hk
  ihave #HIc := (inv_load m K c (slotOf k)) $$ HI
  iapply (Rounds.wp_wait_rest_token 𝒱₀ ER (Rd m) (c : Thread nD τ) none (κ := K (c, iLoad (slotOf k)))
      (wpE_waitDma2_eq 𝒱₀ (c : Thread nD τ) none Set.univ) (Set.mem_univ _) () (O := owedFrom c j) (W := W) (R := roundOf k) (m := 0) (T := ∅)
      (by rw [Nat.zero_add, expect_load m c (slotOf k) (roundOf k) (roundOf_lt k)])) $$ [Hc HO Hat]
  · isplitr; · iexact HIc
    isplitl [Hc]; · iexact Hc
    isplitl [HO]; · iexact HO
    isplitr
    · iapply (mayWait_low c (loadS (slotOf k)) (by rw [loadS_val]; have := (slotOf k).isLt; omega) j); iexact Hlev
    iexact Hat
  iintro ⟨HO, Hat, Hr, Hpay⟩
  ihave Hp := (Entails.of_eq (rest_load m c (slotOf k) (roundOf k) (roundOf_lt k))) $$ Hpay
  unfold loadPay
  rw [chunk_of_round]
  icases Hp with ⟨Hin, Hx⟩
  iapply Hk
  iframe

abbrev rectIn (s : Fin 2) (h : Fin 2) (hinb : ∀ a, (![s.val, 0, 1024 * h.val] : Fin 3 → Nat) a + S1x512x1024.size a ≤ S2x512x2048.size a) : Rect S2x512x2048 :=
  Rect.unit (s := S2x512x2048) ![s.val, 0, 1024 * h.val] S1x512x1024.size hinb
abbrev rect8 (k : Fin 8) : Rect S8x512x1024 := Rect.unit (s := S8x512x1024) ![k.val, 0, 0] S1x512x1024.size (slot8_inb k)

/-- The column half the partner's coordinate names goes from the slot to slot `k` of the send buffer. -/
theorem wp_moveSend (k : Fin 8) (s : Fin 2) {h : Fin 2} (hh : h = xf (peer c)) (x : S4096x2048.Idx → Elt F .f32)
    {hinb : ∀ a, (![s.val, 0, 1024 * h.val] : Fin 3 → Nat) a + S1x512x1024.size a ≤ S2x512x2048.size a}
    {hl₁ : (inM : Memref sig .tc .vmem S2x512x2048 .f32).view.LoadsAt (rectIn s h hinb).toLoadRect}
    {hl₂ : (sbM : Memref sig .tc .vmem S8x512x1024 .f32).view.LoadsAt (rect8 k).toLoadRect}
    {hx : ((sbM : Memref sig .tc .vmem S8x512x1024 .f32).access (rect8 k)).Stores Finset.univ}
    {hm : (Finset.univ : Finset (rect8 k).shape.Idx) = Finset.univ ∨ ∀ a, (rect8 k).stride a = 1}
    {α : Type} {Q : α → sProp 𝕄} {kont : PUnit → Prog (TpuEff nD τ sig (Elt F) Λ₀ .tc) α}
    {f : Buf (Elt F) ((sbSlot k : Memref sig .tc .vmem S512x1024 .f32).view.loc (c : Thread nD τ))}
    {prog : Prog (TpuEff nD τ sig (Elt F) Λ₀ .tc) α} (hprog : prog = .op (.load inM (rectIn s h hinb).toLoadRect hl₁) fun v => .op (.load sbM (rect8 k).toLoadRect hl₂) fun _ => .op (.store sbM (rect8 k) (pay v) Finset.univ hx hm) kont) :
    inPts c s (inBuf x k) ⊢ iprop(sbPts c k f
        -∗ ((inPts c s (inBuf x k) ∗ sbPts c k (halfBuf x h)) -∗ wp frame (wpE (defs₀ (F := F)) 𝒱₀ (c : Thread nD τ) none) Set.univ (kont ⟨⟩) Q)
        -∗ wp frame (wpE (defs₀ (F := F)) 𝒱₀ (c : Thread nD τ) none) Set.univ prog Q) := by
  subst hprog
  unfold inPts sbPts
  iintro Hin Hsb Hk
  iapply (wp_load 𝒱₀ (c : Thread nD τ) none Set.univ (m := inM) (in_load_sub s h hinb)) $$ Hin; iintro Hin
  iapply (wp_load 𝒱₀ (c : Thread nD τ) none Set.univ (m := sbM) (sb_load_sub k)) $$ Hsb; iintro Hsb
  iapply (wp_store 𝒱₀ (c : Thread nD τ) none Set.univ (m := sbM) (r := rect8 k) (Mk := Finset.univ) (sb_store_sub k)) $$ Hsb
  rw [read_half x k s h hinb, pts_store_sb c k h f x]
  iintro Hsb
  iapply Hk
  iframe

/-- The device's own column half goes from the slot to slot `k` of the keep buffer. -/
theorem wp_moveKeep (k : Fin 8) (s : Fin 2) {h : Fin 2} (hh : h = xf c) (x : S4096x2048.Idx → Elt F .f32)
    {hinb : ∀ a, (![s.val, 0, 1024 * h.val] : Fin 3 → Nat) a + S1x512x1024.size a ≤ S2x512x2048.size a}
    {hl₁ : (inM : Memref sig .tc .vmem S2x512x2048 .f32).view.LoadsAt (rectIn s h hinb).toLoadRect}
    {hl₂ : (kbM : Memref sig .tc .vmem S8x512x1024 .f32).view.LoadsAt (rect8 k).toLoadRect}
    {hx : ((kbM : Memref sig .tc .vmem S8x512x1024 .f32).access (rect8 k)).Stores Finset.univ}
    {hm : (Finset.univ : Finset (rect8 k).shape.Idx) = Finset.univ ∨ ∀ a, (rect8 k).stride a = 1}
    {α : Type} {Q : α → sProp 𝕄} {kont : PUnit → Prog (TpuEff nD τ sig (Elt F) Λ₀ .tc) α}
    {f : Buf (Elt F) ((kbSlot k : Memref sig .tc .vmem S512x1024 .f32).view.loc (c : Thread nD τ))}
    {prog : Prog (TpuEff nD τ sig (Elt F) Λ₀ .tc) α} (hprog : prog = .op (.load inM (rectIn s h hinb).toLoadRect hl₁) fun v => .op (.load kbM (rect8 k).toLoadRect hl₂) fun _ => .op (.store kbM (rect8 k) (pay v) Finset.univ hx hm) kont) :
    inPts c s (inBuf x k) ⊢ iprop(kbPts c k f
        -∗ ((inPts c s (inBuf x k) ∗ kbPts c k (halfBuf x h)) -∗ wp frame (wpE (defs₀ (F := F)) 𝒱₀ (c : Thread nD τ) none) Set.univ (kont ⟨⟩) Q)
        -∗ wp frame (wpE (defs₀ (F := F)) 𝒱₀ (c : Thread nD τ) none) Set.univ prog Q) := by
  subst hprog
  unfold inPts kbPts
  iintro Hin Hkb Hk
  iapply (wp_load 𝒱₀ (c : Thread nD τ) none Set.univ (m := inM) (in_load_sub s h hinb)) $$ Hin; iintro Hin
  iapply (wp_load 𝒱₀ (c : Thread nD τ) none Set.univ (m := kbM) (kb_load_sub k)) $$ Hkb; iintro Hkb
  iapply (wp_store 𝒱₀ (c : Thread nD τ) none Set.univ (m := kbM) (r := rect8 k) (Mk := Finset.univ) (kb_store_sub k)) $$ Hkb
  rw [read_half x k s h hinb, pts_store_kb c k h f x]
  iintro Hkb
  iapply Hk
  iframe

/-- The remote copy of send slot `k` into the partner's result; the device stops owing that block's receive credit. -/
theorem wp_rdma (n : Dev nD) (hn : n = peer c) (k : Fin 8) (hk8 : k.val < 8) (j : ℕ) (hj : k.val = j) (h : Fin 2) (hh : h = xf (peer c))
    {hsc : (oRows c k : Memref sig (Dev.tc n : Thread nD τ).2.kind .hbm S512x1024 .f32).view.ref.isScScratch = false}
    {hsrc : (sbSlot k : Memref sig .tc .vmem S512x1024 .f32).view.WordExact}
    {hdst : (oRows c k : Memref sig .tc .hbm S512x1024 .f32).view.WordExact}
    {hsem : DmaTarget.Typed .vmem (.dma (recvS k)) (.remote (Dev.tc n : Thread nD τ) (oRows c k : Memref sig .tc .hbm S512x1024 .f32) (.dma (sendS k)) hsc)}
    {α : Type} {Q : α → sProp 𝕄} {kont : PUnit → Prog (TpuEff nD τ sig (Elt F) Λ₀ .tc) α}
    {fn : Buf (Elt F) ((oRows c k : Memref sig .tc .hbm S512x1024 .f32).view.loc (peer c : Thread nD τ))}
    {W : Waits sig Unit}
    {prog : Prog (TpuEff nD τ sig (Elt F) Λ₀ .tc) α} (hprog : prog = .op (.enqueueDma (sbSlot k) (.remote (Dev.tc n : Thread nD τ) (oRows c k) (.dma (sendS k)) hsc) (.dma (recvS k)) hsrc hdst hsem) kont) :
    invs m K c ⊢ iprop(reach0 c -∗ reach0 (peer c)
        -∗ sbPts c k (halfBuf (xAt m c) h) -∗ oPts (peer c) c k fn
        -∗ owes (c : Thread nD τ) (owedFrom c j) W
        -∗ dutyTok ER (sendCell c k) 0 () -∗ dutyTok ER (recvCell (peer c) k) 0 ()
        -∗ ((cred (tallyAt (sendCell c k) () Nout) ∗ owes (c : Thread nD τ) (owedFrom c (j + 1)) W) -∗ wp frame (wpE (defs₀ (F := F)) 𝒱₀ (c : Thread nD τ) none) Set.univ (kont ⟨⟩) Q)
        -∗ wp frame (wpE (defs₀ (F := F)) 𝒱₀ (c : Thread nD τ) none) Set.univ prog Q) := by
  subst hprog
  subst hn
  subst hh
  subst hj
  iintro #HI #Hr #Hrp Hsb Ho HO Hts Htr Hk
  ihave #HIs := (inv_send m K c k) $$ HI
  ihave #HIr := (inv_peer_recv m K c k) $$ HI
  ihave #Hrs := (reach_send (F := F) c k) $$ Hr
  ihave #Hrr := (reach_recv (F := F) (peer c) k) $$ Hrp
  unfold sbPts oPts
  iapply (Rounds.wp_send_pointsTo 𝒱₀ ER (Rd m) (c : Thread nD τ) none (κ₁ := K (c, iSend k)) (κ₂ := K (peer c, iRecv k))
    (r₁ := 0) (r₂ := 0) (d₁ := ()) (d₂ := ()) (fd := fn)
    (by rw [duties_one m c (sendS_ge2 k)]; exact Finset.mem_singleton_self _) (by rw [duties_one m (peer c) (recvS_ge2 k)]; exact Finset.mem_singleton_self _)
    () () Nout rfl (amount_one m c (sendS_ge2 k) 0 ()) (amount_one m (peer c) (recvS_ge2 k) 0 ()) (owedFrom c (k.val + 1))
    (owedFrom_step c k.val hk8) (W := W)
    (by rw [payload_send]; unfold sendPay sbPts; exact BI.Entails.refl _)
    (by rw [payload_recv]; unfold recvPay oPts; rw [peer_peer, pts_send_lands m c k fn])) $$ [Hsb Ho HO Hts Htr]
  · iframe
    isplitr; · iexact HIs
    isplitr; · iexact HIr
    isplitr; · iexact Hrs
    iexact Hrr
  iexact Hk

/-- The local copy of keep slot `k` into the device's own result. -/
theorem wp_keepStart (k : Fin 8) (h : Fin 2) (hh : h = xf c)
    {hsrc : (kbSlot k : Memref sig .tc .vmem S512x1024 .f32).view.WordExact}
    {hdst : (oRows c k : Memref sig .tc .hbm S512x1024 .f32).view.WordExact}
    {hsem : DmaTarget.Typed .vmem (.dma (keepS k)) (DmaTarget.here (oRows c k) : DmaTarget nD τ sig Proc.tc .hbm S512x1024 .f32)}
    {α : Type} {Q : α → sProp 𝕄} {kont : PUnit → Prog (TpuEff nD τ sig (Elt F) Λ₀ .tc) α}
    {fd : Buf (Elt F) ((oRows c k : Memref sig .tc .hbm S512x1024 .f32).view.loc (c : Thread nD τ))}
    {prog : Prog (TpuEff nD τ sig (Elt F) Λ₀ .tc) α} (hprog : prog = .op (.enqueueDma (kbSlot k) (.here (oRows c k)) (.dma (keepS k)) hsrc hdst hsem) kont) :
    invs m K c ⊢ iprop(reach0 c -∗ kbPts c k (halfBuf (xAt m c) h) -∗ oPts c c k fd -∗ dutyTok ER (keepCell c k) 0 ()
        -∗ (cred (tallyAt (keepCell c k) () Nout) -∗ wp frame (wpE (defs₀ (F := F)) 𝒱₀ (c : Thread nD τ) none) Set.univ (kont ⟨⟩) Q)
        -∗ wp frame (wpE (defs₀ (F := F)) 𝒱₀ (c : Thread nD τ) none) Set.univ prog Q) := by
  subst hprog
  subst hh
  iintro #HI #Hr Hkb Ho Htk Hk
  ihave #HIk := (inv_keep m K c k) $$ HI
  ihave #Hrk := (reach_keep (F := F) c k) $$ Hr
  unfold kbPts oPts
  iapply (Rounds.wp_copy_pointsTo 𝒱₀ ER (Rd m) (c : Thread nD τ) none (κ := K (c, iKeep k)) (r := 0) (d := ()) (fd := fd)
    (by rw [duties_one m c (keepS_ge2 k)]; exact Finset.mem_singleton_self _)
    () Nout rfl (amount_one m c (keepS_ge2 k) 0 ())
    (by
      rw [payload_keep]; unfold keepPay oPts kbPts
      rw [pts_keep_lands m c k fd])) $$ [Hkb Ho Htk]
  · iframe
    isplitr; · iexact HIk
    iexact Hrk
  iexact Hk

/-- A wait for the one round of one of the device's own cells, owing nothing: the round's payload, and the cell closed at zero. -/
theorem wp_waitClose (κ : ℕ) (j : DmaSem sig) (N : ℕ) (Pay : sProp 𝕄)
    (hexp : (Rd (F := F) m).expect ((c : Thread nD τ), .dma j) 0 = N)
    (hrest : bigSep ((Rd (F := F) m).duties ((c : Thread nD τ), .dma j) 0 \ ∅) (fun d => (Rd m).payload ((c : Thread nD τ), .dma j) 0 d) = Pay)
    (hlater : ∀ r, 1 ≤ r → (Rd (F := F) m).duties ((c : Thread nD τ), .dma j) r = ∅)
    {sp sp' : Space} {s s' : Shape} {e e' : EltTy}
    (src : Memref sig .tc sp' s' e') (dst : Memref sig .tc sp s e) {hsrc : src.view.WordExact} {hdst : dst.view.WordExact}
    (hN : dst.view.dmaCredit = N)
    {α : Type} {Q : α → sProp 𝕄} {kont : PUnit → Prog (TpuEff nD τ sig (Elt F) Λ₀ .tc) α} {W : Waits sig Unit} :
    cellInv ER (Rd m) κ ((c : Thread nD τ), .dma j) ⊢ iprop(cred (tallyAt ((c : Thread nD τ), .dma j) () N) -∗ owes (c : Thread nD τ) 0 W
        -∗ atPos ER ((c : Thread nD τ), .dma j) 0 ∅ 0
        -∗ ((owes (c : Thread nD τ) 0 (insert (SemLoc.dma j, ()) W) ∗ semVal ((c : Thread nD τ), .dma j) 0 ∗ Pay) -∗ wp frame (wpE (defs₀ (F := F)) 𝒱₀ (c : Thread nD τ) none) Set.univ (kont ⟨⟩) Q)
        -∗ wp frame (wpE (defs₀ (F := F)) 𝒱₀ (c : Thread nD τ) none) Set.univ (.op (.waitDma2 j src dst hsrc hdst) kont) Q) := by
  subst hN
  iintro #HI Hc HO Hat Hk
  iapply (Rounds.wp_wait_rest_token 𝒱₀ ER (Rd m) (c : Thread nD τ) none (κ := κ)
      (wpE_waitDma2_eq 𝒱₀ (c : Thread nD τ) none Set.univ) (Set.mem_univ _) () (O := 0) (W := W) (R := 0) (m := 0) (T := ∅)
      (by rw [Nat.zero_add, hexp])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq hrest) $$ Hpay
  imod (Rounds.cell_close ER (Rd m) (Set.mem_univ κ) (fun h => h) (R := 0 + 1) hlater) $$ [Hat] with Hz
  · isplitr; · iexact HI
    iexact Hat
  iapply Hk
  iframe

theorem wp_keepWait (k : Fin 8) {hsrc : (kbSlot k : Memref sig .tc .vmem S512x1024 .f32).view.WordExact}
    {hdst : (oRows c k : Memref sig .tc .hbm S512x1024 .f32).view.WordExact}
    {α : Type} {Q : α → sProp 𝕄} {kont : PUnit → Prog (TpuEff nD τ sig (Elt F) Λ₀ .tc) α} {W : Waits sig Unit}
    {prog : Prog (TpuEff nD τ sig (Elt F) Λ₀ .tc) α} (hprog : prog = .op (.waitDma2 (keepS k) (kbSlot k) (oRows c k) hsrc hdst) kont) :
    invs m K c ⊢ iprop(cred (tallyAt (keepCell c k) () Nout) -∗ owes (c : Thread nD τ) 0 W -∗ atPos ER (keepCell c k) 0 ∅ 0
        -∗ ((owes (c : Thread nD τ) 0 (insert (SemLoc.dma (keepS k), ()) W) ∗ semVal (keepCell c k) 0
              ∗ oPts c c k (outAt m c) ∗ kbPts c k (halfBuf (xAt m c) (xf c)))
            -∗ wp frame (wpE (defs₀ (F := F)) 𝒱₀ (c : Thread nD τ) none) Set.univ (kont ⟨⟩) Q)
        -∗ wp frame (wpE (defs₀ (F := F)) 𝒱₀ (c : Thread nD τ) none) Set.univ prog Q) := by
  subst hprog
  exact (inv_keep m K c k).trans (wp_waitClose m c _ (keepS k) Nout (keepPay m c k) (expect_one m c (keepS_ge2 k)) ((rest_one m c (keepS_ge2 k)).trans (payload_keep m c k)) (later_one m c (keepS_ge2 k)) (kbSlot k) (oRows c k) rfl)

theorem wp_sendWait (k : Fin 8) {hsrc : (oRows c k : Memref sig .tc .hbm S512x1024 .f32).view.WordExact}
    {hdst : (sbSlot k : Memref sig .tc .vmem S512x1024 .f32).view.WordExact}
    {α : Type} {Q : α → sProp 𝕄} {kont : PUnit → Prog (TpuEff nD τ sig (Elt F) Λ₀ .tc) α} {W : Waits sig Unit}
    {prog : Prog (TpuEff nD τ sig (Elt F) Λ₀ .tc) α} (hprog : prog = .op (.waitDma2 (sendS k) (oRows c k) (sbSlot k) hsrc hdst) kont) :
    invs m K c ⊢ iprop(cred (tallyAt (sendCell c k) () Nout) -∗ owes (c : Thread nD τ) 0 W -∗ atPos ER (sendCell c k) 0 ∅ 0
        -∗ ((owes (c : Thread nD τ) 0 (insert (SemLoc.dma (sendS k), ()) W) ∗ semVal (sendCell c k) 0
              ∗ sbPts c k (halfBuf (xAt m c) (xf (peer c))))
            -∗ wp frame (wpE (defs₀ (F := F)) 𝒱₀ (c : Thread nD τ) none) Set.univ (kont ⟨⟩) Q)
        -∗ wp frame (wpE (defs₀ (F := F)) 𝒱₀ (c : Thread nD τ) none) Set.univ prog Q) := by
  subst hprog
  exact (inv_send m K c k).trans (wp_waitClose m c _ (sendS k) Nout (sendPay m c k) (expect_one m c (sendS_ge2 k)) ((rest_one m c (sendS_ge2 k)).trans (payload_send m c k)) (later_one m c (sendS_ge2 k)) (oRows c k) (sbSlot k) rfl)

theorem wp_recvWait (k : Fin 8) {hsrc : (sbSlot k : Memref sig .tc .vmem S512x1024 .f32).view.WordExact}
    {hdst : (oRows c k : Memref sig .tc .hbm S512x1024 .f32).view.WordExact}
    {α : Type} {Q : α → sProp 𝕄} {kont : PUnit → Prog (TpuEff nD τ sig (Elt F) Λ₀ .tc) α} {W : Waits sig Unit}
    {prog : Prog (TpuEff nD τ sig (Elt F) Λ₀ .tc) α} (hprog : prog = .op (.waitDma2 (recvS k) (sbSlot k) (oRows c k) hsrc hdst) kont) :
    invs m K c ⊢ iprop(cred (tallyAt (recvCell c k) () Nout) -∗ owes (c : Thread nD τ) 0 W -∗ atPos ER (recvCell c k) 0 ∅ 0
        -∗ ((owes (c : Thread nD τ) 0 (insert (SemLoc.dma (recvS k), ()) W) ∗ semVal (recvCell c k) 0
              ∗ oPts c (peer c) k (outAt m c))
            -∗ wp frame (wpE (defs₀ (F := F)) 𝒱₀ (c : Thread nD τ) none) Set.univ (kont ⟨⟩) Q)
        -∗ wp frame (wpE (defs₀ (F := F)) 𝒱₀ (c : Thread nD τ) none) Set.univ prog Q) := by
  subst hprog
  exact (inv_recv m K c k).trans (wp_waitClose m c _ (recvS k) Nout (recvPay m c k) (expect_one m c (recvS_ge2 k)) ((rest_one m c (recvS_ge2 k)).trans (payload_recv m c k)) (later_one m c (recvS_ge2 k)) (sbSlot k) (oRows c k) rfl)

omit [FloatOps F] in
theorem oPts_ex (c d : Dev nD) (k : Fin 8) (f : Buf (Elt F) ((oRows d k : Memref sig .tc .hbm S512x1024 .f32).view.loc (c : Thread nD τ))) :
    (oPts c d k f : sProp 𝕄) ⊢ iprop(∃ g, oPts c d k g) := by
  iintro H; iexists f; iexact H

omit [FloatOps F] in
theorem barPay_split (c : Dev nD) : (barPay c : sProp 𝕄)
    = iprop((bigSep Finset.univ fun k : Fin 8 => iprop(∃ f, oPts (peer c) c k f)) ∗ bigSep Finset.univ fun k : Fin 8 => reached ER (recvCell (peer c) k) 0) := by
  unfold barPay; rw [bigSep_sep']

omit [FloatOps F] in
theorem barPay_intro (c : Dev nD) (f : Buf (Elt F) ((c : Thread nD τ).loc main_v1)) :
    iprop((bigSep Finset.univ fun k : Fin 8 => oPts c (peer c) k f) ∗ reach0 c) ⊢ (barPay (peer c) : sProp 𝕄) := by
  rw [barPay_split, peer_peer]
  exact (sep_mono_left (bigSep_mono fun k _ => oPts_ex c (peer c) k f)).trans
    (sep_mono_right ((BI.bigSep_of_persistent Finset.univ (reach0 c)).trans (bigSep_mono fun k _ => reach_recv c k)))

end Steps

end Cert.Kernel.A2A

end
-- ==== Proof.KBody.lean ====
import proofs.«900650_g7700000000000651_dist_a2a_v7x_xyz2x4x4_x_m4096_n1024_f32_1_alg».proof.Proof.KSteps
import proofs.«900650_g7700000000000651_dist_a2a_v7x_xyz2x4x4_x_m4096_n1024_f32_1_alg».proof.Proof.Gen.Kernel.Points

noncomputable section

namespace Cert.Kernel.A2A

open Cert.Kernel Cert.Kernel.Gen Cert.A2A
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

def bodyPre (K : Dev nD × Fin 27 → ℕ) (c : Dev nD) : sProp 𝕄 :=
  iprop(ghost m K c ∗ credits c ∗ levAts L lv
    ∗ (((c : Thread nD τ).loc main_arg0) ↦{fullShare} xAt m c)
    ∗ (((c : Thread nD τ).loc main_v1) ↦{fullShare} m ((c : Thread nD τ).loc main_v1))
    ∗ scratch c ∗ (dats m 0 c).owesAt () t0_0.castSucc)

def bodyPost (c : Dev nD) : sProp 𝕄 := iprop(Φ₁ m c ∗ (dats m 0 c).owesAt () t0_0.succ)

/-- A device keeps the column half its own first coordinate names and sends the other; the branch of the body it takes goes with that. -/
theorem halves (c : Dev nD) :
    ((0 : Fin 2) = xf c ∧ (1 : Fin 2) = xf (peer c)
      ∧ Scalar.cmpi .ne (Scalar.extui (Scalar.cmpi .eq (Scalar.remsi (Scalar.divsi (Dev.word c) 16#32) 2#32) 0#32)) 0#32 = 1#1
      ∧ ¬ Scalar.cmpi .ne (Scalar.extui (Scalar.cmpi .eq (Scalar.remsi (Scalar.divsi (Dev.word c) 16#32) 2#32) 1#32)) 0#32 = 1#1)
    ∨ ((1 : Fin 2) = xf c ∧ (0 : Fin 2) = xf (peer c)
      ∧ Scalar.cmpi .ne (Scalar.extui (Scalar.cmpi .eq (Scalar.remsi (Scalar.divsi (Dev.word c) 16#32) 2#32) 1#32)) 0#32 = 1#1
      ∧ ¬ Scalar.cmpi .ne (Scalar.extui (Scalar.cmpi .eq (Scalar.remsi (Scalar.divsi (Dev.word c) 16#32) 2#32) 0#32)) 0#32 = 1#1) := by
  revert c; decide

set_option maxHeartbeats 4000000 in
set_option maxRecDepth 65536 in
theorem sound_body (c : Dev nD) (K : Dev nD × Fin 27 → ℕ) (Kt : PUnit → sProp 𝕄) :
    iprop(bodyPre m K c ∗ (bodyPost m c -∗ Kt ⟨⟩))
      ⊢ wp frame (wpE (defs₀ (F := F)) 𝒱₀ (c : Thread nD τ) none) Set.univ (bodyAt0 (F := F) t0_0) Kt := by
  rcases halves c with ⟨hxc, hxp, hp, hn⟩ | ⟨hxc, hxp, hp, hn⟩
  all_goals
    unfold bodyAt0
    simp only [cc0_body_eq_skeleton]; unfold cc0_body_skel
    rw [k0_part1_eq_skeleton]; unfold k0_part1_skel
    simp only [semSignalWord, semWaitWord, Prog.lift, Prog.bind_op, Prog.bind_ret, Prog.pure_eq_ret, wp_deviceId, dif_pos hp, dif_neg hn]
    unfold bodyPre ghost atStart payToks credits scratch
    simp only [bigSep_fin8, bigSep_fin2]
    iintro ⟨⟨⟨#HI, #Hr0, #Hrp, ⟨HatB, ⟨Hat0, Hat1⟩, ⟨Hatk0, Hatk1, Hatk2, Hatk3, Hatk4, Hatk5, Hatk6, Hatk7⟩, ⟨Hats0, Hats1, Hats2, Hats3, Hats4, Hats5, Hats6, Hats7⟩, ⟨Hatr0, Hatr1, Hatr2, Hatr3, Hatr4, Hatr5, Hatr6, Hatr7⟩⟩, ⟨HtB, ⟨Htr0, Htr1, Htr2, Htr3, Htr4, Htr5, Htr6, Htr7⟩, ⟨Htk0, Htk1, Htk2, Htk3, Htk4, Htk5, Htk6, Htk7⟩, ⟨Hts0, Hts1, Hts2, Hts3, Hts4, Hts5, Hts6, Hts7⟩, ⟨Htl0, Htl1, Htl2, Htl3, Htl4, Htl5, Htl6, Htl7⟩⟩⟩, ⟨HcB, ⟨Hcr0, Hcr1, Hcr2, Hcr3, Hcr4, Hcr5, Hcr6, Hcr7⟩⟩, #Hlev, Hx, Hout, ⟨⟨%fi, Hin⟩, ⟨%fs, Hsb⟩, ⟨%fk, Hkb⟩⟩, Ho⟩, Hk⟩
    ihave Hx := (Entails.of_eq (x_split' m c)) $$ Hx
    ihave Hout := (Entails.of_eq (o_split c _)) $$ Hout
    ihave Hin := (Entails.of_eq (in_split c _)) $$ Hin
    ihave Hsb := (Entails.of_eq (sb_split c _)) $$ Hsb
    ihave Hkb := (Entails.of_eq (kb_split c _)) $$ Hkb
    icases Hout with ⟨HoutO, HoutP⟩
    ihave H' := (Entails.of_eq (bigSep_fin8 _)) $$ Hx
    icases H' with ⟨Hx0, Hx1, Hx2, Hx3, Hx4, Hx5, Hx6, Hx7⟩
    ihave H' := (Entails.of_eq (bigSep_fin8 _)) $$ HoutO
    icases H' with ⟨Hoo0, Hoo1, Hoo2, Hoo3, Hoo4, Hoo5, Hoo6, Hoo7⟩
    ihave H' := (Entails.of_eq (bigSep_fin8 _)) $$ Hsb
    icases H' with ⟨Hsb0, Hsb1, Hsb2, Hsb3, Hsb4, Hsb5, Hsb6, Hsb7⟩
    ihave H' := (Entails.of_eq (bigSep_fin8 _)) $$ Hkb
    icases H' with ⟨Hkb0, Hkb1, Hkb2, Hkb3, Hkb4, Hkb5, Hkb6, Hkb7⟩
    ihave H' := (Entails.of_eq (bigSep_fin2 _)) $$ Hin
    icases H' with ⟨Hin0, Hin1⟩
    ihave Hrl0 := (reach_load (F := F) c 0) $$ Hr0
    ihave Hrl1 := (reach_load (F := F) c 1) $$ Hr0
    unfold Dat.owesAt Pipeline.owesWithin
    icases Ho with ⟨%W, %hW, HO⟩
    rw [show (dats m 0 c).owed t0_0.castSucc = O₀ c from rfl]
    unfold O₀
    simp only [dev1_eq c]
    ihave #HIbp := (inv_peer_bar m K c) $$ HI
    ihave #Hrbp := (reach_bar (F := F) (peer c)) $$ Hrp
    iapply (Rounds.wp_signal 𝒱₀ ER (Rd m) (c : Thread nD τ) none (dst := (peer c : Thread nD τ)) (κ := K (peer c, iBar))
        (d := ()) (by rw [duties_bar m (peer c)]; exact Finset.mem_singleton_self _) ((amount_bar m (peer c) 0 ()).trans (by decide)) () (owedFrom c 0) rfl)
      $$ [HO HtB HoutP]
    · isplitr; · iexact HIbp
      isplitl [HO]; · iexact HO
      isplitl [HtB]; · iexact HtB
      isplitl [HoutP]
      · rw [payload_bar]
        iapply (barPay_intro c _)
        isplitl [HoutP]; · iexact HoutP
        iexact Hr0
      · iexact Hrbp
    iintro HO
    ihave #HIb := (inv_bar m K c) $$ HI
    iapply (Rounds.wp_wait_rest_token 𝒱₀ ER (Rd m) (c : Thread nD τ) none (κ := K (c, iBar))
        (wpE_semWait_eq 𝒱₀ (c : Thread nD τ) none Set.univ) (Set.mem_univ _) () (O := owedFrom c 0) (W := W) (R := 0) (m := 0) (T := ∅)
        (by rw [expect_bar]; decide)) $$ [HcB HO HatB]
    · isplitr; · iexact HIb
      isplitl [HcB]; · iexact HcB
      isplitl [HO]; · iexact HO
      isplitr; · iapply (mayWait_bar c); iexact Hlev
      iexact HatB
    iintro ⟨HO, HatB, -, Hpay⟩
    ihave Hp := (Entails.of_eq ((rest_bar m c).trans (barPay_split c))) $$ Hpay
    icases Hp with ⟨Hop, -⟩
    ihave H' := (Entails.of_eq (bigSep_fin8 _)) $$ Hop
    icases H' with ⟨⟨%g0, Hop0⟩, ⟨%g1, Hop1⟩, ⟨%g2, Hop2⟩, ⟨%g3, Hop3⟩, ⟨%g4, Hop4⟩, ⟨%g5, Hop5⟩, ⟨%g6, Hop6⟩, ⟨%g7, Hop7⟩⟩
    iapply (wp_loadStart m K c (0 : Fin 8) 0 (by decide) (0) (by decide) ?_) $$ HI Hx0 Hin0 Htl0 Hrl0
    · rfl
    iintro Hcl0
    iapply (wp_loadStart m K c (1 : Fin 8) 1 (by decide) (0) (by decide) ?_) $$ HI Hx1 Hin1 Htl1 Hrl1
    · rfl
    iintro Hcl1
    rw [k0_part2_eq_skeleton]; unfold k0_part2_skel
    simp only [semSignalWord, semWaitWord, Prog.lift, Prog.bind_op, Prog.bind_ret, Prog.pure_eq_ret, wp_deviceId, dif_pos hp, dif_neg hn]
    iapply (wp_loadWait m K c (0 : Fin 8) 0 (by decide) (0) (by decide) (0) ?_) $$ HI Hlev Hcl0 HO Hat0
    · rfl
    iintro ⟨HO, Hat0, Hrl0, Hin0, Hx0⟩
    iapply (wp_moveSend c (0 : Fin 8) (0 : Fin 2) hxp (xAt m c) ?_) $$ Hin0 Hsb0
    · rfl
    iintro ⟨Hin0, Hsb0⟩
    iapply (wp_moveKeep c (0 : Fin 8) (0 : Fin 2) hxc (xAt m c) ?_) $$ Hin0 Hkb0
    · rfl
    iintro ⟨Hin0, Hkb0⟩
    iapply (wp_rdma m K c _ (dev2_eq c) (0 : Fin 8) (by decide) (0) (by decide) _ hxp ?_) $$ HI Hr0 Hrp Hsb0 Hop0 HO Hts0 Htr0
    · rfl
    iintro ⟨Hcs0, HO⟩
    rw [k0_part3_eq_skeleton]; unfold k0_part3_skel
    simp only [semSignalWord, semWaitWord, Prog.lift, Prog.bind_op, Prog.bind_ret, Prog.pure_eq_ret, wp_deviceId, dif_pos hp, dif_neg hn]
    iapply (wp_keepStart m K c (0 : Fin 8) _ hxc ?_) $$ HI Hr0 Hkb0 Hoo0 Htk0
    · rfl
    iintro Hck0
    iapply (wp_loadStart m K c (2 : Fin 8) 0 (by decide) (0 + 1) (by decide) ?_) $$ HI Hx2 Hin0 Htl2 Hrl0
    · rfl
    iintro Hcl0
    iapply (wp_loadWait m K c (1 : Fin 8) 1 (by decide) (0) (by decide) (0 + 1) ?_) $$ HI Hlev Hcl1 HO Hat1
    · rfl
    iintro ⟨HO, Hat1, Hrl1, Hin1, Hx1⟩
    iapply (wp_moveSend c (1 : Fin 8) (1 : Fin 2) hxp (xAt m c) ?_) $$ Hin1 Hsb1
    · rfl
    iintro ⟨Hin1, Hsb1⟩
    iapply (wp_moveKeep c (1 : Fin 8) (1 : Fin 2) hxc (xAt m c) ?_) $$ Hin1 Hkb1
    · rfl
    iintro ⟨Hin1, Hkb1⟩
    rw [k0_part4_eq_skeleton]; unfold k0_part4_skel
    simp only [semSignalWord, semWaitWord, Prog.lift, Prog.bind_op, Prog.bind_ret, Prog.pure_eq_ret, wp_deviceId, dif_pos hp, dif_neg hn]
    iapply (wp_rdma m K c _ (dev3_eq c) (1 : Fin 8) (by decide) (0 + 1) (by decide) _ hxp ?_) $$ HI Hr0 Hrp Hsb1 Hop1 HO Hts1 Htr1
    · rfl
    iintro ⟨Hcs1, HO⟩
    iapply (wp_keepStart m K c (1 : Fin 8) _ hxc ?_) $$ HI Hr0 Hkb1 Hoo1 Htk1
    · rfl
    iintro Hck1
    iapply (wp_loadStart m K c (3 : Fin 8) 1 (by decide) (0 + 1) (by decide) ?_) $$ HI Hx3 Hin1 Htl3 Hrl1
    · rfl
    iintro Hcl1
    iapply (wp_loadWait m K c (2 : Fin 8) 0 (by decide) (0 + 1) (by decide) (0 + 1 + 1) ?_) $$ HI Hlev Hcl0 HO Hat0
    · rfl
    iintro ⟨HO, Hat0, Hrl0, Hin0, Hx2⟩
    iapply (wp_moveSend c (2 : Fin 8) (0 : Fin 2) hxp (xAt m c) ?_) $$ Hin0 Hsb2
    · rfl
    iintro ⟨Hin0, Hsb2⟩
    iapply (wp_moveKeep c (2 : Fin 8) (0 : Fin 2) hxc (xAt m c) ?_) $$ Hin0 Hkb2
    · rfl
    iintro ⟨Hin0, Hkb2⟩
    rw [k0_part5_eq_skeleton]; unfold k0_part5_skel
    simp only [semSignalWord, semWaitWord, Prog.lift, Prog.bind_op, Prog.bind_ret, Prog.pure_eq_ret, wp_deviceId, dif_pos hp, dif_neg hn]
    iapply (wp_rdma m K c _ (dev4_eq c) (2 : Fin 8) (by decide) (0 + 1 + 1) (by decide) _ hxp ?_) $$ HI Hr0 Hrp Hsb2 Hop2 HO Hts2 Htr2
    · rfl
    iintro ⟨Hcs2, HO⟩
    iapply (wp_keepStart m K c (2 : Fin 8) _ hxc ?_) $$ HI Hr0 Hkb2 Hoo2 Htk2
    · rfl
    iintro Hck2
    iapply (wp_loadStart m K c (4 : Fin 8) 0 (by decide) (0 + 1 + 1) (by decide) ?_) $$ HI Hx4 Hin0 Htl4 Hrl0
    · rfl
    iintro Hcl0
    rw [k0_part6_eq_skeleton]; unfold k0_part6_skel
    simp only [semSignalWord, semWaitWord, Prog.lift, Prog.bind_op, Prog.bind_ret, Prog.pure_eq_ret, wp_deviceId, dif_pos hp, dif_neg hn]
    iapply (wp_loadWait m K c (3 : Fin 8) 1 (by decide) (0 + 1) (by decide) (0 + 1 + 1 + 1) ?_) $$ HI Hlev Hcl1 HO Hat1
    · rfl
    iintro ⟨HO, Hat1, Hrl1, Hin1, Hx3⟩
    iapply (wp_moveSend c (3 : Fin 8) (1 : Fin 2) hxp (xAt m c) ?_) $$ Hin1 Hsb3
    · rfl
    iintro ⟨Hin1, Hsb3⟩
    iapply (wp_moveKeep c (3 : Fin 8) (1 : Fin 2) hxc (xAt m c) ?_) $$ Hin1 Hkb3
    · rfl
    iintro ⟨Hin1, Hkb3⟩
    iapply (wp_rdma m K c _ (dev5_eq c) (3 : Fin 8) (by decide) (0 + 1 + 1 + 1) (by decide) _ hxp ?_) $$ HI Hr0 Hrp Hsb3 Hop3 HO Hts3 Htr3
    · rfl
    iintro ⟨Hcs3, HO⟩
    rw [k0_part7_eq_skeleton]; unfold k0_part7_skel
    simp only [semSignalWord, semWaitWord, Prog.lift, Prog.bind_op, Prog.bind_ret, Prog.pure_eq_ret, wp_deviceId, dif_pos hp, dif_neg hn]
    iapply (wp_keepStart m K c (3 : Fin 8) _ hxc ?_) $$ HI Hr0 Hkb3 Hoo3 Htk3
    · rfl
    iintro Hck3
    iapply (wp_loadStart m K c (5 : Fin 8) 1 (by decide) (0 + 1 + 1) (by decide) ?_) $$ HI Hx5 Hin1 Htl5 Hrl1
    · rfl
    iintro Hcl1
    iapply (wp_loadWait m K c (4 : Fin 8) 0 (by decide) (0 + 1 + 1) (by decide) (0 + 1 + 1 + 1 + 1) ?_) $$ HI Hlev Hcl0 HO Hat0
    · rfl
    iintro ⟨HO, Hat0, Hrl0, Hin0, Hx4⟩
    iapply (wp_moveSend c (4 : Fin 8) (0 : Fin 2) hxp (xAt m c) ?_) $$ Hin0 Hsb4
    · rfl
    iintro ⟨Hin0, Hsb4⟩
    iapply (wp_moveKeep c (4 : Fin 8) (0 : Fin 2) hxc (xAt m c) ?_) $$ Hin0 Hkb4
    · rfl
    iintro ⟨Hin0, Hkb4⟩
    rw [k0_part8_eq_skeleton]; unfold k0_part8_skel
    simp only [semSignalWord, semWaitWord, Prog.lift, Prog.bind_op, Prog.bind_ret, Prog.pure_eq_ret, wp_deviceId, dif_pos hp, dif_neg hn]
    iapply (wp_rdma m K c _ (dev6_eq c) (4 : Fin 8) (by decide) (0 + 1 + 1 + 1 + 1) (by decide) _ hxp ?_) $$ HI Hr0 Hrp Hsb4 Hop4 HO Hts4 Htr4
    · rfl
    iintro ⟨Hcs4, HO⟩
    iapply (wp_keepStart m K c (4 : Fin 8) _ hxc ?_) $$ HI Hr0 Hkb4 Hoo4 Htk4
    · rfl
    iintro Hck4
    iapply (wp_loadStart m K c (6 : Fin 8) 0 (by decide) (0 + 1 + 1 + 1) (by decide) ?_) $$ HI Hx6 Hin0 Htl6 Hrl0
    · rfl
    iintro Hcl0
    iapply (wp_loadWait m K c (5 : Fin 8) 1 (by decide) (0 + 1 + 1) (by decide) (0 + 1 + 1 + 1 + 1 + 1) ?_) $$ HI Hlev Hcl1 HO Hat1
    · rfl
    iintro ⟨HO, Hat1, Hrl1, Hin1, Hx5⟩
    iapply (wp_moveSend c (5 : Fin 8) (1 : Fin 2) hxp (xAt m c) ?_) $$ Hin1 Hsb5
    · rfl
    iintro ⟨Hin1, Hsb5⟩
    iapply (wp_moveKeep c (5 : Fin 8) (1 : Fin 2) hxc (xAt m c) ?_) $$ Hin1 Hkb5
    · rfl
    iintro ⟨Hin1, Hkb5⟩
    rw [k0_part9_eq_skeleton]; unfold k0_part9_skel
    simp only [semSignalWord, semWaitWord, Prog.lift, Prog.bind_op, Prog.bind_ret, Prog.pure_eq_ret, wp_deviceId, dif_pos hp, dif_neg hn]
    iapply (wp_rdma m K c _ (dev7_eq c) (5 : Fin 8) (by decide) (0 + 1 + 1 + 1 + 1 + 1) (by decide) _ hxp ?_) $$ HI Hr0 Hrp Hsb5 Hop5 HO Hts5 Htr5
    · rfl
    iintro ⟨Hcs5, HO⟩
    iapply (wp_keepStart m K c (5 : Fin 8) _ hxc ?_) $$ HI Hr0 Hkb5 Hoo5 Htk5
    · rfl
    iintro Hck5
    iapply (wp_loadStart m K c (7 : Fin 8) 1 (by decide) (0 + 1 + 1 + 1) (by decide) ?_) $$ HI Hx7 Hin1 Htl7 Hrl1
    · rfl
    iintro Hcl1
    rw [k0_part10_eq_skeleton]; unfold k0_part10_skel
    simp only [semSignalWord, semWaitWord, Prog.lift, Prog.bind_op, Prog.bind_ret, Prog.pure_eq_ret, wp_deviceId, dif_pos hp, dif_neg hn]
    iapply (wp_loadWait m K c (6 : Fin 8) 0 (by decide) (0 + 1 + 1 + 1) (by decide) (0 + 1 + 1 + 1 + 1 + 1 + 1) ?_) $$ HI Hlev Hcl0 HO Hat0
    · rfl
    iintro ⟨HO, Hat0, Hrl0, Hin0, Hx6⟩
    iapply (wp_moveSend c (6 : Fin 8) (0 : Fin 2) hxp (xAt m c) ?_) $$ Hin0 Hsb6
    · rfl
    iintro ⟨Hin0, Hsb6⟩
    iapply (wp_moveKeep c (6 : Fin 8) (0 : Fin 2) hxc (xAt m c) ?_) $$ Hin0 Hkb6
    · rfl
    iintro ⟨Hin0, Hkb6⟩
    iapply (wp_rdma m K c _ (dev8_eq c) (6 : Fin 8) (by decide) (0 + 1 + 1 + 1 + 1 + 1 + 1) (by decide) _ hxp ?_) $$ HI Hr0 Hrp Hsb6 Hop6 HO Hts6 Htr6
    · rfl
    iintro ⟨Hcs6, HO⟩
    iapply (wp_keepStart m K c (6 : Fin 8) _ hxc ?_) $$ HI Hr0 Hkb6 Hoo6 Htk6
    · rfl
    iintro Hck6
    rw [k0_part11_eq_skeleton]; unfold k0_part11_skel
    simp only [semSignalWord, semWaitWord, Prog.lift, Prog.bind_op, Prog.bind_ret, Prog.pure_eq_ret, wp_deviceId, dif_pos hp, dif_neg hn]
    iapply (wp_loadWait m K c (7 : Fin 8) 1 (by decide) (0 + 1 + 1 + 1) (by decide) (0 + 1 + 1 + 1 + 1 + 1 + 1 + 1) ?_) $$ HI Hlev Hcl1 HO Hat1
    · rfl
    iintro ⟨HO, Hat1, Hrl1, Hin1, Hx7⟩
    iapply (wp_moveSend c (7 : Fin 8) (1 : Fin 2) hxp (xAt m c) ?_) $$ Hin1 Hsb7
    · rfl
    iintro ⟨Hin1, Hsb7⟩
    iapply (wp_moveKeep c (7 : Fin 8) (1 : Fin 2) hxc (xAt m c) ?_) $$ Hin1 Hkb7
    · rfl
    iintro ⟨Hin1, Hkb7⟩
    iapply (wp_rdma m K c _ (dev9_eq c) (7 : Fin 8) (by decide) (0 + 1 + 1 + 1 + 1 + 1 + 1 + 1) (by decide) _ hxp ?_) $$ HI Hr0 Hrp Hsb7 Hop7 HO Hts7 Htr7
    · rfl
    iintro ⟨Hcs7, HO⟩
    rw [show owedFrom c (0 + 1 + 1 + 1 + 1 + 1 + 1 + 1 + 1) = 0 from owedFrom_last c]
    rw [k0_part12_eq_skeleton]; unfold k0_part12_skel
    simp only [semSignalWord, semWaitWord, Prog.lift, Prog.bind_op, Prog.bind_ret, Prog.pure_eq_ret, wp_deviceId, dif_pos hp, dif_neg hn]
    iapply (wp_keepStart m K c (7 : Fin 8) _ hxc ?_) $$ HI Hr0 Hkb7 Hoo7 Htk7
    · rfl
    iintro Hck7
    iapply (wp_keepWait m K c (0 : Fin 8) ?_) $$ HI Hck0 HO Hatk0
    · rfl
    iintro ⟨HO, Hzk0, Hoo0, Hkb0⟩
    iapply (wp_keepWait m K c (1 : Fin 8) ?_) $$ HI Hck1 HO Hatk1
    · rfl
    iintro ⟨HO, Hzk1, Hoo1, Hkb1⟩
    iapply (wp_keepWait m K c (2 : Fin 8) ?_) $$ HI Hck2 HO Hatk2
    · rfl
    iintro ⟨HO, Hzk2, Hoo2, Hkb2⟩
    iapply (wp_keepWait m K c (3 : Fin 8) ?_) $$ HI Hck3 HO Hatk3
    · rfl
    iintro ⟨HO, Hzk3, Hoo3, Hkb3⟩
    rw [k0_part13_eq_skeleton]; unfold k0_part13_skel
    simp only [semSignalWord, semWaitWord, Prog.lift, Prog.bind_op, Prog.bind_ret, Prog.pure_eq_ret, wp_deviceId, dif_pos hp, dif_neg hn]
    iapply (wp_keepWait m K c (4 : Fin 8) ?_) $$ HI Hck4 HO Hatk4
    · rfl
    iintro ⟨HO, Hzk4, Hoo4, Hkb4⟩
    iapply (wp_keepWait m K c (5 : Fin 8) ?_) $$ HI Hck5 HO Hatk5
    · rfl
    iintro ⟨HO, Hzk5, Hoo5, Hkb5⟩
    iapply (wp_keepWait m K c (6 : Fin 8) ?_) $$ HI Hck6 HO Hatk6
    · rfl
    iintro ⟨HO, Hzk6, Hoo6, Hkb6⟩
    iapply (wp_keepWait m K c (7 : Fin 8) ?_) $$ HI Hck7 HO Hatk7
    · rfl
    iintro ⟨HO, Hzk7, Hoo7, Hkb7⟩
    iapply (wp_sendWait m K c (0 : Fin 8) ?_) $$ HI Hcs0 HO Hats0
    · rfl
    iintro ⟨HO, Hzs0, Hsb0⟩
    rw [k0_part14_eq_skeleton]; unfold k0_part14_skel
    simp only [semSignalWord, semWaitWord, Prog.lift, Prog.bind_op, Prog.bind_ret, Prog.pure_eq_ret, wp_deviceId, dif_pos hp, dif_neg hn]
    iapply (wp_recvWait m K c (0 : Fin 8) ?_) $$ HI Hcr0 HO Hatr0
    · rfl
    iintro ⟨HO, Hzr0, Hor0⟩
    iapply (wp_sendWait m K c (1 : Fin 8) ?_) $$ HI Hcs1 HO Hats1
    · rfl
    iintro ⟨HO, Hzs1, Hsb1⟩
    iapply (wp_recvWait m K c (1 : Fin 8) ?_) $$ HI Hcr1 HO Hatr1
    · rfl
    iintro ⟨HO, Hzr1, Hor1⟩
    iapply (wp_sendWait m K c (2 : Fin 8) ?_) $$ HI Hcs2 HO Hats2
    · rfl
    iintro ⟨HO, Hzs2, Hsb2⟩
    rw [k0_part15_eq_skeleton]; unfold k0_part15_skel
    simp only [semSignalWord, semWaitWord, Prog.lift, Prog.bind_op, Prog.bind_ret, Prog.pure_eq_ret, wp_deviceId, dif_pos hp, dif_neg hn]
    iapply (wp_recvWait m K c (2 : Fin 8) ?_) $$ HI Hcr2 HO Hatr2
    · rfl
    iintro ⟨HO, Hzr2, Hor2⟩
    iapply (wp_sendWait m K c (3 : Fin 8) ?_) $$ HI Hcs3 HO Hats3
    · rfl
    iintro ⟨HO, Hzs3, Hsb3⟩
    iapply (wp_recvWait m K c (3 : Fin 8) ?_) $$ HI Hcr3 HO Hatr3
    · rfl
    iintro ⟨HO, Hzr3, Hor3⟩
    rw [k0_part16_eq_skeleton]; unfold k0_part16_skel
    simp only [semSignalWord, semWaitWord, Prog.lift, Prog.bind_op, Prog.bind_ret, Prog.pure_eq_ret, wp_deviceId, dif_pos hp, dif_neg hn]
    iapply (wp_sendWait m K c (4 : Fin 8) ?_) $$ HI Hcs4 HO Hats4
    · rfl
    iintro ⟨HO, Hzs4, Hsb4⟩
    iapply (wp_recvWait m K c (4 : Fin 8) ?_) $$ HI Hcr4 HO Hatr4
    · rfl
    iintro ⟨HO, Hzr4, Hor4⟩
    iapply (wp_sendWait m K c (5 : Fin 8) ?_) $$ HI Hcs5 HO Hats5
    · rfl
    iintro ⟨HO, Hzs5, Hsb5⟩
    rw [k0_part17_eq_skeleton]; unfold k0_part17_skel
    simp only [semSignalWord, semWaitWord, Prog.lift, Prog.bind_op, Prog.bind_ret, Prog.pure_eq_ret, wp_deviceId, dif_pos hp, dif_neg hn]
    iapply (wp_recvWait m K c (5 : Fin 8) ?_) $$ HI Hcr5 HO Hatr5
    · rfl
    iintro ⟨HO, Hzr5, Hor5⟩
    iapply (wp_sendWait m K c (6 : Fin 8) ?_) $$ HI Hcs6 HO Hats6
    · rfl
    iintro ⟨HO, Hzs6, Hsb6⟩
    iapply (wp_recvWait m K c (6 : Fin 8) ?_) $$ HI Hcr6 HO Hatr6
    · rfl
    iintro ⟨HO, Hzr6, Hor6⟩
    iapply (wp_sendWait m K c (7 : Fin 8) ?_) $$ HI Hcs7 HO Hats7
    · rfl
    iintro ⟨HO, Hzs7, Hsb7⟩
    iapply (wp_recvWait m K c (7 : Fin 8) ?_) $$ HI Hcr7 HO Hatr7
    · rfl
    iintro ⟨HO, Hzr7, Hor7⟩
    ihave #HIl0 := (inv_load m K c (0 : Fin 2)) $$ HI
    imod (Rounds.cell_close ER (Rd m) (Set.mem_univ (K (c, iLoad 0))) (fun h => h) (R := (0 + 1 + 1 + 1 + 1)) (later_load m c 0)) $$ [Hat0] with Hzl0
    · isplitr; · iexact HIl0
      iexact Hat0
    ihave #HIl1 := (inv_load m K c (1 : Fin 2)) $$ HI
    imod (Rounds.cell_close ER (Rd m) (Set.mem_univ (K (c, iLoad 1))) (fun h => h) (R := (0 + 1 + 1 + 1 + 1)) (later_load m c 1)) $$ [Hat1] with Hzl1
    · isplitr; · iexact HIl1
      iexact Hat1
    rw [wp_ret]; imodintro
    iapply Hk
    unfold bodyPost Φ₁ scratch Dat.owesAt Pipeline.owesWithin
    rw [show (dats m 0 c).owed t0_0.succ = 0 from rfl]
    isplitr [HO]
    · isplitl [Hx0 Hx1 Hx2 Hx3 Hx4 Hx5 Hx6 Hx7]
      · iapply (x_join' m c); iframe
      isplitl [Hoo0 Hoo1 Hoo2 Hoo3 Hoo4 Hoo5 Hoo6 Hoo7 Hor0 Hor1 Hor2 Hor3 Hor4 Hor5 Hor6 Hor7]
      · iapply (o_join' m c); iframe
      isplitl [Hin0 Hin1 Hsb0 Hsb1 Hsb2 Hsb3 Hsb4 Hsb5 Hsb6 Hsb7 Hkb0 Hkb1 Hkb2 Hkb3 Hkb4 Hkb5 Hkb6 Hkb7]
      · isplitl [Hin0 Hin1]
        · iapply (in_join' c)
          isplitl [Hin0]; · iexists _; iexact Hin0
          iexists _; iexact Hin1
        isplitl [Hsb0 Hsb1 Hsb2 Hsb3 Hsb4 Hsb5 Hsb6 Hsb7]
        · iapply (sb_join' c)
          isplitl [Hsb0]; · iexists _; iexact Hsb0
          isplitl [Hsb1]; · iexists _; iexact Hsb1
          isplitl [Hsb2]; · iexists _; iexact Hsb2
          isplitl [Hsb3]; · iexists _; iexact Hsb3
          isplitl [Hsb4]; · iexists _; iexact Hsb4
          isplitl [Hsb5]; · iexists _; iexact Hsb5
          isplitl [Hsb6]; · iexists _; iexact Hsb6
          iexists _; iexact Hsb7
        · iapply (kb_join' c)
          isplitl [Hkb0]; · iexists _; iexact Hkb0
          isplitl [Hkb1]; · iexists _; iexact Hkb1
          isplitl [Hkb2]; · iexists _; iexact Hkb2
          isplitl [Hkb3]; · iexists _; iexact Hkb3
          isplitl [Hkb4]; · iexists _; iexact Hkb4
          isplitl [Hkb5]; · iexists _; iexact Hkb5
          isplitl [Hkb6]; · iexists _; iexact Hkb6
          iexists _; iexact Hkb7
      · iapply (sems_join' c); iframe
    · iexists _
      isplitr
      rotate_left
      · iexact HO
      · ipureintro; exact fun _ _ => Or.inl trivial

end Cert.Kernel.A2A

end
-- ==== Proof.KOblig.lean ====
import proofs.«900650_g7700000000000651_dist_a2a_v7x_xyz2x4x4_x_m4096_n1024_f32_1_alg».proof.Proof.KBody

noncomputable section

namespace Cert.Kernel.A2A

open Cert.Kernel Cert.Kernel.Gen Cert.A2A
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

set_option maxRecDepth 8000 in
theorem body_obligation (m : (ℓ : Loc nD τ sig) → Buf (Elt F) ℓ) (c : Dev nD) :
    BodyObligation (dats (F := F) m 0 c) (defs₀ (F := F)) 𝒱₀ () Set.univ := fun t => by
  rw [fin_N0 t]
  show iprop(Φ₀ m c ∗ (dats m 0 c).owesAt () t0_0.castSucc ∗ bigSep (Finset.univ : Finset (Fin 0)) _)
    ⊢ wp frame (wpE (defs₀ (F := F)) 𝒱₀ c none) Set.univ (bodyAt0 (F := F) t0_0)
        (fun _ => iprop(Φ₁ m c ∗ (dats m 0 c).owesAt () t0_0.succ ∗ bigSep (Finset.univ : Finset (Fin 0)) _))
  unfold Φ₀ start
  iintro ⟨⟨⟨⟨%K, Hg⟩, Hcr, Hlev, Hx, Ho⟩, Hscr⟩, Howes, -⟩
  iapply (sound_body m c K fun _ => iprop(Φ₁ m c ∗ (dats m 0 c).owesAt () t0_0.succ ∗ bigSep (Finset.univ : Finset (Fin 0)) _))
  unfold bodyPre bodyPost
  isplitr []
  · iframe
  · iintro ⟨H1, H2⟩
    isplitl [H1]; · iexact H1
    isplitl [H2]; · iexact H2
    rw [Finset.univ_eq_empty, bigSep_empty]; iempintro

/-- info: 'Cert.Kernel.A2A.body_obligation' depends on axioms: [propext, Classical.choice, Quot.sound] -/
#guard_msgs in #print axioms body_obligation

end Cert.Kernel.A2A

end
-- ==== Proof.KLaunch.lean ====
import proofs.«900650_g7700000000000651_dist_a2a_v7x_xyz2x4x4_x_m4096_n1024_f32_1_alg».proof.Proof.KTables
import proofs.«900650_g7700000000000651_dist_a2a_v7x_xyz2x4x4_x_m4096_n1024_f32_1_alg».proof.Proof.Gen.Kernel.Launch
import Idealize.ShloMosaic.Lib.Pipeline.Launch
import Idealize.ShloMosaic.Lib.Pipeline.Kit
import Idealize.ShloMosaic.Lib.Tactic
import Idealize.ShloMosaic.Lib.Ring

noncomputable section

namespace Cert.Kernel.A2A

open Cert.Kernel Cert.Kernel.Gen Cert.A2A
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem bigSep_fin_succ {n : ℕ} (Φ : Fin (n + 1) → sProp 𝕄) :
    bigSep Finset.univ Φ = iprop(Φ 0 ∗ bigSep Finset.univ fun j : Fin n => Φ j.succ) := by
  rw [Fin.univ_succ, Finset.cons_eq_insert, bigSep_insert (by simp [Fin.succ_ne_zero]), bigSep_map]
  rfl

abbrev CellIx : Type := Unit ⊕ (Fin 2 ⊕ (Fin 8 ⊕ (Fin 8 ⊕ Fin 8)))

def cellIx : CellIx ≃ Fin 27 where
  toFun
    | .inl _ => iBar
    | .inr (.inl s) => iLoad s
    | .inr (.inr (.inl k)) => iKeep k
    | .inr (.inr (.inr (.inl k))) => iSend k
    | .inr (.inr (.inr (.inr k))) => iRecv k
  invFun i :=
    if h0 : i.val = 0 then .inl ()
    else if h1 : i.val < 3 then .inr (.inl ⟨i.val - 1, by omega⟩)
    else if h2 : i.val < 11 then .inr (.inr (.inl ⟨i.val - 3, by omega⟩))
    else if h3 : i.val < 19 then .inr (.inr (.inr (.inl ⟨i.val - 11, by omega⟩)))
    else .inr (.inr (.inr (.inr ⟨i.val - 19, by have := i.isLt; omega⟩)))
  left_inv := by decide
  right_inv := by decide

def cellAt (c : Dev nD) : CellIx → GSem nD τ sig
  | .inl _ => barCell c
  | .inr (.inl s) => loadCell c s
  | .inr (.inr (.inl k)) => keepCell c k
  | .inr (.inr (.inr (.inl k))) => sendCell c k
  | .inr (.inr (.inr (.inr k))) => recvCell c k

theorem kcell_cellIx (c : Dev nD) (x : CellIx) : kcell (c, cellIx x) = cellAt c x := by
  rcases x with _ | s | k | k | k
  · exact kcell_bar c
  · exact kcell_load c s
  · exact kcell_keep c k
  · exact kcell_send c k
  · exact kcell_recv c k

theorem cells_split (c : Dev nD) (Φ : GSem nD τ sig → sProp 𝕄) :
    bigSep Finset.univ (fun i : Fin 27 => Φ (kcell (c, i)))
      = iprop(Φ (barCell c) ∗ (bigSep Finset.univ fun s : Fin 2 => Φ (loadCell c s)) ∗ (bigSep Finset.univ fun k : Fin 8 => Φ (keepCell c k))
          ∗ (bigSep Finset.univ fun k : Fin 8 => Φ (sendCell c k)) ∗ (bigSep Finset.univ fun k : Fin 8 => Φ (recvCell c k))) := by
  rw [bigSep_univ_equiv cellIx, bigSep_congr (Ψ := fun x : CellIx => Φ (cellAt c x)) (fun x _ => congrArg Φ (kcell_cellIx c x)),
    bigSep_univ_sum, bigSep_univ_sum, bigSep_univ_sum, bigSep_univ_sum, bigSep_univ_of_subsingleton ()]
  rfl

theorem row_at (Φ : Dev nD × Fin 27 → sProp 𝕄) (c : Dev nD) :
    bigSep Finset.univ Φ ⊢ bigSep Finset.univ fun i : Fin 27 => Φ (c, i) := by
  rw [bigSep_univ_prod]; exact bigSep_elim (Finset.mem_univ c)

theorem ownSemFacts : Pipeline.OwnSemFacts cfg0.spec osem := by decide

theorem L_of_not_tc (g : GSem nD τ sig) (h : g.1.2 ≠ .tc) : L g = ∅ := if_neg h

theorem csem_injective : Function.Injective csem := by decide

theorem csem_succ (j : Fin 26) : csem j.succ = osem j := by revert j; decide

theorem kcell_injective : Function.Injective (kcell : Dev nD × Fin 27 → GSem nD τ sig) := by
  rintro ⟨c, i⟩ ⟨c', i'⟩ h
  have h1 : c = c' := by have := congrArg (fun g : GSem nD τ sig => g.1.1) h; exact this
  subst h1
  have h2 : i = i' := csem_injective (congrArg Prod.snd h)
  subst h2; rfl

def ringCells : Finset (GSem nD τ sig) := Finset.univ.map ⟨kcell, kcell_injective⟩

abbrev TokIx : Type := Unit ⊕ (Fin 8 ⊕ (Fin 8 ⊕ (Fin 8 ⊕ Fin 8)))

def tokKey : TokIx → SemLoc sig × ℕ
  | .inl _ => (.reg barS, 0)
  | .inr (.inl k) => (.dma (loadS ⟨k.val % 2, Nat.mod_lt _ (by decide)⟩), k.val / 2)
  | .inr (.inr (.inl k)) => (.dma (keepS k), 0)
  | .inr (.inr (.inr (.inl k))) => (.dma (sendS k), 0)
  | .inr (.inr (.inr (.inr k))) => (.dma (recvS k), 0)

theorem tokKey_injective : Function.Injective tokKey := by decide

abbrev tokOf (cx : Dev nD × TokIx) : GSem nD τ sig × ℕ × Unit := (((cx.1 : Thread nD τ), (tokKey cx.2).1), (tokKey cx.2).2, ())

theorem tokOf_injective : Function.Injective (tokOf : Dev nD × TokIx → GSem nD τ sig × ℕ × Unit) := by
  rintro ⟨c, x⟩ ⟨c', x'⟩ h
  have h1 : c = c' := by have := congrArg (fun t : GSem nD τ sig × ℕ × Unit => t.1.1.1) h; exact this
  subst h1
  have h2 : x = x' :=
    tokKey_injective (Prod.ext (congrArg (fun t : GSem nD τ sig × ℕ × Unit => t.1.2) h) (congrArg (fun t : GSem nD τ sig × ℕ × Unit => t.2.1) h))
  subst h2; rfl

def ringToks : Finset (GSem nD τ sig × ℕ × Unit) := Finset.univ.map ⟨tokOf, tokOf_injective⟩

def u₀ : UU :=
  (initOf (Pipeline.cells cfgs cellOf_inj) (Pipeline.launchToks cfgs cellOf_inj), initOf ringCells ringToks)

def toks (c : Dev nD) : sProp 𝕄 :=
  iprop(dutyTok ER (barCell c) 0 ()
    ∗ (bigSep Finset.univ fun k : Fin 8 => dutyTok ER (loadCell c ⟨k.val % 2, Nat.mod_lt _ (by decide)⟩) (k.val / 2) ())
    ∗ (bigSep Finset.univ fun k : Fin 8 => dutyTok ER (keepCell c k) 0 ())
    ∗ (bigSep Finset.univ fun k : Fin 8 => dutyTok ER (sendCell c k) 0 ())
    ∗ (bigSep Finset.univ fun k : Fin 8 => dutyTok ER (recvCell c k) 0 ()))

theorem toks_eq (c : Dev nD) :
    bigSep Finset.univ (fun x : TokIx => (dutyTok ER (tokOf (c, x)).1 (tokOf (c, x)).2.1 (tokOf (c, x)).2.2 : sProp 𝕄)) = toks c := by
  rw [bigSep_univ_sum, bigSep_univ_sum, bigSep_univ_sum, bigSep_univ_sum, bigSep_univ_of_subsingleton ()]
  rfl

def G (m : (ℓ : Loc nD τ sig) → Buf (Elt F) ℓ) (c : Dev nD) : sProp 𝕄 :=
  iprop((bigSep Finset.univ fun i : Fin 27 => roundState ER (Rd m) (kcell (c, i)) 0)
    ∗ (bigSep Finset.univ fun i : Fin 27 => iprop(atPos ER (kcell (c, i)) 0 ∅ 0 ∗ reached ER (kcell (c, i)) 0)) ∗ toks c)

def G' (m : (ℓ : Loc nD τ sig) → Buf (Elt F) ℓ) (c : Dev nD) : sProp 𝕄 := iprop(∃ K, ghost m K c)

theorem fund_ring (m : (ℓ : Loc nD τ sig) → Buf (Elt F) ℓ) :
    BI.own (ER (initOf ringCells ringToks)) ⊢ (|==> bigSep Finset.univ (G m) : sProp 𝕄) := by
  have hX (Φ : GSem nD τ sig → sProp 𝕄) :
      bigSep ringCells Φ = bigSep Finset.univ fun c : Dev nD => bigSep Finset.univ fun i : Fin 27 => Φ (kcell (c, i)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => toks_eq c
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  iframe

theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun i : Fin 27 => semVal (kcell (c, i)) 0 : sProp 𝕄) := by
  have e : (fun j : Fin 26 => (semVal (kcell (c, j.succ)) 0 : sProp 𝕄)) = fun j => semVal ((c : Thread nD τ), osem j) 0 :=
    funext fun j => by rw [show kcell (c, j.succ) = ((c : Thread nD τ), osem j) from Prod.ext rfl (csem_succ j)]
  rw [unscopedSems0_eq, bigSep_fin_succ, e]
  unfold Pipeline.ownSems0
  iintro ⟨HS, HB⟩
  isplitl [HB]; · iexact HB
  iexact HS

theorem core_alloc (m : (ℓ : Loc nD τ sig) → Buf (Elt F) ℓ) (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i : Fin 27 => iprop(∃ κ : ℕ, cellInv ER (Rd m) κ (kcell (c, i))))
          ∗ (bigSep Finset.univ fun i : Fin 27 => iprop(atPos ER (kcell (c, i)) 0 ∅ 0 ∗ reached ER (kcell (c, i)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun i : Fin 27 => semVal (kcell (c, i)) 0) ∗ bigSep Finset.univ fun i : Fin 27 => roundState ER (Rd m) (kcell (c, i)) 0)
      ⊢ (|={Set.univ}=> bigSep Finset.univ fun i : Fin 27 => iprop(∃ κ : ℕ, cellInv ER (Rd m) κ (kcell (c, i))) : sProp 𝕄) from by
        rw [← bigSep_sep']
        exact (bigSep_mono fun i _ => (Rounds.body_intro ER (Rd m) (kcell (c, i))).trans inv_alloc).trans (bigSep_fupd _ _)) $$ [Hv Hst] with Hinv
  · isplitl [Hv] <;> iassumption
  imodintro
  iframe

def records (m : (ℓ : Loc nD τ sig) → Buf (Elt F) ℓ) (K : Dev nD × Fin 27 → ℕ) : sProp 𝕄 :=
  iprop((bigSep Finset.univ fun ck : Dev nD × Fin 27 => cellInv ER (Rd m) (K ck) (kcell ck))
    ∗ bigSep Finset.univ fun ck : Dev nD × Fin 27 => reached ER (kcell ck) 0)

instance records_persistent (m : (ℓ : Loc nD τ sig) → Buf (Elt F) ℓ) (K : Dev nD × Fin 27 → ℕ) : BI.Persistent (records m K) := by
  unfold records; infer_instance

theorem ghost_intro (m : (ℓ : Loc nD τ sig) → Buf (Elt F) ℓ) (K : Dev nD × Fin 27 → ℕ) (c : Dev nD) :
    iprop(records m K ∗ (atStart c ∗ payToks c)) ⊢ G' m c := by
  unfold records G' ghost invs reach0
  iintro ⟨⟨#HI, #HR⟩, Hat, Htk⟩
  iexists K
  isplitr
  · isplitr
    · iapply (row_at (fun ck : Dev nD × Fin 27 => (cellInv ER (Rd m) (K ck) (kcell ck) : sProp 𝕄)) c); iexact HI
    · iapply (row_at (fun ck : Dev nD × Fin 27 => (cellInv ER (Rd m) (K ck) (kcell ck) : sProp 𝕄)) (peer c)); iexact HI
  isplitr; · iapply (row_at (fun ck : Dev nD × Fin 27 => (reached ER (kcell ck) 0 : sProp 𝕄)) c); iexact HR
  isplitr; · iapply (row_at (fun ck : Dev nD × Fin 27 => (reached ER (kcell ck) 0 : sProp 𝕄)) (peer c)); iexact HR
  isplitl [Hat]; · iexact Hat
  iexact Htk

/-- A device keeps its load, keep and send tokens and hands its barrier token and its eight receive tokens to its partner; the pairing is its own inverse. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep', bigSep_sep', bigSep_sep',
    bigSep_univ_equiv pairing (fun c : Dev nD => (dutyTok ER (barCell c) 0 () : sProp 𝕄)),
    bigSep_univ_equiv pairing (fun c : Dev nD => (bigSep Finset.univ fun k : Fin 8 => dutyTok ER (recvCell c k) 0 () : sProp 𝕄))]
  iintro ⟨H1, H2, H3, H4, H5⟩
  isplitl [H1]; · iexact H1
  isplitl [H5]; · iexact H5
  isplitl [H3]; · iexact H3
  isplitl [H4]; · iexact H4
  iexact H2

theorem atStart_intro (c : Dev nD) : (bigSep Finset.univ fun i : Fin 27 => (atPos ER (kcell (c, i)) 0 ∅ 0 : sProp 𝕄)) ⊢ atStart c := by
  unfold atStart; exact Entails.of_eq (cells_split c fun g => atPos ER g 0 ∅ 0)

theorem regroup (m : (ℓ : Loc nD τ sig) → Buf (Elt F) ℓ) :
    (bigSep Finset.univ fun c : Dev nD => iprop((bigSep Finset.univ fun i : Fin 27 => iprop(∃ κ : ℕ, cellInv ER (Rd m) κ (kcell (c, i))))
          ∗ (bigSep Finset.univ fun i : Fin 27 => iprop(atPos ER (kcell (c, i)) 0 ∅ 0 ∗ reached ER (kcell (c, i)) 0)) ∗ toks c) : sProp 𝕄)
      ⊢ bigSep Finset.univ (G' m) := by
  rw [bigSep_sep', bigSep_sep', ← bigSep_univ_prod (fun ck : Dev nD × Fin 27 => iprop(∃ κ : ℕ, cellInv ER (Rd m) κ (kcell ck))),
    bigSep_congr (s := Finset.univ) (fun (c : Dev nD) _ => bigSep_sep' Finset.univ (fun i : Fin 27 => (atPos ER (kcell (c, i)) 0 ∅ 0 : sProp 𝕄)) (fun i => reached ER (kcell (c, i)) 0)),
    bigSep_sep', ← bigSep_univ_prod (fun ck : Dev nD × Fin 27 => (reached ER (kcell ck) 0 : sProp 𝕄))]
  iintro ⟨HI, ⟨Hat, #HR⟩, Htok⟩
  ihave HK := (BI.bigSep_exists_pi Finset.univ (fun (ck : Dev nD × Fin 27) (κ : ℕ) => (cellInv ER (Rd m) κ (kcell ck) : sProp 𝕄))) $$ HI
  icases HK with ⟨%K, #HI⟩
  ihave Htk := (toks_around (F := F)) $$ Htok
  iapply (BI.bigSep_with_persistent (R := records m K) fun c _ => ghost_intro m K c)
  isplitr
  · unfold records; isplitl; · iexact HI
    iexact HR
  · iapply ((Entails.of_eq (bigSep_sep' Finset.univ (fun c : Dev nD => bigSep Finset.univ fun i : Fin 27 => (atPos ER (kcell (c, i)) 0 ∅ 0 : sProp 𝕄)) payToks).symm).trans
      (bigSep_mono fun c _ => sep_mono_left (atStart_intro (F := F) c)))
    isplitl [Hat]; · iexact Hat
    iexact Htk

theorem glob (m : (ℓ : Loc nD τ sig) → Buf (Elt F) ℓ) :
    (bigSep Finset.univ fun c => iprop(Pipeline.ownSems0 (Ix := Unit) (Name := ℕ) (U := UU) (Lvl := ℕ) (Val := Elt F) (τ := τ) osem c ∗ unscopedSems0 c ∗ G m c) : sProp 𝕄)
      ⊢ |={Set.univ}=> bigSep Finset.univ (G' m) :=
  ((bigSep_mono fun c _ => core_alloc m c).trans (bigSep_fupd _ _)).trans (BI.fupd_mono (regroup m))

/-- What the devices owe device `c`'s cells at launch is its partner's dues: one unit on its barrier cell and a block's credit on each receive cell. -/
theorem creds (c : Dev nD) : (Pipeline.launchCred O₀ c : sProp 𝕄) ⊢ credits c := by
  have h1 : (Pipeline.launchCred O₀ c : sProp 𝕄)
      = iprop(Pipeline.launchCred (fun d : Dev nD => owedFrom d 0) c ∗ Pipeline.launchCred (fun d : Dev nD => tallyAt (barCell (peer d)) () 1) c) :=
    Pipeline.launchCred_add (fun d : Dev nD => owedFrom d 0) (fun d : Dev nD => tallyAt (barCell (peer d)) () 1) c
  have e : (fun d : Dev nD => owedFrom d 0) = fun d : Dev nD => ∑ k' ∈ (Finset.univ : Finset (Fin 8)), tallyAt (recvCell (peer d) k') () Nout := by
    funext d; unfold owedFrom; rw [Ring.rangeSet_univ]
  have h2 : (Pipeline.launchCred (fun d : Dev nD => owedFrom d 0) c : sProp 𝕄)
      = bigSep Finset.univ fun k' : Fin 8 => Pipeline.launchCred (fun d : Dev nD => tallyAt (recvCell (peer d) k') () Nout) c := by
    rw [e]; exact Pipeline.launchCred_sum Finset.univ (fun (k' : Fin 8) (d : Dev nD) => tallyAt (recvCell (peer d) k') () Nout) c
  have hR : (bigSep Finset.univ fun k' : Fin 8 => (Pipeline.launchCred (fun d : Dev nD => tallyAt (recvCell (peer d) k') () Nout) c : sProp 𝕄))
      ⊢ bigSep Finset.univ fun k' : Fin 8 => cred (tallyAt (recvCell c k') () Nout) :=
    bigSep_mono fun k' _ => Pipeline.launchCred_tallyAt (SemLoc.dma (recvS k')) peer peer peer_peer peer_peer () Nout c
  rw [h1, h2]
  unfold credits
  iintro ⟨HR, HB⟩
  isplitl [HB]
  · iapply (Pipeline.launchCred_tallyAt (SemLoc.reg barS) peer peer peer_peer peer_peer () 1 c); iexact HB
  · iapply hR; iexact HR

theorem start_intro (m : (ℓ : Loc nD τ sig) → Buf (Elt F) ℓ) (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨Hx, Ho⟩, Hlev, Hcr, -, HG⟩
  ihave Hc := (creds (F := F) c) $$ Hcr
  imodintro
  unfold start G' xAt
  isplitl
  · iframe
  · iempintro

theorem phi0_intro (m : (ℓ : Loc nD τ sig) → Buf (Elt F) ℓ) (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  iframe

def finalPts (m : (ℓ : Loc nD τ sig) → Buf (Elt F) ℓ) (c : Dev nD) : sProp 𝕄 :=
  iprop((((c : Thread nD τ).loc main_arg0) ↦{fullShare} xAt m c) ∗ (((c : Thread nD τ).loc main_v1) ↦{fullShare} outAt m c))

theorem phi1_exit (m : (ℓ : Loc nD τ sig) → Buf (Elt F) ℓ) (c : Dev nD) :
    (dats m 0 c).Φ (Fin.last cfg0.N) ⊢ iprop(finalPts m c ∗ Pipeline.ownSems0 osem c ∗ Pipeline.scopedRest cfg0.spec c) := by
  rw [show (dats m 0 c).Φ (Fin.last cfg0.N) = Φ₁ m c from rfl, scopedRest0_eq]
  unfold Φ₁ finalPts scratch Pipeline.ownSems0
  iintro ⟨Hx, Ho, Hr, Hz⟩
  iframe

theorem waits (m : (ℓ : Loc nD τ sig) → Buf (Elt F) ℓ) (c : Dev nD) :
    (levAts L lv : sProp 𝕄) ⊢ Pipeline.cellsWaits cfgs (dats m) () 0 c :=
  Pipeline.cellsWaits_intro cfgs (dats m) () 0 c fun w => w.elim0

set_option maxRecDepth 8000 in
/-- From zero counters every fair execution of the thirty-two devices terminates, each result at its final contents and each argument as launched. -/
theorem run_main (m : (ℓ : Loc nD τ sig) → Buf (Elt F) ℓ) (ρ : Dev nD → PrngReg)
    (hbody : ∀ c : Dev nD, BodyObligation (dats (F := F) m 0 c) (defs₀ (F := F)) 𝒱₀ () Set.univ) :
    θ_run defs (onTc (τ := τ) (main (F := F))) (s₀ m ρ)
      (fun r => ∀ c : Dev nD, r.2.mem ((c : Thread nD τ).loc main_v1) = outAt m c
        ∧ r.2.mem ((c : Thread nD τ).loc main_arg0) = m ((c : Thread nD τ).loc main_arg0)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (hbody c).loose) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_not_tc) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ w => w.elim0) (hpf := fun _ k => k.elim0)
    (X := start m) (Y := finalPts m) (Z := fun _ => iprop(emp))
    (hX := start_intro m ρ) (hin := phi0_intro m) (hout := phi1_exit m)
    (QY := fun c s => s.mem ((c : Thread nD τ).loc main_v1) = outAt m c
      ∧ s.mem ((c : Thread nD τ).loc main_arg0) = m ((c : Thread nD τ).loc main_arg0))
    (hY := fun c s' => by
      unfold finalPts xAt
      iintro ⟨⟨Hx, Ho⟩, -, HSI⟩
      icombine HSI Hx gives %hx
      icombine HSI Ho gives %ho
      imodintro
      isplitr; · ipureintro; exact ⟨Buf.eq_of_forall_mem_univ ho, Buf.eq_of_forall_mem_univ hx⟩
      iexact HSI)
    (hQ := fun _ h c => (h c).2.2)

/-- info: 'Cert.Kernel.A2A.run_main' depends on axioms: [propext, Classical.choice, Quot.sound] -/
#guard_msgs in #print axioms run_main

end Cert.Kernel.A2A

end
-- ==== Proof.RefRun.lean ====
import proofs.«900650_g7700000000000651_dist_a2a_v7x_xyz2x4x4_x_m4096_n1024_f32_1_alg».proof.Proof.Gen.ReferenceIdeal
import Idealize.ShloMosaic.Lib.StableHlo.Run

noncomputable section

namespace Cert.ReferenceIdeal.A2A

open Cert.ReferenceIdeal Cert.ReferenceIdeal.Gen
open Idealize.ShloMosaic Idealize.ShloMosaic.TcCoe Idealize.ShloMosaic.StableHlo Idealize.SL.Sem

variable {F : FTy → Type} [FloatOps F]

theorem noScopedRef : (Finset.univ.filter fun b : Ref sig .tc => b.isScoped) = ∅ := by decide
theorem noScopedSem : (Finset.univ.filter fun sm : SemLoc sig => sm.isScoped .tc) = ∅ := by decide

theorem main_nil (d : Dev nD) : main (F := F) d = seq [] := rfl

theorem run_main (m' : (ℓ : Loc nD τ sig) → Buf (Elt F) ℓ) (ρ' : Dev nD → PrngReg) :
    θ_run Cert.ReferenceIdeal.defs (onTc (τ := Cert.ReferenceIdeal.τ) (Cert.ReferenceIdeal.main (F := F))) ⟨m', fun _ => 0, ρ'⟩
      (fun r => ∀ c : Dev nD, r.2.mem ((c.tc : Thread nD τ).loc main_arg0) = m' ((c.tc : Thread nD τ).loc main_arg0)) :=
  OrdCont.mono (θ_run defs _ _) (fun _ h c => h c main_arg0)
    (run_seq noScopedRef noScopedSem defs main (fun _ => []) main_nil (fun _ => trivial) m' ρ')

/-- info: 'Cert.ReferenceIdeal.A2A.run_main' depends on axioms: [propext, Classical.choice, Quot.sound] -/
#guard_msgs in #print axioms run_main

end Cert.ReferenceIdeal.A2A

end
-- ==== Proof.lean ====
import proofs.«900650_g7700000000000651_dist_a2a_v7x_xyz2x4x4_x_m4096_n1024_f32_1_alg».proof.Defs
import proofs.«900650_g7700000000000651_dist_a2a_v7x_xyz2x4x4_x_m4096_n1024_f32_1_alg».proof.Proof.Gen.Kernel
import proofs.«900650_g7700000000000651_dist_a2a_v7x_xyz2x4x4_x_m4096_n1024_f32_1_alg».proof.Proof.Gen.KernelIdeal
import proofs.«900650_g7700000000000651_dist_a2a_v7x_xyz2x4x4_x_m4096_n1024_f32_1_alg».proof.Proof.Gen.ReferenceIdeal
import proofs.«900650_g7700000000000651_dist_a2a_v7x_xyz2x4x4_x_m4096_n1024_f32_1_alg».proof.Proof.Gen.Pre_finite_inputs_Kernel
import proofs.«900650_g7700000000000651_dist_a2a_v7x_xyz2x4x4_x_m4096_n1024_f32_1_alg».proof.Proof.Gen.Pre_finite_inputs_ReferenceIdeal
import proofs.«900650_g7700000000000651_dist_a2a_v7x_xyz2x4x4_x_m4096_n1024_f32_1_alg».proof.Proof.Oblig
import proofs.«900650_g7700000000000651_dist_a2a_v7x_xyz2x4x4_x_m4096_n1024_f32_1_alg».proof.Proof.Launch
import proofs.«900650_g7700000000000651_dist_a2a_v7x_xyz2x4x4_x_m4096_n1024_f32_1_alg».proof.Proof.Value
import proofs.«900650_g7700000000000651_dist_a2a_v7x_xyz2x4x4_x_m4096_n1024_f32_1_alg».proof.Proof.KOblig
import proofs.«900650_g7700000000000651_dist_a2a_v7x_xyz2x4x4_x_m4096_n1024_f32_1_alg».proof.Proof.KLaunch
import proofs.«900650_g7700000000000651_dist_a2a_v7x_xyz2x4x4_x_m4096_n1024_f32_1_alg».proof.Proof.RefRun
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts,
    fun m ρ _ => (θ_run (Cert.Kernel.defs (F := Bits)) _ _).mono (fun _ h c => (h c).2)
      (Cert.Kernel.A2A.run_main (F := Bits) m ρ (Cert.Kernel.A2A.body_obligation m)),
    fun m ρ _ => (θ_run (Cert.KernelIdeal.defs (F := Ideal)) _ _).mono (fun _ h c => (h c).2)
      (Cert.KernelIdeal.A2A.run_main (F := Ideal) m ρ (Cert.KernelIdeal.A2A.body_obligation m)),
    fun m ρ _ => Cert.ReferenceIdeal.A2A.run_main (F := Ideal) m ρ,
    trivial,
    fun m ρ m' ρ' _ hagree =>
      ⟨m' (((0 : Dev Cert.ReferenceIdeal.nD).tc : Thread Cert.ReferenceIdeal.nD Cert.ReferenceIdeal.τ).loc Cert.ReferenceIdeal.main_arg0),
        (θ_run (Cert.KernelIdeal.defs (F := Ideal)) _ _).mono
          (fun _ h c => ⟨(h c).1.trans (Cert.KernelIdeal.A2A.outAt_eq_block m _ hagree c), (h c).2⟩)
          (Cert.KernelIdeal.A2A.run_main (F := Ideal) m ρ (Cert.KernelIdeal.A2A.body_obligation m)),
        (θ_run (Cert.ReferenceIdeal.defs (F := Ideal)) _ _).mono (fun _ h => ⟨h 0, h 0⟩)
          (Cert.ReferenceIdeal.A2A.run_main (F := Ideal) m' ρ')⟩⟩

end Cert.Proof

end
